-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x133 : Shape := ⟨2, ![65536, 133]⟩
abbrev S131072x147 : Shape := ⟨2, ![131072, 147]⟩
abbrev S65536x6 : Shape := ⟨2, ![65536, 6]⟩
abbrev S65536 : Shape := ⟨1, ![65536]⟩
abbrev S133x256 : Shape := ⟨2, ![133, 256]⟩
abbrev S256 : Shape := ⟨1, ![256]⟩
abbrev S270x256 : Shape := ⟨2, ![270, 256]⟩
abbrev S389x256 : Shape := ⟨2, ![389, 256]⟩
abbrev S_ : Shape := ⟨0, ![]⟩

class Facts : Prop where
  bcast_S_S65536x133 : S_.BroadcastsInDim S65536x133 (![] : Fin 0 → Fin S65536x133.rank)
  reducesTo_S65536x133_S_d0_1 : S65536x133.ReducesTo [0, 1] S_
  h_S_ : 0 < S_.numel
  bcast_S_S131072x147 : S_.BroadcastsInDim S131072x147 (![] : Fin 0 → Fin S131072x147.rank)
  reducesTo_S131072x147_S_d0_1 : S131072x147.ReducesTo [0, 1] S_
  bcast_S_S133x256 : S_.BroadcastsInDim S133x256 (![] : Fin 0 → Fin S133x256.rank)
  reducesTo_S133x256_S_d0_1 : S133x256.ReducesTo [0, 1] S_
  bcast_S_S256 : S_.BroadcastsInDim S256 (![] : Fin 0 → Fin S256.rank)
  reducesTo_S256_S_d0 : S256.ReducesTo [0] S_
  bcast_S_S270x256 : S_.BroadcastsInDim S270x256 (![] : Fin 0 → Fin S270x256.rank)
  reducesTo_S270x256_S_d0_1 : S270x256.ReducesTo [0, 1] S_
  bcast_S_S389x256 : S_.BroadcastsInDim S389x256 (![] : Fin 0 → Fin S389x256.rank)
  reducesTo_S389x256_S_d0_1 : S389x256.ReducesTo [0, 1] S_

variable [Facts]

def fn_part2 {F : FTy → Type} [FloatOps F] (main_arg10 : FVec F S256 .f32) (main_v33 : IVec S_ 1) : IVec S_ 1 :=
  let main_v34 : FVec F S256 .f32 := Host.absf main_arg10
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg7 : FVec F S270x256 .f32) (main_arg8 : FVec F S256 .f32) (main_arg9 : FVec F S389x256 .f32) (main_arg10 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S270x256 .f32 := Host.absf main_arg7
  let main_cst_6 : FVec F S_ .f32 := constant S_ .f32 0x7F800000#32
  let main_v20 : FVec F S270x256 .f32 := broadcastInDim S270x256 ![] bcast_S_S270x256 main_cst_6
  let main_v21 : IVec S270x256 1 := cmpf .olt main_v19 main_v20
  let main_c_7 : IVec S_ 1 := constantI S_ 1 1#1
  let main_v22 : IVec S_ 1 := (fun x v => Host.reduce IntOp.andi x v reducesTo_S270x256_S_d0_1 h_S_) main_v21 main_c_7
  let main_v23 : IVec S_ 1 := andi main_v18 main_v22
  let main_v24 : FVec F S256 .f32 := Host.absf main_arg8
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S389x256 .f32 := Host.absf main_arg9
  let main_cst_10 : FVec F S_ .f32 := constant S_ .f32 0x7F800000#32
  let main_v30 : FVec F S389x256 .f32 := broadcastInDim S389x256 ![] bcast_S_S389x256 main_cst_10
  let main_v31 : IVec S389x256 1 := cmpf .olt main_v29 main_v30
  let main_c_11 : IVec S_ 1 := constantI S_ 1 1#1
  let main_v32 : IVec S_ 1 := (fun x v => Host.reduce IntOp.andi x v reducesTo_S389x256_S_d0_1 h_S_) main_v31 main_c_11
  let main_v33 : IVec S_ 1 := andi main_v28 main_v32
  fn_part2 (F := F) main_arg10 main_v33

def fn {F : FTy → Type} [FloatOps F] (main_arg0 : FVec F S65536x133 .f32) (main_arg1 : FVec F S131072x147 .f32) (main_arg2 : IVec S65536x6 32) (main_arg3 : IVec S65536x6 32) (main_arg4 : IVec S65536 32) (main_arg5 : FVec F S133x256 .f32) (main_arg6 : FVec F S256 .f32) (main_arg7 : FVec F S270x256 .f32) (main_arg8 : FVec F S256 .f32) (main_arg9 : FVec F S389x256 .f32) (main_arg10 : FVec F S256 .f32) : IVec S_ 1 :=
  let main_v0 : FVec F S65536x133 .f32 := Host.absf main_arg0
  let main_cst : FVec F S_ .f32 := constant S_ .f32 0x7F800000#32
  let main_v1 : FVec F S65536x133 .f32 := broadcastInDim S65536x133 ![] bcast_S_S65536x133 main_cst
  let main_v2 : IVec S65536x133 1 := cmpf .olt main_v0 main_v1
  let main_c : IVec S_ 1 := constantI S_ 1 1#1
  let main_v3 : IVec S_ 1 := (fun x v => Host.reduce IntOp.andi x v reducesTo_S65536x133_S_d0_1 h_S_) main_v2 main_c
  let main_v4 : FVec F S131072x147 .f32 := Host.absf main_arg1
  let main_cst_0 : FVec F S_ .f32 := constant S_ .f32 0x7F800000#32
  let main_v5 : FVec F S131072x147 .f32 := broadcastInDim S131072x147 ![] bcast_S_S131072x147 main_cst_0
  let main_v6 : IVec S131072x147 1 := cmpf .olt main_v4 main_v5
  let main_c_1 : IVec S_ 1 := constantI S_ 1 1#1
  let main_v7 : IVec S_ 1 := (fun x v => Host.reduce IntOp.andi x v reducesTo_S131072x147_S_d0_1 h_S_) main_v6 main_c_1
  let main_v8 : IVec S_ 1 := andi main_v3 main_v7
  let main_v9 : FVec F S133x256 .f32 := Host.absf main_arg5
  let main_cst_2 : FVec F S_ .f32 := constant S_ .f32 0x7F800000#32
  let main_v10 : FVec F S133x256 .f32 := broadcastInDim S133x256 ![] bcast_S_S133x256 main_cst_2
  let main_v11 : IVec S133x256 1 := cmpf .olt main_v9 main_v10
  let main_c_3 : IVec S_ 1 := constantI S_ 1 1#1
  let main_v12 : IVec S_ 1 := (fun x v => Host.reduce IntOp.andi x v reducesTo_S133x256_S_d0_1 h_S_) main_v11 main_c_3
  let main_v13 : IVec S_ 1 := andi main_v8 main_v12
  let main_v14 : FVec F S256 .f32 := Host.absf main_arg6
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg7 main_arg8 main_arg9 main_arg10 main_v13 main_v16
-- ==== Kernel.lean ====
abbrev S65536x133 : Shape := ⟨2, ![65536, 133]⟩
abbrev S131072x147 : Shape := ⟨2, ![131072, 147]⟩
abbrev S65536x6 : Shape := ⟨2, ![65536, 6]⟩
abbrev S65536 : Shape := ⟨1, ![65536]⟩
abbrev S133x256 : Shape := ⟨2, ![133, 256]⟩
abbrev S256 : Shape := ⟨1, ![256]⟩
abbrev S270x256 : Shape := ⟨2, ![270, 256]⟩
abbrev S389x256 : Shape := ⟨2, ![389, 256]⟩
abbrev S131072x14 : Shape := ⟨2, ![131072, 14]⟩
abbrev S256x256 : Shape := ⟨2, ![256, 256]⟩
abbrev S14x256 : Shape := ⟨2, ![14, 256]⟩
abbrev S_ : Shape := ⟨0, ![]⟩
abbrev S65536x6x1 : Shape := ⟨3, ![65536, 6, 1]⟩
abbrev S65536x6x14 : Shape := ⟨3, ![65536, 6, 14]⟩
abbrev S65536x14 : Shape := ⟨2, ![65536, 14]⟩
abbrev S1x256 : Shape := ⟨2, ![1, 256]⟩
abbrev S65536x256 : Shape := ⟨2, ![65536, 256]⟩
abbrev S2048x133 : Shape := ⟨2, ![2048, 133]⟩
abbrev S2048x14 : Shape := ⟨2, ![2048, 14]⟩
abbrev S2048x256 : Shape := ⟨2, ![2048, 256]⟩
abbrev S65536x6x256 : Shape := ⟨3, ![65536, 6, 256]⟩
abbrev S2048 : Shape := ⟨1, ![2048]⟩
abbrev S65536x1 : Shape := ⟨2, ![65536, 1]⟩
abbrev S2x32768x133 : Shape := ⟨3, ![2, 32768, 133]⟩
abbrev S2x32768x256 : Shape := ⟨3, ![2, 32768, 256]⟩
abbrev S2x32768x1 : Shape := ⟨3, ![2, 32768, 1]⟩
abbrev S2x2048x256 : Shape := ⟨3, ![2, 2048, 256]⟩
abbrev S1x256x133 : Shape := ⟨3, ![1, 256, 133]⟩
abbrev S1x256x256 : Shape := ⟨3, ![1, 256, 256]⟩
abbrev S1x256x1 : Shape := ⟨3, ![1, 256, 1]⟩
abbrev S1x2048x256 : Shape := ⟨3, ![1, 2048, 256]⟩
abbrev S256x133 : Shape := ⟨2, ![256, 133]⟩
abbrev S256x1 : Shape := ⟨2, ![256, 1]⟩
abbrev S256x2048 : Shape := ⟨2, ![256, 2048]⟩
abbrev S2048x1 : Shape := ⟨2, ![2048, 1]⟩

abbrev nBuf : Space → Nat
  | .hbm => 104
  | .vmem => 38
  | .smem => 0
  | _ => 0

abbrev bufTy : (tb : Table) → Fin (tcTables nBuf tb) → BufTy
  | .hbm, ⟨0, _⟩ => ⟨S65536x133, .f32⟩
  | .hbm, ⟨1, _⟩ => ⟨S131072x147, .f32⟩
  | .hbm, ⟨2, _⟩ => ⟨S65536x6, .i32⟩
  | .hbm, ⟨3, _⟩ => ⟨S65536x6, .i32⟩
  | .hbm, ⟨4, _⟩ => ⟨S65536, .i32⟩
  | .hbm, ⟨5, _⟩ => ⟨S133x256, .f32⟩
  | .hbm, ⟨6, _⟩ => ⟨S256, .f32⟩
  | .hbm, ⟨7, _⟩ => ⟨S270x256, .f32⟩
  | .hbm, ⟨8, _⟩ => ⟨S256, .f32⟩
  | .hbm, ⟨9, _⟩ => ⟨S389x256, .f32⟩
  | .hbm, ⟨10, _⟩ => ⟨S256, .f32⟩
  | .hbm, ⟨11, _⟩ => ⟨S131072x14, .f32⟩
  | .hbm, ⟨12, _⟩ => ⟨S256x256, .f32⟩
  | .hbm, ⟨13, _⟩ => ⟨S14x256, .f32⟩
  | .hbm, ⟨14, _⟩ => ⟨S_, .i32⟩
  | .hbm, ⟨15, _⟩ => ⟨S65536x6, .i32⟩
  | .hbm, ⟨16, _⟩ => ⟨S65536x6, .i1⟩
  | .hbm, ⟨17, _⟩ => ⟨S_, .i32⟩
  | .hbm, ⟨18, _⟩ => ⟨S65536x6, .i32⟩
  | .hbm, ⟨19, _⟩ => ⟨S65536x6, .i32⟩
  | .hbm, ⟨20, _⟩ => ⟨S65536x6, .i32⟩
  | .hbm, ⟨21, _⟩ => ⟨S65536x6x1, .i32⟩
  | .hbm, ⟨22, _⟩ => ⟨S65536x6x14, .f32⟩
  | .hbm, ⟨23, _⟩ => ⟨S_, .f32⟩
  | .hbm, ⟨24, _⟩ => ⟨S65536x14, .f32⟩
  | .hbm, ⟨25, _⟩ => ⟨S1x256, .f32⟩
  | .hbm, ⟨26, _⟩ => ⟨S1x256, .f32⟩
  | .hbm, ⟨27, _⟩ => ⟨S65536x256, .bf16⟩
  | .hbm, ⟨28, _⟩ => ⟨S65536x256, .f32⟩
  | .hbm, ⟨29, _⟩ => ⟨S_, .i32⟩
  | .hbm, ⟨30, _⟩ => ⟨S65536x6, .i32⟩
  | .hbm, ⟨31, _⟩ => ⟨S65536x6, .i1⟩
  | .hbm, ⟨32, _⟩ => ⟨S_, .i32⟩
  | .hbm, ⟨33, _⟩ => ⟨S65536x6, .i32⟩
  | .hbm, ⟨34, _⟩ => ⟨S65536x6, .i32⟩
  | .hbm, ⟨35, _⟩ => ⟨S65536x6, .i32⟩
  | .hbm, ⟨36, _⟩ => ⟨S65536x6x1, .i32⟩
  | .hbm, ⟨37, _⟩ => ⟨S65536x6x256, .bf16⟩
  | .hbm, ⟨38, _⟩ => ⟨S65536x6x256, .f32⟩
  | .hbm, ⟨39, _⟩ => ⟨S_, .f32⟩
  | .hbm, ⟨40, _⟩ => ⟨S65536x256, .f32⟩
  | .hbm, ⟨41, _⟩ => ⟨S65536x256, .bf16⟩
  | .hbm, ⟨42, _⟩ => ⟨S65536x256, .bf16⟩
  | .hbm, ⟨43, _⟩ => ⟨S_, .i32⟩
  | .hbm, ⟨44, _⟩ => ⟨S65536x6, .i32⟩
  | .hbm, ⟨45, _⟩ => ⟨S65536x6, .i1⟩
  | .hbm, ⟨46, _⟩ => ⟨S_, .i32⟩
  | .hbm, ⟨47, _⟩ => ⟨S65536x6, .i32⟩
  | .hbm, ⟨48, _⟩ => ⟨S65536x6, .i32⟩
  | .hbm, ⟨49, _⟩ => ⟨S65536x6, .i32⟩
  | .hbm, ⟨50, _⟩ => ⟨S65536x6x1, .i32⟩
  | .hbm, ⟨51, _⟩ => ⟨S65536x6x256, .bf16⟩
  | .hbm, ⟨52, _⟩ => ⟨S65536x6x256, .f32⟩
  | .hbm, ⟨53, _⟩ => ⟨S_, .f32⟩
  | .hbm, ⟨54, _⟩ => ⟨S65536x256, .f32⟩
  | .hbm, ⟨55, _⟩ => ⟨S65536x256, .bf16⟩
  | .hbm, ⟨56, _⟩ => ⟨S65536x256, .bf16⟩
  | .hbm, ⟨57, _⟩ => ⟨S_, .i32⟩
  | .hbm, ⟨58, _⟩ => ⟨S65536x6, .i32⟩
  | .hbm, ⟨59, _⟩ => ⟨S65536x6, .i1⟩
  | .hbm, ⟨60, _⟩ => ⟨S_, .i32⟩
  | .hbm, ⟨61, _⟩ => ⟨S65536x6, .i32⟩
  | .hbm, ⟨62, _⟩ => ⟨S65536x6, .i32⟩
  | .hbm, ⟨63, _⟩ => ⟨S65536x6, .i32⟩
  | .hbm, ⟨64, _⟩ => ⟨S65536x6x1, .i32⟩
  | .hbm, ⟨65, _⟩ => ⟨S65536x6x256, .bf16⟩
  | .hbm, ⟨66, _⟩ => ⟨S65536x6x256, .f32⟩
  | .hbm, ⟨67, _⟩ => ⟨S_, .f32⟩
  | .hbm, ⟨68, _⟩ => ⟨S65536x256, .f32⟩
  | .hbm, ⟨69, _⟩ => ⟨S65536x256, .bf16⟩
  | .hbm, ⟨70, _⟩ => ⟨S133x256, .f32⟩
  | .hbm, ⟨71, _⟩ => ⟨S256x256, .f32⟩
  | .hbm, ⟨72, _⟩ => ⟨S_, .f32⟩
  | .hbm, ⟨73, _⟩ => ⟨S65536, .f32⟩
  | .hbm, ⟨74, _⟩ => ⟨S_, .f32⟩
  | .hbm, ⟨75, _⟩ => ⟨S2048, .f32⟩
  | .hbm, ⟨76, _⟩ => ⟨S65536x1, .i32⟩
  | .hbm, ⟨77, _⟩ => ⟨S2048, .f32⟩
  | .hbm, ⟨78, _⟩ => ⟨S_, .f32⟩
  | .hbm, ⟨79, _⟩ => ⟨S2048, .f32⟩
  | .hbm, ⟨80, _⟩ => ⟨S2048, .i1⟩
  | .hbm, ⟨81, _⟩ => ⟨S_, .f32⟩
  | .hbm, ⟨82, _⟩ => ⟨S2048, .f32⟩
  | .hbm, ⟨83, _⟩ => ⟨S2048, .f32⟩
  | .hbm, ⟨84, _⟩ => ⟨S_, .f32⟩
  | .hbm, ⟨85, _⟩ => ⟨S2048, .f32⟩
  | .hbm, ⟨86, _⟩ => ⟨S2048, .f32⟩
  | .hbm, ⟨87, _⟩ => ⟨S_, .f32⟩
  | .hbm, ⟨88, _⟩ => ⟨S_, .f32⟩
  | .hbm, ⟨89, _⟩ => ⟨S2048, .f32⟩
  | .hbm, ⟨90, _⟩ => ⟨S2048, .f32⟩
  | .hbm, ⟨91, _⟩ => ⟨S2x32768x133, .f32⟩
  | .hbm, ⟨92, _⟩ => ⟨S2x32768x256, .bf16⟩
  | .hbm, ⟨93, _⟩ => ⟨S2x32768x1, .i32⟩
  | .hbm, ⟨94, _⟩ => ⟨S1x256, .f32⟩
  | .hbm, ⟨95, _⟩ => ⟨S2x2048x256, .f32⟩
  | .hbm, ⟨96, _⟩ => ⟨S1x2048x256, .f32⟩
  | .hbm, ⟨97, _⟩ => ⟨S2048x256, .f32⟩
  | .hbm, ⟨98, _⟩ => ⟨S1x2048x256, .f32⟩
  | .hbm, ⟨99, _⟩ => ⟨S2048x256, .f32⟩
  | .hbm, ⟨100, _⟩ => ⟨S2048x256, .f32⟩
  | .hbm, ⟨101, _⟩ => ⟨S2048x1, .f32⟩
  | .hbm, ⟨102, _⟩ => ⟨S2048x256, .f32⟩
  | .hbm, ⟨103, _⟩ => ⟨S2048x256, .f32⟩
  | .local _ .vmem, ⟨0, _⟩ => ⟨S2048x133, .f32⟩
  | .local _ .vmem, ⟨1, _⟩ => ⟨S2048x133, .f32⟩
  | .local _ .vmem, ⟨2, _⟩ => ⟨S133x256, .f32⟩
  | .local _ .vmem, ⟨3, _⟩ => ⟨S1x256, .f32⟩
  | .local _ .vmem, ⟨4, _⟩ => ⟨S2048x14, .f32⟩
  | .local _ .vmem, ⟨5, _⟩ => ⟨S2048x14, .f32⟩
  | .local _ .vmem, ⟨6, _⟩ => ⟨S14x256, .f32⟩
  | .local _ .vmem, ⟨7, _⟩ => ⟨S1x256, .f32⟩
  | .local _ .vmem, ⟨8, _⟩ => ⟨S2048x256, .bf16⟩
  | .local _ .vmem, ⟨9, _⟩ => ⟨S2048x256, .bf16⟩
  | .local _ .vmem, ⟨10, _⟩ => ⟨S2048x256, .f32⟩
  | .local _ .vmem, ⟨11, _⟩ => ⟨S2048x256, .f32⟩
  | .local _ .vmem, ⟨12, _⟩ => ⟨S2048x256, .bf16⟩
  | .local _ .vmem, ⟨13, _⟩ => ⟨S2048x256, .bf16⟩
  | .local _ .vmem, ⟨14, _⟩ => ⟨S2048x256, .f32⟩
  | .local _ .vmem, ⟨15, _⟩ => ⟨S2048x256, .f32⟩
  | .local _ .vmem, ⟨16, _⟩ => ⟨S256x256, .f32⟩
  | .local _ .vmem, ⟨17, _⟩ => ⟨S2048x256, .bf16⟩
  | .local _ .vmem, ⟨18, _⟩ => ⟨S2048x256, .bf16⟩
  | .local _ .vmem, ⟨19, _⟩ => ⟨S2048x256, .bf16⟩
  | .local _ .vmem, ⟨20, _⟩ => ⟨S2048x256, .bf16⟩
  | .local _ .vmem, ⟨21, _⟩ => ⟨S2048x256, .f32⟩
  | .local _ .vmem, ⟨22, _⟩ => ⟨S2048x256, .f32⟩
  | .local _ .vmem, ⟨23, _⟩ => ⟨S256x256, .f32⟩
  | .local _ .vmem, ⟨24, _⟩ => ⟨S2048x256, .bf16⟩
  | .local _ .vmem, ⟨25, _⟩ => ⟨S2048x256, .bf16⟩
  | .local _ .vmem, ⟨26, _⟩ => ⟨S1x256x133, .f32⟩
  | .local _ .vmem, ⟨27, _⟩ => ⟨S1x256x133, .f32⟩
  | .local _ .vmem, ⟨28, _⟩ => ⟨S1x256x256, .bf16⟩
  | .local _ .vmem, ⟨29, _⟩ => ⟨S1x256x256, .bf16⟩
  | .local _ .vmem, ⟨30, _⟩ => ⟨S1x256x1, .i32⟩
  | .local _ .vmem, ⟨31, _⟩ => ⟨S1x256x1, .i32⟩
  | .local _ .vmem, ⟨32, _⟩ => ⟨S133x256, .f32⟩
  | .local _ .vmem, ⟨33, _⟩ => ⟨S256x256, .f32⟩
  | .local _ .vmem, ⟨34, _⟩ => ⟨S1x256, .f32⟩
  | .local _ .vmem, ⟨35, _⟩ => ⟨S1x2048x256, .f32⟩
  | .local _ .vmem, ⟨36, _⟩ => ⟨S1x2048x256, .f32⟩
  | .local _ .vmem, ⟨37, _⟩ => ⟨S2048x256, .f32⟩
  | _, _ => ⟨S65536x133, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_v4 : Ref sig .tc := ⟨.hbm, 16, rfl⟩
abbrev main_c_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13_0 : Ref sig .tc := ⟨.hbm, 27, rfl⟩
abbrev main_v13_1 : Ref sig .tc := ⟨.hbm, 28, rfl⟩
abbrev main_c_1 : Ref sig .tc := ⟨.hbm, 29, rfl⟩
abbrev main_v14 : Ref sig .tc := ⟨.hbm, 30, rfl⟩
abbrev main_v15 : Ref sig .tc := ⟨.hbm, 31, rfl⟩
abbrev main_c_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_4 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_6 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_7 : Ref sig .tc := ⟨.hbm, 57, rfl⟩
abbrev main_v36 : Ref sig .tc := ⟨.hbm, 58, rfl⟩
abbrev main_v37 : Ref sig .tc := ⟨.hbm, 59, rfl⟩
abbrev main_c_8 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_10 : Ref sig .tc := ⟨.hbm, 72, rfl⟩
abbrev main_v48 : Ref sig .tc := ⟨.hbm, 73, rfl⟩
abbrev main_cst_11 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_12 : Ref sig .tc := ⟨.hbm, 78, rfl⟩
abbrev main_v52 : Ref sig .tc := ⟨.hbm, 79, rfl⟩
abbrev main_v53 : Ref sig .tc := ⟨.hbm, 80, rfl⟩
abbrev main_cst_13 : Ref sig .tc := ⟨.hbm, 81, rfl⟩
abbrev main_v54 : Ref sig .tc := ⟨.hbm, 82, rfl⟩
abbrev main_v55 : Ref sig .tc := ⟨.hbm, 83, rfl⟩
abbrev main_cst_14 : Ref sig .tc := ⟨.hbm, 84, rfl⟩
abbrev main_v56 : Ref sig .tc := ⟨.hbm, 85, rfl⟩
abbrev main_v57 : Ref sig .tc := ⟨.hbm, 86, rfl⟩
abbrev main_cst_15 : Ref sig .tc := ⟨.hbm, 87, rfl⟩
abbrev main_call0_v0 : Ref sig .tc := ⟨.hbm, 88, rfl⟩
abbrev main_call0_v1 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg3_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg3_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg2_1 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg6_0 : Ref sig .tc := ⟨.vmem, 35, rfl⟩
abbrev cc3_stg6_1 : Ref sig .tc := ⟨.vmem, 36, rfl⟩
abbrev cc3_scratch0 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem3_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem3_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem2_1 : DmaSem sig := 31
abbrev cc3_sem3_0 : DmaSem sig := 32
abbrev cc3_sem4_0 : DmaSem sig := 33
abbrev cc3_sem5_0 : DmaSem sig := 34
abbrev cc3_sem6_0 : DmaSem sig := 35
abbrev cc3_sem6_1 : DmaSem sig := 36

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x133 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S133x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x14 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S14x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2048x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2048x256 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![2, 128], ![false, false]⟩

def k3_cond2 (i : grid3.Coords) : BitVec 1 :=
  let arg1 : BitVec 32 := BitVec.ofNat 32 (i 1).val
  let c127_i32 : BitVec 32 := 127#32
  let v36 : BitVec 1 := Scalar.cmpi .eq arg1 c127_i32
  let v37 : BitVec 32 := Scalar.extui v36
  let c0_i32_22 : BitVec 32 := 0#32
  let v38 : BitVec 1 := Scalar.cmpi .ne v37 c0_i32_22
  v38

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x256x133 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x256x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x256x1 .i32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 1 → Memref sig .tc .vmem S133x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S256x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 2 → Memref sig .tc .vmem S1x2048x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, false]

class Facts₀ : Prop where
  slices_S131072x147_S131072x14_0_133 : S131072x147.Slices ![0, 133] S131072x14
  slices_S270x256_S256x256_0_0 : S270x256.Slices ![0, 0] S256x256
  slices_S270x256_S14x256_256_0 : S270x256.Slices ![256, 0] S14x256
  bcast_S_S65536x6 : S_.BroadcastsInDim S65536x6 (![] : Fin 0 → Fin S65536x6.rank)
  bcast_S65536x6_S65536x6x1_0_1 : S65536x6.BroadcastsInDim S65536x6x1 (![0, 1] : Fin 2 → Fin S65536x6x1.rank)
  reducesTo_S65536x6x14_S65536x14_d1 : S65536x6x14.ReducesTo [1] S65536x14
  h_S_ : 0 < S_.numel
  shapeCasts_S256_S1x256 : S256.ShapeCasts S1x256
  inb_S2048x133_S2048x133_0_0 : ∀ a, (![0, 0] : Fin 2 → Nat) a + S2048x133.size a ≤ S2048x133.size a
  h_S2048x133 : 0 < S2048x133.numel
  bitsLt_bf16_f32 : FTy.bits .bf16 < FTy.bits .f32
  inb_S133x256_S133x256_0_0 : ∀ a, (![0, 0] : Fin 2 → Nat) a + S133x256.size a ≤ S133x256.size a
  h_S133x256 : 0 < S133x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S2048x14_S2048x14_0_0 : ∀ a, (![0, 0] : Fin 2 → Nat) a + S2048x14.size a ≤ S2048x14.size a
  h_S2048x14 : 0 < S2048x14.numel
  shapeCasts_S2048x14_S2048x14 : S2048x14.ShapeCasts S2048x14
  inb_S14x256_S14x256_0_0 : ∀ a, (![0, 0] : Fin 2 → Nat) a + S14x256.size a ≤ S14x256.size a
  h_S14x256 : 0 < S14x256.numel
  shapeCasts_S14x256_S14x256 : S14x256.ShapeCasts S14x256
  inb_S2048x256_S2048x256_0_0 : ∀ a, (![0, 0] : Fin 2 → Nat) a + S2048x256.size a ≤ S2048x256.size a
  h_S2048x256 : 0 < S2048x256.numel
  packedbf16_S2048x256_S2048x256_0_0 : (Rect.unit (s := S2048x256) ![0, 0] S2048x256.size inb_S2048x256_S2048x256_0_0).PackedRows (EltTy.packing .bf16)
  reducesTo_S65536x6x256_S65536x256_d1 : S65536x6x256.ReducesTo [1] S65536x256
  shapeCasts_S2048x256_S2048x256 : S2048x256.ShapeCasts S2048x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S389x256_S133x256_0_0 : S389x256.Slices ![0, 0] S133x256
  slices_S389x256_S256x256_133_0 : S389x256.Slices ![133, 0] S256x256
  bcast_S_S65536 : S_.BroadcastsInDim S65536 (![] : Fin 0 → Fin S65536.rank)
  bcast_S_S2048 : S_.BroadcastsInDim S2048 (![] : Fin 0 → Fin S2048.rank)
  bcast_S65536_S65536x1_0 : S65536.BroadcastsInDim S65536x1 (![0] : Fin 1 → Fin S65536x1.rank)
  shapeCasts_S65536x133_S2x32768x133 : S65536x133.ShapeCasts S2x32768x133
  shapeCasts_S65536x256_S2x32768x256 : S65536x256.ShapeCasts S2x32768x256
  shapeCasts_S65536_S2x32768x1 : S65536.ShapeCasts S2x32768x1
  inb_S1x256x133_S1x256x133_0_0_0 : ∀ a, (![0, 0, 0] : Fin 3 → Nat) a + S1x256x133.size a ≤ S1x256x133.size a
  h_S1x256x133 : 0 < S1x256x133.numel
  shapeCasts_S1x256x133_S256x133 : S1x256x133.ShapeCasts S256x133
  shapeCasts_S133x256_S133x256 : S133x256.ShapeCasts S133x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  broadcasts_S1x256_S256x256 : S1x256.Broadcasts S256x256
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  iota_S256x2048_d1_w32 : S256x2048.Iotas .tc 32 [1]
  broadcasts_S256x1_S256x2048 : S256x1.Broadcasts S256x2048
  natLt_1_32 : 1 < 32
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  shapeCasts_S2048x256_S1x2048x256 : S2048x256.ShapeCasts S1x2048x256
  slices_S2x2048x256_S1x2048x256_0_0_0 : S2x2048x256.Slices ![0, 0, 0] S1x2048x256
  slices_S2x2048x256_S1x2048x256_1_0_0 : S2x2048x256.Slices ![1, 0, 0] S1x2048x256
  shapeCasts_S2048_S2048x1 : S2048.ShapeCasts S2048x1
  bcast_S2048x1_S2048x256_0_1 : S2048x1.BroadcastsInDim S2048x256 (![0, 1] : Fin 2 → Fin S2048x256.rank)
  gather_S131072x14_S65536x6x1_S65536x6x14_2_0_n_n_0_2_114_wf : GatherDims.WF S131072x14 S65536x6x1 S65536x6x14 [2] [0] [] [0] [] 2 ![1, 14]
  dot_S2048x133_S133x256_S2048x256_1_0_0_1_n_n_wf : DotDims.WF S2048x133 S133x256 S2048x256 [1] [0] [0] [1] [] []
  dot_S2048x14_S14x256_S2048x256_1_0_0_1_n_n_wf : DotDims.WF S2048x14 S14x256 S2048x256 [1] [0] [0] [1] [] []
  gather_S65536x256_S65536x6x1_S65536x6x256_2_0_n_n_0_2_1256_wf : GatherDims.WF S65536x256 S65536x6x1 S65536x6x256 [2] [0] [] [0] [] 2 ![1, 256]
  dot_S2048x256_S256x256_S2048x256_1_0_0_1_n_n_wf : DotDims.WF S2048x256 S256x256 S2048x256 [1] [0] [0] [1] [] []
  scatter_S2048_S65536x1_S65536_n_0_0_1_wf : ScatterDims.WF S2048 S65536x1 S65536 [] [0] [0] 1
  dot_S256x133_S133x256_S256x256_1_0_0_1_n_n_wf : DotDims.WF S256x133 S133x256 S256x256 [1] [0] [0] [1] [] []
  dot_S256x256_S256x256_S256x256_1_0_0_1_n_n_wf : DotDims.WF S256x256 S256x256 S256x256 [1] [0] [0] [1] [] []
  dot_S256x2048_S256x256_S2048x256_0_0_1_1_n_n_wf : DotDims.WF S256x2048 S256x256 S2048x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x133.size a ≤ S65536x133.size a
  hwx0_0 : ∀ i : grid0.Coords, EltTy.bits .f32 = 32 ∨ (Rect.block (s := S65536x133) S2048x133.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S133x256.size a ≤ S133x256.size a
  hwx0_1 : ∀ i : grid0.Coords, EltTy.bits .f32 = 32 ∨ (Rect.block (s := S133x256) S133x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x14.size a ≤ S65536x14.size a
  hwx0_3 : ∀ i : grid0.Coords, EltTy.bits .f32 = 32 ∨ (Rect.block (s := S65536x14) S2048x14.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S14x256.size a ≤ S14x256.size a
  hwx0_4 : ∀ i : grid0.Coords, EltTy.bits .f32 = 32 ∨ (Rect.block (s := S14x256) S14x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x256.size a ≤ S65536x256.size a
  hwx0_6 : ∀ i : grid0.Coords, EltTy.bits .bf16 = 32 ∨ (Rect.block (s := S65536x256) S2048x256.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x256.size a ≤ S65536x256.size a
  hwx0_7 : ∀ i : grid0.Coords, EltTy.bits .f32 = 32 ∨ (Rect.block (s := S65536x256) S2048x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S65536x256.size a
  hwx1_0 : ∀ i : grid1.Coords, EltTy.bits .bf16 = 32 ∨ (Rect.block (s := S65536x256) S2048x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S65536x256.size a
  hwx1_1 : ∀ i : grid1.Coords, EltTy.bits .f32 = 32 ∨ (Rect.block (s := S65536x256) S2048x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x256.size a ≤ S65536x256.size a
  hwx1_3 : ∀ i : grid1.Coords, EltTy.bits .bf16 = 32 ∨ (Rect.block (s := S65536x256) S2048x256.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x256.size a ≤ S65536x256.size a
  hwx2_0 : ∀ i : grid2.Coords, EltTy.bits .bf16 = 32 ∨ (Rect.block (s := S65536x256) S2048x256.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x256.size a ≤ S65536x256.size a
  hwx2_1 : ∀ i : grid2.Coords, EltTy.bits .f32 = 32 ∨ (Rect.block (s := S65536x256) S2048x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x256.size a ≤ S65536x256.size a
  hwx2_3 : ∀ i : grid2.Coords, EltTy.bits .bf16 = 32 ∨ (Rect.block (s := S65536x256) S2048x256.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x256x133.size a ≤ S2x32768x133.size a
  hwx3_0 : ∀ i : grid3.Coords, EltTy.bits .f32 = 32 ∨ (Rect.block (s := S2x32768x133) S1x256x133.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x256x256.size a ≤ S2x32768x256.size a
  hwx3_1 : ∀ i : grid3.Coords, EltTy.bits .bf16 = 32 ∨ (Rect.block (s := S2x32768x256) S1x256x256.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x256x1.size a ≤ S2x32768x1.size a
  hwx3_2 : ∀ i : grid3.Coords, EltTy.bits .i32 = 32 ∨ (Rect.block (s := S2x32768x1) S1x256x1.size (cc3_transform_2 i) (hinb3_2 i)).WholeWords (EltTy.packing .i32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S133x256.size a ≤ S133x256.size a
  hwx3_3 : ∀ i : grid3.Coords, EltTy.bits .f32 = 32 ∨ (Rect.block (s := S133x256) S133x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x256.size a ≤ S256x256.size a
  hwx3_4 : ∀ i : grid3.Coords, EltTy.bits .f32 = 32 ∨ (Rect.block (s := S256x256) S256x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x256.size a ≤ S1x256.size a
  hwx3_5 : ∀ i : grid3.Coords, EltTy.bits .f32 = 32 ∨ (Rect.block (s := S1x256) S1x256.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1x2048x256.size a ≤ S2x2048x256.size a
  hwx3_6 : ∀ i : grid3.Coords, EltTy.bits .f32 = 32 ∨ (Rect.block (s := S2x2048x256) S1x2048x256.size (cc3_transform_6 i) (hinb3_6 i)).WholeWords (EltTy.packing .f32)

variable [Facts₀]

def gather_S131072x14_S65536x6x1_S65536x6x14_2_0_n_n_0_2_114 : GatherDims S131072x14 S65536x6x1 S65536x6x14 where
  offsetDims := [2]
  collapsedSliceDims := [0]
  operandBatchingDims := []
  startIndicesBatchingDims := []
  startIndexMap := [0]
  indexVectorDim := 2
  sliceSizes := ![1, 14]
  wf := gather_S131072x14_S65536x6x1_S65536x6x14_2_0_n_n_0_2_114_wf
def dot_S2048x133_S133x256_S2048x256_1_0_0_1_n_n : DotDims S2048x133 S133x256 S2048x256 where
  lhsContracting := [1]
  rhsContracting := [0]
  lhsNonContracting := [0]
  rhsNonContracting := [1]
  lhsBatch := []
  rhsBatch := []
  wf := dot_S2048x133_S133x256_S2048x256_1_0_0_1_n_n_wf
def dot_S2048x14_S14x256_S2048x256_1_0_0_1_n_n : DotDims S2048x14 S14x256 S2048x256 where
  lhsContracting := [1]
  rhsContracting := [0]
  lhsNonContracting := [0]
  rhsNonContracting := [1]
  lhsBatch := []
  rhsBatch := []
  wf := dot_S2048x14_S14x256_S2048x256_1_0_0_1_n_n_wf
def gather_S65536x256_S65536x6x1_S65536x6x256_2_0_n_n_0_2_1256 : GatherDims S65536x256 S65536x6x1 S65536x6x256 where
  offsetDims := [2]
  collapsedSliceDims := [0]
  operandBatchingDims := []
  startIndicesBatchingDims := []
  startIndexMap := [0]
  indexVectorDim := 2
  sliceSizes := ![1, 256]
  wf := gather_S65536x256_S65536x6x1_S65536x6x256_2_0_n_n_0_2_1256_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def scatter_S2048_S65536x1_S65536_n_0_0_1 : ScatterDims S2048 S65536x1 S65536 where
  updateWindowDims := []
  insertedWindowDims := [0]
  scatterDimsToOperandDims := [0]
  indexVectorDim := 1
  wf := scatter_S2048_S65536x1_S65536_n_0_0_1_wf
def dot_S256x133_S133x256_S256x256_1_0_0_1_n_n : DotDims S256x133 S133x256 S256x256 where
  lhsContracting := [1]
  rhsContracting := [0]
  lhsNonContracting := [0]
  rhsNonContracting := [1]
  lhsBatch := []
  rhsBatch := []
  wf := dot_S256x133_S133x256_S256x256_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S256x2048_S256x256_S2048x256_0_0_1_1_n_n : DotDims S256x2048 S256x256 S2048x256 where
  lhsContracting := [0]
  rhsContracting := [0]
  lhsNonContracting := [1]
  rhsNonContracting := [1]
  lhsBatch := []
  rhsBatch := []
  wf := dot_S256x2048_S256x256_S2048x256_0_0_1_1_n_n_wf

abbrev win0_0 : Pipeline.Window sig grid0 :=
  Pipeline.Window.ofSpec (Memref.whole main_arg0) S2048x133.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S133x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S2048x14.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S14x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13_0) S2048x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v13_1) S2048x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v23) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13_1) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S2048x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v34) S2048x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13_1) S2048x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v35) S2048x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v59) S1x256x133.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x256x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v61) S1x256x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v46) S133x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v47) S256x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v62) S1x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v63) S1x2048x256.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev idle3 : Fin 7 → grid3.Coords → Bool := fun | 0 => fun _ => false | 1 => fun _ => false | 2 => fun _ => false | 3 => fun _ => false | 4 => fun _ => false | 5 => fun _ => false | 6 => fun i => !(k3_cond2 i == 1#1) | ⟨_ + 7, h⟩ => absurd h (Nat.not_lt.2 (Nat.le_add_left _ _))

class Facts : Prop extends Facts₀ where

variable [Facts]
-- ==== ReferenceIdeal.lean ====
abbrev S65536x133 : Shape := ⟨2, ![65536, 133]⟩
abbrev S131072x147 : Shape := ⟨2, ![131072, 147]⟩
abbrev S65536x6 : Shape := ⟨2, ![65536, 6]⟩
abbrev S65536 : Shape := ⟨1, ![65536]⟩
abbrev S133x256 : Shape := ⟨2, ![133, 256]⟩
abbrev S256 : Shape := ⟨1, ![256]⟩
abbrev S270x256 : Shape := ⟨2, ![270, 256]⟩
abbrev S389x256 : Shape := ⟨2, ![389, 256]⟩
abbrev S65536x256 : Shape := ⟨2, ![65536, 256]⟩
abbrev S1x256 : Shape := ⟨2, ![1, 256]⟩
abbrev S_ : Shape := ⟨0, ![]⟩
abbrev S131072x14 : Shape := ⟨2, ![131072, 14]⟩
abbrev S65536x6x1 : Shape := ⟨3, ![65536, 6, 1]⟩
abbrev S65536x6x256 : Shape := ⟨3, ![65536, 6, 256]⟩
abbrev S65536x6x14 : Shape := ⟨3, ![65536, 6, 14]⟩
abbrev S65536x14 : Shape := ⟨2, ![65536, 14]⟩
abbrev S65536x270 : Shape := ⟨2, ![65536, 270]⟩
abbrev S65536x389 : Shape := ⟨2, ![65536, 389]⟩
abbrev S2048x256 : Shape := ⟨2, ![2048, 256]⟩
abbrev S65536x1 : Shape := ⟨2, ![65536, 1]⟩
abbrev S2048 : Shape := ⟨1, ![2048]⟩
abbrev S2048x1 : Shape := ⟨2, ![2048, 1]⟩

abbrev nBuf : Space → Nat
  | .hbm => 125
  | .vmem => 0
  | .smem => 0
  | _ => 0

abbrev bufTy : (tb : Table) → Fin (tcTables nBuf tb) → BufTy
  | .hbm, ⟨0, _⟩ => ⟨S65536x133, .f32⟩
  | .hbm, ⟨1, _⟩ => ⟨S131072x147, .f32⟩
  | .hbm, ⟨2, _⟩ => ⟨S65536x6, .i32⟩
  | .hbm, ⟨3, _⟩ => ⟨S65536x6, .i32⟩
  | .hbm, ⟨4, _⟩ => ⟨S65536, .i32⟩
  | .hbm, ⟨5, _⟩ => ⟨S133x256, .f32⟩
  | .hbm, ⟨6, _⟩ => ⟨S256, .f32⟩
  | .hbm, ⟨7, _⟩ => ⟨S270x256, .f32⟩
  | .hbm, ⟨8, _⟩ => ⟨S256, .f32⟩
  | .hbm, ⟨9, _⟩ => ⟨S389x256, .f32⟩
  | .hbm, ⟨10, _⟩ => ⟨S256, .f32⟩
  | .hbm, ⟨11, _⟩ => ⟨S65536x256, .f32⟩
  | .hbm, ⟨12, _⟩ => ⟨S1x256, .f32⟩
  | .hbm, ⟨13, _⟩ => ⟨S65536x256, .f32⟩
  | .hbm, ⟨14, _⟩ => ⟨S65536x256, .f32⟩
  | .hbm, ⟨15, _⟩ => ⟨S_, .f32⟩
  | .hbm, ⟨16, _⟩ => ⟨S65536x256, .f32⟩
  | .hbm, ⟨17, _⟩ => ⟨S65536x256, .f32⟩
  | .hbm, ⟨18, _⟩ => ⟨S131072x14, .f32⟩
  | .hbm, ⟨19, _⟩ => ⟨S_, .i32⟩
  | .hbm, ⟨20, _⟩ => ⟨S65536x6, .i32⟩
  | .hbm, ⟨21, _⟩ => ⟨S65536x6, .i1⟩
  | .hbm, ⟨22, _⟩ => ⟨S_, .i32⟩
  | .hbm, ⟨23, _⟩ => ⟨S65536x6, .i32⟩
  | .hbm, ⟨24, _⟩ => ⟨S65536x6, .i32⟩
  | .hbm, ⟨25, _⟩ => ⟨S65536x6, .i32⟩
  | .hbm, ⟨26, _⟩ => ⟨S65536x6x1, .i32⟩
  | .hbm, ⟨27, _⟩ => ⟨S65536x6x256, .f32⟩
  | .hbm, ⟨28, _⟩ => ⟨S_, .f32⟩
  | .hbm, ⟨29, _⟩ => ⟨S65536x256, .f32⟩
  | .hbm, ⟨30, _⟩ => ⟨S_, .i32⟩
  | .hbm, ⟨31, _⟩ => ⟨S65536x6, .i32⟩
  | .hbm, ⟨32, _⟩ => ⟨S65536x6, .i1⟩
  | .hbm, ⟨33, _⟩ => ⟨S_, .i32⟩
  | .hbm, ⟨34, _⟩ => ⟨S65536x6, .i32⟩
  | .hbm, ⟨35, _⟩ => ⟨S65536x6, .i32⟩
  | .hbm, ⟨36, _⟩ => ⟨S65536x6, .i32⟩
  | .hbm, ⟨37, _⟩ => ⟨S65536x6x1, .i32⟩
  | .hbm, ⟨38, _⟩ => ⟨S65536x6x14, .f32⟩
  | .hbm, ⟨39, _⟩ => ⟨S_, .f32⟩
  | .hbm, ⟨40, _⟩ => ⟨S65536x14, .f32⟩
  | .hbm, ⟨41, _⟩ => ⟨S65536x270, .f32⟩
  | .hbm, ⟨42, _⟩ => ⟨S65536x256, .f32⟩
  | .hbm, ⟨43, _⟩ => ⟨S1x256, .f32⟩
  | .hbm, ⟨44, _⟩ => ⟨S65536x256, .f32⟩
  | .hbm, ⟨45, _⟩ => ⟨S65536x256, .f32⟩
  | .hbm, ⟨46, _⟩ => ⟨S65536x256, .f32⟩
  | .hbm, ⟨47, _⟩ => ⟨S_, .f32⟩
  | .hbm, ⟨48, _⟩ => ⟨S65536x256, .f32⟩
  | .hbm, ⟨49, _⟩ => ⟨S65536x256, .f32⟩
  | .hbm, ⟨50, _⟩ => ⟨S_, .i32⟩
  | .hbm, ⟨51, _⟩ => ⟨S65536x6, .i32⟩
  | .hbm, ⟨52, _⟩ => ⟨S65536x6, .i1⟩
  | .hbm, ⟨53, _⟩ => ⟨S_, .i32⟩
  | .hbm, ⟨54, _⟩ => ⟨S65536x6, .i32⟩
  | .hbm, ⟨55, _⟩ => ⟨S65536x6, .i32⟩
  | .hbm, ⟨56, _⟩ => ⟨S65536x6, .i32⟩
  | .hbm, ⟨57, _⟩ => ⟨S65536x6x1, .i32⟩
  | .hbm, ⟨58, _⟩ => ⟨S65536x6x256, .f32⟩
  | .hbm, ⟨59, _⟩ => ⟨S_, .f32⟩
  | .hbm, ⟨60, _⟩ => ⟨S65536x256, .f32⟩
  | .hbm, ⟨61, _⟩ => ⟨S_, .i32⟩
  | .hbm, ⟨62, _⟩ => ⟨S65536x6, .i32⟩
  | .hbm, ⟨63, _⟩ => ⟨S65536x6, .i1⟩
  | .hbm, ⟨64, _⟩ => ⟨S_, .i32⟩
  | .hbm, ⟨65, _⟩ => ⟨S65536x6, .i32⟩
  | .hbm, ⟨66, _⟩ => ⟨S65536x6, .i32⟩
  | .hbm, ⟨67, _⟩ => ⟨S65536x6, .i32⟩
  | .hbm, ⟨68, _⟩ => ⟨S65536x6x1, .i32⟩
  | .hbm, ⟨69, _⟩ => ⟨S65536x6x14, .f32⟩
  | .hbm, ⟨70, _⟩ => ⟨S_, .f32⟩
  | .hbm, ⟨71, _⟩ => ⟨S65536x14, .f32⟩
  | .hbm, ⟨72, _⟩ => ⟨S65536x270, .f32⟩
  | .hbm, ⟨73, _⟩ => ⟨S65536x256, .f32⟩
  | .hbm, ⟨74, _⟩ => ⟨S1x256, .f32⟩
  | .hbm, ⟨75, _⟩ => ⟨S65536x256, .f32⟩
  | .hbm, ⟨76, _⟩ => ⟨S65536x256, .f32⟩
  | .hbm, ⟨77, _⟩ => ⟨S65536x256, .f32⟩
  | .hbm, ⟨78, _⟩ => ⟨S_, .f32⟩
  | .hbm, ⟨79, _⟩ => ⟨S65536x256, .f32⟩
  | .hbm, ⟨80, _⟩ => ⟨S65536x256, .f32⟩
  | .hbm, ⟨81, _⟩ => ⟨S_, .i32⟩
  | .hbm, ⟨82, _⟩ => ⟨S65536x6, .i32⟩
  | .hbm, ⟨83, _⟩ => ⟨S65536x6, .i1⟩
  | .hbm, ⟨84, _⟩ => ⟨S_, .i32⟩
  | .hbm, ⟨85, _⟩ => ⟨S65536x6, .i32⟩
  | .hbm, ⟨86, _⟩ => ⟨S65536x6, .i32⟩
  | .hbm, ⟨87, _⟩ => ⟨S65536x6, .i32⟩
  | .hbm, ⟨88, _⟩ => ⟨S65536x6x1, .i32⟩
  | .hbm, ⟨89, _⟩ => ⟨S65536x6x256, .f32⟩
  | .hbm, ⟨90, _⟩ => ⟨S_, .f32⟩
  | .hbm, ⟨91, _⟩ => ⟨S65536x256, .f32⟩
  | .hbm, ⟨92, _⟩ => ⟨S65536x389, .f32⟩
  | .hbm, ⟨93, _⟩ => ⟨S65536x256, .f32⟩
  | .hbm, ⟨94, _⟩ => ⟨S1x256, .f32⟩
  | .hbm, ⟨95, _⟩ => ⟨S65536x256, .f32⟩
  | .hbm, ⟨96, _⟩ => ⟨S65536x256, .f32⟩
  | .hbm, ⟨97, _⟩ => ⟨S_, .f32⟩
  | .hbm, ⟨98, _⟩ => ⟨S65536x256, .f32⟩
  | .hbm, ⟨99, _⟩ => ⟨S65536x256, .f32⟩
  | .hbm, ⟨100, _⟩ => ⟨S_, .f32⟩
  | .hbm, ⟨101, _⟩ => ⟨S2048x256, .f32⟩
  | .hbm, ⟨102, _⟩ => ⟨S65536x1, .i32⟩
  | .hbm, ⟨103, _⟩ => ⟨S2048x256, .f32⟩
  | .hbm, ⟨104, _⟩ => ⟨S_, .f32⟩
  | .hbm, ⟨105, _⟩ => ⟨S65536, .f32⟩
  | .hbm, ⟨106, _⟩ => ⟨S_, .f32⟩
  | .hbm, ⟨107, _⟩ => ⟨S2048, .f32⟩
  | .hbm, ⟨108, _⟩ => ⟨S65536x1, .i32⟩
  | .hbm, ⟨109, _⟩ => ⟨S2048, .f32⟩
  | .hbm, ⟨110, _⟩ => ⟨S2048x1, .f32⟩
  | .hbm, ⟨111, _⟩ => ⟨S_, .f32⟩
  | .hbm, ⟨112, _⟩ => ⟨S2048x1, .f32⟩
  | .hbm, ⟨113, _⟩ => ⟨S2048x1, .i1⟩
  | .hbm, ⟨114, _⟩ => ⟨S_, .f32⟩
  | .hbm, ⟨115, _⟩ => ⟨S2048, .f32⟩
  | .hbm, ⟨116, _⟩ => ⟨S2048, .f32⟩
  | .hbm, ⟨117, _⟩ => ⟨S2048x1, .f32⟩
  | .hbm, ⟨118, _⟩ => ⟨S2048x256, .f32⟩
  | .hbm, ⟨119, _⟩ => ⟨S2048x256, .f32⟩
  | .hbm, ⟨120, _⟩ => ⟨S_, .f32⟩
  | .hbm, ⟨121, _⟩ => ⟨S_, .f32⟩
  | .hbm, ⟨122, _⟩ => ⟨S2048x256, .i1⟩
  | .hbm, ⟨123, _⟩ => ⟨S2048x256, .f32⟩
  | .hbm, ⟨124, _⟩ => ⟨S2048x256, .f32⟩
  | _, _ => ⟨S65536x133, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_cst : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_c : Ref sig .tc := ⟨.hbm, 19, rfl⟩
abbrev main_v6 : Ref sig .tc := ⟨.hbm, 20, rfl⟩
abbrev main_v7 : Ref sig .tc := ⟨.hbm, 21, rfl⟩
abbrev main_c_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_c_1 : Ref sig .tc := ⟨.hbm, 30, rfl⟩
abbrev main_v14 : Ref sig .tc := ⟨.hbm, 31, rfl⟩
abbrev main_v15 : Ref sig .tc := ⟨.hbm, 32, rfl⟩
abbrev main_c_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_call1_cst : Ref sig .tc := ⟨.hbm, 47, rfl⟩
abbrev main_call1_v0 : Ref sig .tc := ⟨.hbm, 48, rfl⟩
abbrev main_v28 : Ref sig .tc := ⟨.hbm, 49, rfl⟩
abbrev main_c_4 : Ref sig .tc := ⟨.hbm, 50, rfl⟩
abbrev main_v29 : Ref sig .tc := ⟨.hbm, 51, rfl⟩
abbrev main_v30 : Ref sig .tc := ⟨.hbm, 52, rfl⟩
abbrev main_c_5 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_6 : Ref sig .tc := ⟨.hbm, 59, rfl⟩
abbrev main_v36 : Ref sig .tc := ⟨.hbm, 60, rfl⟩
abbrev main_c_7 : Ref sig .tc := ⟨.hbm, 61, rfl⟩
abbrev main_v37 : Ref sig .tc := ⟨.hbm, 62, rfl⟩
abbrev main_v38 : Ref sig .tc := ⟨.hbm, 63, rfl⟩
abbrev main_c_8 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_9 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_call2_cst : Ref sig .tc := ⟨.hbm, 78, rfl⟩
abbrev main_call2_v0 : Ref sig .tc := ⟨.hbm, 79, rfl⟩
abbrev main_v51 : Ref sig .tc := ⟨.hbm, 80, rfl⟩
abbrev main_c_10 : Ref sig .tc := ⟨.hbm, 81, rfl⟩
abbrev main_v52 : Ref sig .tc := ⟨.hbm, 82, rfl⟩
abbrev main_v53 : Ref sig .tc := ⟨.hbm, 83, rfl⟩
abbrev main_c_11 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_12 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_call3_cst : Ref sig .tc := ⟨.hbm, 97, rfl⟩
abbrev main_call3_v0 : Ref sig .tc := ⟨.hbm, 98, rfl⟩
abbrev main_v65 : Ref sig .tc := ⟨.hbm, 99, rfl⟩
abbrev main_cst_13 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_14 : Ref sig .tc := ⟨.hbm, 104, rfl⟩
abbrev main_v69 : Ref sig .tc := ⟨.hbm, 105, rfl⟩
abbrev main_cst_15 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_16 : Ref sig .tc := ⟨.hbm, 111, rfl⟩
abbrev main_v74 : Ref sig .tc := ⟨.hbm, 112, rfl⟩
abbrev main_v75 : Ref sig .tc := ⟨.hbm, 113, rfl⟩
abbrev main_cst_17 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_cst_18 : Ref sig .tc := ⟨.hbm, 120, rfl⟩
abbrev main_call4_v0 : Ref sig .tc := ⟨.hbm, 121, rfl⟩
abbrev main_call4_v1 : Ref sig .tc := ⟨.hbm, 122, rfl⟩
abbrev main_call4_v2 : Ref sig .tc := ⟨.hbm, 123, rfl⟩
abbrev main_v81 : Ref sig .tc := ⟨.hbm, 124, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  slices_S131072x147_S131072x14_0_133 : S131072x147.Slices ![0, 133] S131072x14
  bcast_S_S65536x6 : S_.BroadcastsInDim S65536x6 (![] : Fin 0 → Fin S65536x6.rank)
  bcast_S65536x6_S65536x6x1_0_1 : S65536x6.BroadcastsInDim S65536x6x1 (![0, 1] : Fin 2 → Fin S65536x6x1.rank)
  reducesTo_S65536x6x256_S65536x256_d1 : S65536x6x256.ReducesTo [1] S65536x256
  h_S_ : 0 < S_.numel
  reducesTo_S65536x6x14_S65536x14_d1 : S65536x6x14.ReducesTo [1] S65536x14
  concatenates_S65536x256_S65536x14_S65536x270_d1 : Shape.Concatenates [S65536x256, S65536x14] S65536x270 1
  concatenates_S65536x133_S65536x256_S65536x389_d1 : Shape.Concatenates [S65536x133, S65536x256] S65536x389 1
  bcast_S_S2048x256 : S_.BroadcastsInDim S2048x256 (![] : Fin 0 → Fin S2048x256.rank)
  bcast_S65536_S65536x1_0 : S65536.BroadcastsInDim S65536x1 (![0] : Fin 1 → Fin S65536x1.rank)
  bcast_S_S65536 : S_.BroadcastsInDim S65536 (![] : Fin 0 → Fin S65536.rank)
  bcast_S_S2048 : S_.BroadcastsInDim S2048 (![] : Fin 0 → Fin S2048.rank)
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x256_0_1 : S2048x1.BroadcastsInDim S2048x256 (![0, 1] : Fin 2 → Fin S2048x256.rank)
  dot_S65536x133_S133x256_S65536x256_1_0_0_1_n_n_wf : DotDims.WF S65536x133 S133x256 S65536x256 [1] [0] [0] [1] [] []
  gather_S65536x256_S65536x6x1_S65536x6x256_2_0_n_n_0_2_1256_wf : GatherDims.WF S65536x256 S65536x6x1 S65536x6x256 [2] [0] [] [0] [] 2 ![1, 256]
  gather_S131072x14_S65536x6x1_S65536x6x14_2_0_n_n_0_2_114_wf : GatherDims.WF S131072x14 S65536x6x1 S65536x6x14 [2] [0] [] [0] [] 2 ![1, 14]
  dot_S65536x270_S270x256_S65536x256_1_0_0_1_n_n_wf : DotDims.WF S65536x270 S270x256 S65536x256 [1] [0] [0] [1] [] []
  dot_S65536x389_S389x256_S65536x256_1_0_0_1_n_n_wf : DotDims.WF S65536x389 S389x256 S65536x256 [1] [0] [0] [1] [] []
  scatter_S2048x256_S65536x1_S65536x256_1_0_0_1_wf : ScatterDims.WF S2048x256 S65536x1 S65536x256 [1] [0] [0] 1
  scatter_S2048_S65536x1_S65536_n_0_0_1_wf : ScatterDims.WF S2048 S65536x1 S65536 [] [0] [0] 1

variable [Facts₀]

def dot_S65536x133_S133x256_S65536x256_1_0_0_1_n_n : DotDims S65536x133 S133x256 S65536x256 where
  lhsContracting := [1]
  rhsContracting := [0]
  lhsNonContracting := [0]
  rhsNonContracting := [1]
  lhsBatch := []
  rhsBatch := []
  wf := dot_S65536x133_S133x256_S65536x256_1_0_0_1_n_n_wf
def gather_S65536x256_S65536x6x1_S65536x6x256_2_0_n_n_0_2_1256 : GatherDims S65536x256 S65536x6x1 S65536x6x256 where
  offsetDims := [2]
  collapsedSliceDims := [0]
  operandBatchingDims := []
  startIndicesBatchingDims := []
  startIndexMap := [0]
  indexVectorDim := 2
  sliceSizes := ![1, 256]
  wf := gather_S65536x256_S65536x6x1_S65536x6x256_2_0_n_n_0_2_1256_wf
def gather_S131072x14_S65536x6x1_S65536x6x14_2_0_n_n_0_2_114 : GatherDims S131072x14 S65536x6x1 S65536x6x14 where
  offsetDims := [2]
  collapsedSliceDims := [0]
  operandBatchingDims := []
  startIndicesBatchingDims := []
  startIndexMap := [0]
  indexVectorDim := 2
  sliceSizes := ![1, 14]
  wf := gather_S131072x14_S65536x6x1_S65536x6x14_2_0_n_n_0_2_114_wf
def dot_S65536x270_S270x256_S65536x256_1_0_0_1_n_n : DotDims S65536x270 S270x256 S65536x256 where
  lhsContracting := [1]
  rhsContracting := [0]
  lhsNonContracting := [0]
  rhsNonContracting := [1]
  lhsBatch := []
  rhsBatch := []
  wf := dot_S65536x270_S270x256_S65536x256_1_0_0_1_n_n_wf
def dot_S65536x389_S389x256_S65536x256_1_0_0_1_n_n : DotDims S65536x389 S389x256 S65536x256 where
  lhsContracting := [1]
  rhsContracting := [0]
  lhsNonContracting := [0]
  rhsNonContracting := [1]
  lhsBatch := []
  rhsBatch := []
  wf := dot_S65536x389_S389x256_S65536x256_1_0_0_1_n_n_wf
def scatter_S2048x256_S65536x1_S65536x256_1_0_0_1 : ScatterDims S2048x256 S65536x1 S65536x256 where
  updateWindowDims := [1]
  insertedWindowDims := [0]
  scatterDimsToOperandDims := [0]
  indexVectorDim := 1
  wf := scatter_S2048x256_S65536x1_S65536x256_1_0_0_1_wf
def scatter_S2048_S65536x1_S65536_n_0_0_1 : ScatterDims S2048 S65536x1 S65536 where
  updateWindowDims := []
  insertedWindowDims := [0]
  scatterDimsToOperandDims := [0]
  indexVectorDim := 1
  wf := scatter_S2048_S65536x1_S65536_n_0_0_1_wf

class Facts : Prop extends Facts₀ where

variable [Facts]
-- ==== Proof.KFrR0.lean ====
import proofs.«431103_j25254407701135_3_alg».proof.Proof.Gen.Kernel.Launch
import proofs.«431103_j25254407701135_3_alg».proof.Proof.Gen.Kernel.Skeleton
import proofs.«431103_j25254407701135_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_af : Rect S2048x133 := Rect.unit (s := S2048x133) ![0, 0] S2048x133.size inb_S2048x133_S2048x133_0_0
abbrev r0_wi : Rect S133x256 := Rect.unit (s := S133x256) ![0, 0] S133x256.size inb_S133x256_S133x256_0_0
abbrev r0_b : Rect S1x256 := Rect.unit (s := S1x256) ![0, 0] S1x256.size inb_S1x256_S1x256_0_0
abbrev r0_nbs : Rect S2048x14 := Rect.unit (s := S2048x14) ![0, 0] S2048x14.size inb_S2048x14_S2048x14_0_0
abbrev r0_whb : Rect S14x256 := Rect.unit (s := S14x256) ![0, 0] S14x256.size inb_S14x256_S14x256_0_0
abbrev r0_o : Rect S2048x256 := Rect.unit (s := S2048x256) ![0, 0] S2048x256.size inb_S2048x256_S2048x256_0_0

def out0_6 (x0 : Vec F S2048x133 .f32) (x1 : Vec F S133x256 .f32) (x2 : Vec F S1x256 .f32) : Vec F S2048x256 .bf16 :=
  View.canon [⟨r0_o, k0_pay3 (View.ld x0 r0_af) (View.ld x1 r0_wi) (View.ld x2 r0_b)⟩]

def out0_7 (x0 : Vec F S2048x133 .f32) (x1 : Vec F S133x256 .f32) (x2 : Vec F S1x256 .f32) (x3 : Vec F S2048x14 .f32)
    (x4 : Vec F S14x256 .f32) (x5 : Vec F S1x256 .f32) : Vec F S2048x256 .f32 :=
  View.canon [⟨r0_o, k0_pay2 (View.ld x0 r0_af) (View.ld x1 r0_wi) (View.ld x2 r0_b) (View.ld x3 r0_nbs) (View.ld x4 r0_whb) (View.ld x5 r0_b)⟩]

theorem cover0_6 (p0 : Vec F S2048x256 .bf16) (y : S2048x256.Idx) :
    ∃ pc ∈ ([⟨r0_o, p0⟩] : List (View.Piece (Elt F) S2048x256 .bf16)), y ∈ pc.1.set :=
  View.cover_of_tiled [⟨r0_o, p0⟩] S2048x256.size (by rfl) y

theorem cover0_7 (p0 : Vec F S2048x256 .f32) (y : S2048x256.Idx) :
    ∃ pc ∈ ([⟨r0_o, p0⟩] : List (View.Piece (Elt F) S2048x256 .f32)), y ∈ pc.1.set :=
  View.cover_of_tiled [⟨r0_o, p0⟩] S2048x256.size (by rfl) y

set_option maxHeartbeats 2000000 in

theorem sound_kernel0 (c : Dev nD) (E : Set ℕ) (i : grid0.Coords)
    (arg1 : Memref sig .tc .vmem S2048x133 .f32) (harg1 : arg1.IsWhole) (arg2 : Memref sig .tc .vmem S133x256 .f32) (harg2 : arg2.IsWhole)
    (arg3 : Memref sig .tc .vmem S1x256 .f32) (harg3 : arg3.IsWhole) (arg4 : Memref sig .tc .vmem S2048x14 .f32) (harg4 : arg4.IsWhole)
    (arg5 : Memref sig .tc .vmem S14x256 .f32) (harg5 : arg5.IsWhole) (arg6 : Memref sig .tc .vmem S1x256 .f32) (harg6 : arg6.IsWhole)
    (arg7 : Memref sig .tc .vmem S2048x256 .bf16) (harg7 : arg7.IsWhole) (arg8 : Memref sig .tc .vmem S2048x256 .f32) (harg8 : arg8.IsWhole)
    (x0 : Vec F S2048x133 .f32) (x1 : Vec F S133x256 .f32) (x2 : Vec F S1x256 .f32) (x3 : Vec F S2048x14 .f32)
    (x4 : Vec F S14x256 .f32) (x5 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2)
            ∗ owns (c : Thread nD τ) arg8 fullShare (out0_7 x0 x1 x2 x3 x4 x5)) -∗ K ⟨⟩))
      ⊢ wp frame (wpE (defs₀ (F := F)) Variants.none c none) E
          (cc0__init_kernel i arg1 harg1 arg2 harg2 arg3 harg3 arg4 harg4 arg5 harg5 arg6 harg6 arg7 harg7 arg8 harg8) K := by
  simp only [cc0__init_kernel_eq_skeleton]; unfold cc0__init_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_6 _)
  iexists _; isplitr
  swap; · iexact H7
  ipureintro
  exact View.read_writes_eq_canon _ _ _ (cover0_7 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t)
    | ⟨7, _⟩ => out0_7 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) :
    (dat0 V c).after 6 t = out0_6 (iblk0 V c 0 t) (iblk0 V c 1 t) (iblk0 V c 2 t) := by dsimp only [dat0]
theorem after0_7 (c : Dev nD) (t : Fin cfg0.N) :
    (dat0 V c).after 7 t = out0_7 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 1000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _
    (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KFrR1.lean ====
import proofs.«431103_j25254407701135_3_alg».proof.Proof.Gen.Kernel.Launch
import proofs.«431103_j25254407701135_3_alg».proof.Proof.Gen.Kernel.Skeleton
import proofs.«431103_j25254407701135_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S2048x256 := Rect.unit (s := S2048x256) ![0, 0] S2048x256.size inb_S2048x256_S2048x256_0_0
abbrev r1_w : Rect S256x256 := Rect.unit (s := S256x256) ![0, 0] S256x256.size inb_S256x256_S256x256_0_0

def out1_3 (x0 : Vec F S2048x256 .bf16) (x1 : Vec F S2048x256 .f32) (x2 : Vec F S256x256 .f32) : Vec F S2048x256 .bf16 :=
  View.canon [⟨r1_0, k1_pay1 (View.ld x0 r1_0) (View.ld x2 r1_w) (View.ld x1 r1_0)⟩]

theorem cover1_3 (p0 : Vec F S2048x256 .bf16) (y : S2048x256.Idx) :
    ∃ pc ∈ ([⟨r1_0, p0⟩] : List (View.Piece (Elt F) S2048x256 .bf16)), y ∈ pc.1.set :=
  View.cover_of_tiled [⟨r1_0, p0⟩] S2048x256.size (by rfl) y

set_option maxHeartbeats 1000000 in

theorem sound_kernel1 (c : Dev nD) (E : Set ℕ) (i : grid1.Coords)
    (arg1 : Memref sig .tc .vmem S2048x256 .bf16) (harg1 : arg1.IsWhole) (arg2 : Memref sig .tc .vmem S2048x256 .f32) (harg2 : arg2.IsWhole)
    (arg3 : Memref sig .tc .vmem S256x256 .f32) (harg3 : arg3.IsWhole) (arg4 : Memref sig .tc .vmem S2048x256 .bf16) (harg4 : arg4.IsWhole)
    (x0 : Vec F S2048x256 .bf16) (x1 : Vec F S2048x256 .f32) (x2 : Vec F S256x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__step_kernel i arg1 harg1 arg2 harg2 arg3 harg3 arg4 harg4) K := by
  simp only [cc1__step_kernel_eq_skeleton]; unfold cc1__step_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KFrR2.lean ====
import proofs.«431103_j25254407701135_3_alg».proof.Proof.Gen.Kernel.Launch
import proofs.«431103_j25254407701135_3_alg».proof.Proof.Gen.Kernel.Skeleton
import proofs.«431103_j25254407701135_3_alg».proof.Proof.Gen.Kernel.Points
import proofs.«431103_j25254407701135_3_alg».proof.Proof.KFrR1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

-- Region 2 runs the same body as region 1.
theorem sound_kernel2 (c : Dev nD) (E : Set ℕ) (i : grid2.Coords)
    (arg1 : Memref sig .tc .vmem S2048x256 .bf16) (harg1 : arg1.IsWhole) (arg2 : Memref sig .tc .vmem S2048x256 .f32) (harg2 : arg2.IsWhole)
    (arg3 : Memref sig .tc .vmem S256x256 .f32) (harg3 : arg3.IsWhole) (arg4 : Memref sig .tc .vmem S2048x256 .bf16) (harg4 : arg4.IsWhole)
    (x0 : Vec F S2048x256 .bf16) (x1 : Vec F S2048x256 .f32) (x2 : Vec F S256x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc2__step_kernel i arg1 harg1 arg2 harg2 arg3 harg3 arg4 harg4) K :=
  sound_kernel1 c E i arg1 harg1 arg2 harg2 arg3 harg3 arg4 harg4 x0 x1 x2 K

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out1_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out1_3 (iblk2 V c 0 t) (iblk2 V c 1 t) (iblk2 V c 2 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.KFrR3.lean ====
import proofs.«431103_j25254407701135_3_alg».proof.Proof.Gen.Kernel.Launch
import proofs.«431103_j25254407701135_3_alg».proof.Proof.Gen.Kernel.Skeleton
import proofs.«431103_j25254407701135_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 128 = 0 :=
  (by decide +kernel : ∀ t : Fin grid3.N, cond3_0 (grid3.coords t) ↔ t.val % 128 = 0)

abbrev cond3_1 (i : grid3.Coords) : Prop := k3_cond2 i = 1#1
theorem hcond3_1 : ∀ t : Fin cfg3.N, cond3_1 (grid3.coords t) ↔ t.val % 128 = 127 :=
  (by decide +kernel : ∀ t : Fin grid3.N, cond3_1 (grid3.coords t) ↔ t.val % 128 = 127)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
theorem liveAt3_5 : ∀ t : Fin cfg3.N, cfg3.idle 5 (grid3.coords t) = false := by decide +kernel
theorem idleAt3_6 : ∀ t : Fin cfg3.N, ¬cond3_1 (grid3.coords t) → cfg3.idle 6 (grid3.coords t) = true := by decide +kernel
theorem noFlush3_6 : ∀ t : Fin cfg3.N, ¬cond3_1 (grid3.coords t) → (cfg3.win 6).flush t = false := by decide +kernel
theorem liveAt3_6 : ∀ t : Fin cfg3.N, cond3_1 (grid3.coords t) → cfg3.idle 6 (grid3.coords t) = false := by decide +kernel

theorem hz2 : (![0, 0] : Fin 2 → Nat) = fun _ => 0 := funext fun a => by fin_cases a <;> rfl
theorem hz3 : (![0, 0, 0] : Fin 3 → Nat) = fun _ => 0 := funext fun a => by fin_cases a <;> rfl

theorem cover3_s (p0 : Vec F S2048x256 .f32) (L : List (View.Piece (Elt F) S2048x256 .f32)) (y : S2048x256.Idx) :
    ∃ pc ∈ ((⟨Rect.unit (s := S2048x256) ![0, 0] S2048x256.size inb_S2048x256_S2048x256_0_0, p0⟩ : View.Piece (Elt F) S2048x256 .f32) :: L), y ∈ pc.1.set :=
  ⟨_, List.mem_cons.mpr (Or.inl rfl), View.mem_set_unit_zero hz2 inb_S2048x256_S2048x256_0_0 y⟩
theorem cover3_o (p0 : Vec F S1x2048x256 .f32) (L : List (View.Piece (Elt F) S1x2048x256 .f32)) (y : S1x2048x256.Idx) :
    ∃ pc ∈ ((⟨Rect.unit (s := S1x2048x256) ![0, 0, 0] S1x2048x256.size inb_S1x2048x256_S1x2048x256_0_0_0, p0⟩ : View.Piece (Elt F) S1x2048x256 .f32) :: L), y ∈ pc.1.set :=
  ⟨_, List.mem_cons.mpr (Or.inl rfl), View.mem_set_unit_zero hz3 inb_S1x2048x256_S1x2048x256_0_0_0 y⟩

set_option maxHeartbeats 1000000 in

theorem sound_kernel3_B (c : Dev nD) (E : Set ℕ) (i : grid3.Coords) (arg2 : Memref sig .tc .vmem S1x256x133 .f32) (harg2 : arg2.IsWhole) (arg3 : Memref sig .tc .vmem S1x256x256 .bf16) (harg3 : arg3.IsWhole) (arg4 : Memref sig .tc .vmem S1x256x1 .i32) (harg4 : arg4.IsWhole) (arg5 : Memref sig .tc .vmem S133x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S2048x256 .f32) (harg9 : arg9.IsWhole)
    (hc0 : ¬cond3_0 i) (hc1 : ¬cond3_1 i) (x0 : Vec F S1x256x133 .f32) (x1 : Vec F S1x256x256 .bf16) (x2 : Vec F S1x256x1 .i32) (x3 : Vec F S133x256 .f32) (x4 : Vec F S256x256 .f32) (x5 : Vec F S1x256 .f32) (x6 : Vec F S1x2048x256 .f32) (s : Vec F S2048x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare (k3_pay1 (k3_pay4 x0 x3 x1 x4 x5 x2 s))) -∗ K ⟨⟩))
      ⊢ wp frame (wpE (defs₀ (F := F)) Variants.none c none) E (cc3__readout_pool_kernel i arg2 harg2 arg3 harg3 arg4 harg4 arg5 harg5 arg6 harg6 arg7 harg7 arg8 harg8 arg9 harg9) K := by
  simp only [cc3__readout_pool_kernel_eq_skeleton]; unfold cc3__readout_pool_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
  subst hf0; subst hf1; subst hf2; subst hf3; subst hf4; subst hf5; subst hf6; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact HS
  ipureintro
  rw [View.read_writes_eq_canon _ _ _ (cover3_s _ _), View.canon_unit_zero hz2]
  simp only [View.readAt_eq_ld, View.ld_unit_zero (S := S2048x256) hz2, View.ld_unit_zero (S := S1x256x133) hz3, View.ld_unit_zero (S := S1x256x256) hz3, View.ld_unit_zero (S := S1x256x1) hz3, View.ld_unit_zero (S := S133x256) hz2, View.ld_unit_zero (S := S256x256) hz2, View.ld_unit_zero (S := S1x256) hz2]

set_option maxHeartbeats 1000000 in

theorem sound_kernel3_A (c : Dev nD) (E : Set ℕ) (i : grid3.Coords) (arg2 : Memref sig .tc .vmem S1x256x133 .f32) (harg2 : arg2.IsWhole) (arg3 : Memref sig .tc .vmem S1x256x256 .bf16) (harg3 : arg3.IsWhole) (arg4 : Memref sig .tc .vmem S1x256x1 .i32) (harg4 : arg4.IsWhole) (arg5 : Memref sig .tc .vmem S133x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S2048x256 .f32) (harg9 : arg9.IsWhole)
    (hc0 : cond3_0 i) (hc1 : ¬cond3_1 i) (x0 : Vec F S1x256x133 .f32) (x1 : Vec F S1x256x256 .bf16) (x2 : Vec F S1x256x1 .i32) (x3 : Vec F S133x256 .f32) (x4 : Vec F S256x256 .f32) (x5 : Vec F S1x256 .f32) (x6 : Vec F S1x2048x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare (k3_pay1 (k3_pay4 x0 x3 x1 x4 x5 x2 (k3_pay3 (F := F))))) -∗ K ⟨⟩))
      ⊢ wp frame (wpE (defs₀ (F := F)) Variants.none c none) E (cc3__readout_pool_kernel i arg2 harg2 arg3 harg3 arg4 harg4 arg5 harg5 arg6 harg6 arg7 harg7 arg8 harg8 arg9 harg9) K := by
  simp only [cc3__readout_pool_kernel_eq_skeleton]; unfold cc3__readout_pool_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, Hk⟩
  subst hf0; subst hf1; subst hf2; subst hf3; subst hf4; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact HS
  ipureintro
  sl_unfold_words
  rw [View.read_writes_eq_canon _ _ _ (cover3_s _ _), View.canon_cons_unit_zero (S := S2048x256) hz2, View.readCov_unit_zero (S := S2048x256) _ hz2]
  simp only [View.readAt_eq_ld, View.ld_unit_zero (S := S2048x256) hz2, View.ld_unit_zero (S := S1x256x133) hz3, View.ld_unit_zero (S := S1x256x256) hz3, View.ld_unit_zero (S := S1x256x1) hz3, View.ld_unit_zero (S := S133x256) hz2, View.ld_unit_zero (S := S256x256) hz2, View.ld_unit_zero (S := S1x256) hz2]

set_option maxHeartbeats 1000000 in

theorem sound_kernel3_C (c : Dev nD) (E : Set ℕ) (i : grid3.Coords) (arg2 : Memref sig .tc .vmem S1x256x133 .f32) (harg2 : arg2.IsWhole) (arg3 : Memref sig .tc .vmem S1x256x256 .bf16) (harg3 : arg3.IsWhole) (arg4 : Memref sig .tc .vmem S1x256x1 .i32) (harg4 : arg4.IsWhole) (arg5 : Memref sig .tc .vmem S133x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S2048x256 .f32) (harg9 : arg9.IsWhole)
    (hc0 : ¬cond3_0 i) (hc1 : cond3_1 i) (x0 : Vec F S1x256x133 .f32) (x1 : Vec F S1x256x256 .bf16) (x2 : Vec F S1x256x1 .i32) (x3 : Vec F S133x256 .f32) (x4 : Vec F S256x256 .f32) (x5 : Vec F S1x256 .f32) (s : Vec F S2048x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (k3_pay2 (k3_pay1 (k3_pay4 x0 x3 x1 x4 x5 x2 s)))
            ∗ owns (c : Thread nD τ) arg9 fullShare (k3_pay1 (k3_pay4 x0 x3 x1 x4 x5 x2 s))) -∗ K ⟨⟩))
      ⊢ wp frame (wpE (defs₀ (F := F)) Variants.none c none) E (cc3__readout_pool_kernel i arg2 harg2 arg3 harg3 arg4 harg4 arg5 harg5 arg6 harg6 arg7 harg7 arg8 harg8 arg9 harg9) K := by
  simp only [cc3__readout_pool_kernel_eq_skeleton]; unfold cc3__readout_pool_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
  subst hf0; subst hf1; subst hf2; subst hf3; subst hf4; subst hf5; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    rw [View.read_writes_eq_canon _ _ _ (cover3_o _ _), View.canon_unit_zero hz3, View.readCov_unit_zero (S := S2048x256) _ hz2]
    simp only [View.readAt_eq_ld, View.ld_unit_zero (S := S2048x256) hz2, View.ld_unit_zero (S := S1x256x133) hz3, View.ld_unit_zero (S := S1x256x256) hz3, View.ld_unit_zero (S := S1x256x1) hz3, View.ld_unit_zero (S := S133x256) hz2, View.ld_unit_zero (S := S256x256) hz2, View.ld_unit_zero (S := S1x256) hz2]
  iexists _; isplitr
  swap; · iexact HS
  ipureintro
  sl_unfold_words
  rw [View.read_writes_eq_canon _ _ _ (cover3_s _ _), View.canon_unit_zero hz2]
  simp only [View.readAt_eq_ld, View.ld_unit_zero (S := S2048x256) hz2, View.ld_unit_zero (S := S1x256x133) hz3, View.ld_unit_zero (S := S1x256x256) hz3, View.ld_unit_zero (S := S1x256x1) hz3, View.ld_unit_zero (S := S133x256) hz2, View.ld_unit_zero (S := S256x256) hz2, View.ld_unit_zero (S := S1x256) hz2]

def iblk3 (V : (c : Dev nD) → (b : Ref sig .tc) → Buf (Elt F) ((c : Thread nD τ).loc b)) (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def sc3 (V : (c : Dev nD) → (b : Ref sig .tc) → Buf (Elt F) ((c : Thread nD τ).loc b)) (c : Dev nD) : (n : ℕ) → n < cfg3.N → Vec F S2048x256 .f32
  | 0, h => k3_pay1 (k3_pay4 (iblk3 V c 0 ⟨0, h⟩) (iblk3 V c 3 ⟨0, h⟩) (iblk3 V c 1 ⟨0, h⟩) (iblk3 V c 4 ⟨0, h⟩) (iblk3 V c 5 ⟨0, h⟩) (iblk3 V c 2 ⟨0, h⟩) (k3_pay3 (F := F)))
  | n + 1, h => k3_pay1 (k3_pay4 (iblk3 V c 0 ⟨n + 1, h⟩) (iblk3 V c 3 ⟨n + 1, h⟩) (iblk3 V c 1 ⟨n + 1, h⟩) (iblk3 V c 4 ⟨n + 1, h⟩) (iblk3 V c 5 ⟨n + 1, h⟩) (iblk3 V c 2 ⟨n + 1, h⟩)
      (if (n + 1) % 128 = 0 then (k3_pay3 (F := F)) else sc3 V c n (Nat.lt_of_succ_lt h)))

def out3_6 (s : Vec F S2048x256 .f32) : Vec F S1x2048x256 .f32 := k3_pay2 s

abbrev scM3 : Memref sig .tc .vmem S2048x256 .f32 := Memref.whole cc3_scratch0

def PhiS3 (V : (c : Dev nD) → (b : Ref sig .tc) → Buf (Elt F) ((c : Thread nD τ).loc b)) (c : Dev nD) : (n : ℕ) → n ≤ cfg3.N → sProp 𝕄
  | 0, _ => Pipeline.ΦA spec3 c
  | n + 1, h => iprop(iprop(owns (c : Thread nD τ) scM3 fullShare (sc3 V c n h)
      ∗ Pipeline.scopedRestBut (Ix := Unit) (Name := ℕ) (U := UR sig nD τ) (Lvl := ℕ) (Val := Elt F) spec3 c [cc3_scratch0]) ∗ (∃ r, prngReg c r))

variable (V : (c : Dev nD) → (b : Ref sig .tc) → Buf (Elt F) ((c : Thread nD τ).loc b))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (sc3 V c t.val t.isLt)
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_6 (c : Dev nD) (t : Fin cfg3.N) : (dat3 V c).after 6 t = out3_6 (sc3 V c t.val t.isLt) := by dsimp only [dat3]

theorem sc3_eq (c : Dev nD) (n : ℕ) (h : n < cfg3.N) :
    sc3 V c n h = k3_pay1 (k3_pay4 (iblk3 V c 0 ⟨n, h⟩) (iblk3 V c 3 ⟨n, h⟩) (iblk3 V c 1 ⟨n, h⟩) (iblk3 V c 4 ⟨n, h⟩) (iblk3 V c 5 ⟨n, h⟩) (iblk3 V c 2 ⟨n, h⟩)
      (if n % 128 = 0 then (k3_pay3 (F := F)) else sc3 V c (n - 1) (Nat.lt_of_le_of_lt (Nat.sub_le _ _) h))) := by
  cases n with
  | zero => rfl
  | succ n => rfl

theorem out3_6_eq (s : Vec F S2048x256 .f32) : out3_6 s = k3_pay2 s := rfl

theorem sc3_A (c : Dev nD) (t : Fin cfg3.N) (h0 : t.val % 128 = 0) :
    sc3 V c t.val t.isLt = k3_pay1 (k3_pay4 (iblk3 V c 0 t) (iblk3 V c 3 t) (iblk3 V c 1 t) (iblk3 V c 4 t) (iblk3 V c 5 t) (iblk3 V c 2 t) (k3_pay3 (F := F))) := by
  obtain ⟨n, hn⟩ := t
  have h0' : n % 128 = 0 := h0
  exact (sc3_eq V c n hn).trans (by rw [if_pos h0'])

theorem sc3_B (c : Dev nD) (t : Fin cfg3.N) (h0 : ¬t.val % 128 = 0) :
    sc3 V c t.val t.isLt = k3_pay1 (k3_pay4 (iblk3 V c 0 t) (iblk3 V c 3 t) (iblk3 V c 1 t) (iblk3 V c 4 t) (iblk3 V c 5 t) (iblk3 V c 2 t)
      (sc3 V c (t.val - 1) (Nat.lt_of_le_of_lt (Nat.sub_le _ _) t.isLt))) := by
  obtain ⟨n, hn⟩ := t
  have h0' : ¬n % 128 = 0 := h0
  exact (sc3_eq V c n hn).trans (by rw [if_neg h0'])

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3 fullShare (sc3 V c n hn)
      ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(owns (c : Thread nD τ) scM3 fullShare (sc3 V c (n - 1) (by omega))
      ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

theorem PhiA3_eq (c : Dev nD) :
    (Pipeline.ΦA spec3 c : sProp 𝕄)
      = iprop(iprop((∃ d, owns (c : Thread nD τ) scM3 fullShare d)
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl) (fun t => by rw [after3_4]; unfold Dat.blockOf iblk3; rw [A_eq3]; try rfl) t d).trans
    (by unfold Dat.fetched Dat.blockOf iblk3; rw [A_eq3]; try rfl)
theorem before3_5 (c : Dev nD) (t : Fin cfg3.N) (d) : (dat3 V c).before 5 t d = iblk3 V c 5 t :=
  ((dat3 V c).before_in_eq_fetched 5 rfl (fun _ => rfl) (fun _ _ _ => rfl) (fun t => by rw [after3_5]; unfold Dat.blockOf iblk3; rw [A_eq3]; try rfl) t d).trans
    (by unfold Dat.fetched Dat.blockOf iblk3; rw [A_eq3]; try rfl)

theorem leaves3_0 (c : Dev nD) (t : Fin cfg3.N) :
    (dat3 V c).leavesExact 0 t = owns (c : Thread nD τ) (st3_0 t) fullShare ((dat3 V c).after 0 t) := by
  unfold Dat.leavesExact; rw [liveAt3_0 t]
theorem leaves3_1 (c : Dev nD) (t : Fin cfg3.N) :
    (dat3 V c).leavesExact 1 t = owns (c : Thread nD τ) (st3_1 t) fullShare ((dat3 V c).after 1 t) := by
  unfold Dat.leavesExact; rw [liveAt3_1 t]
theorem leaves3_2 (c : Dev nD) (t : Fin cfg3.N) :
    (dat3 V c).leavesExact 2 t = owns (c : Thread nD τ) (st3_2 t) fullShare ((dat3 V c).after 2 t) := by
  unfold Dat.leavesExact; rw [liveAt3_2 t]
theorem leaves3_3 (c : Dev nD) (t : Fin cfg3.N) :
    (dat3 V c).leavesExact 3 t = owns (c : Thread nD τ) (st3_3 t) fullShare ((dat3 V c).after 3 t) := by
  unfold Dat.leavesExact; rw [liveAt3_3 t]
theorem leaves3_4 (c : Dev nD) (t : Fin cfg3.N) :
    (dat3 V c).leavesExact 4 t = owns (c : Thread nD τ) (st3_4 t) fullShare ((dat3 V c).after 4 t) := by
  unfold Dat.leavesExact; rw [liveAt3_4 t]
theorem leaves3_5 (c : Dev nD) (t : Fin cfg3.N) :
    (dat3 V c).leavesExact 5 t = owns (c : Thread nD τ) (st3_5 t) fullShare ((dat3 V c).after 5 t) := by
  unfold Dat.leavesExact; rw [liveAt3_5 t]

theorem leaves3_6 (c : Dev nD) (t : Fin cfg3.N) (h : cond3_1 (grid3.coords t)) :
    (dat3 V c).leavesExact 6 t = owns (c : Thread nD τ) (st3_6 t) fullShare ((dat3 V c).after 6 t) := by
  unfold Dat.leavesExact; rw [liveAt3_6 t h]

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t)

set_option maxHeartbeats 4800000 in

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).owesAt () t.succ = (dat3 V c).owesAt () t.castSucc from rfl]
  rw [show (dat3 V c).Φ t.succ = PhiS3 V c (t.val + 1) t.isLt from rfl, PhiS3_succ]
  rw [leaves3_0, leaves3_1, leaves3_2, leaves3_3, leaves3_4, leaves3_5,
    after3_0, after3_1, after3_2, after3_3, after3_4, after3_5]
  have hN : t.val < 256 := lt_of_lt_of_eq t.isLt (show cfg3.N = 256 from N_3)
  by_cases h0 : t.val % 128 = 0
  · have h1 : ¬t.val % 128 = 127 := by omega
    have hc0 : cond3_0 (grid3.coords t) := (hcond3_0 t).mpr h0
    have hc1 : ¬cond3_1 (grid3.coords t) := fun h => h1 ((hcond3_1 t).mp h)
    rw [Dat.leavesExact_idle (dat3 V c) 6 t (idleAt3_6 t hc1) (noFlush3_6 t hc1)]
    rw [sc3_A V c t h0]
    by_cases hz : t.val = 0
    · rw [PhiS3_castSucc V c t, PhiS3_zero V c _ _ hz, PhiA3_eq]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel3_A c Set.univ (grid3.coords t) _ _ _ _ _ _ _ _ _ _ _ _ _ _ _ _ hc0 hc1 (iblk3 V c 0 t) (iblk3 V c 1 t) (iblk3 V c 2 t) (iblk3 V c 3 t) (iblk3 V c 4 t) (iblk3 V c 5 t) ((dat3 V c).before 6 t d6) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS3_castSucc V c t, PhiS3_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel3_A c Set.univ (grid3.coords t) _ _ _ _ _ _ _ _ _ _ _ _ _ _ _ _ hc0 hc1 (iblk3 V c 0 t) (iblk3 V c 1 t) (iblk3 V c 2 t) (iblk3 V c 3 t) (iblk3 V c 4 t) (iblk3 V c 5 t) ((dat3 V c).before 6 t d6) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexists _; iexact HS
      iintro ⟨H0, H1, H2, H3, H4, H5, H6, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hc0 : ¬cond3_0 (grid3.coords t) := fun h => h0 ((hcond3_0 t).mp h)
    have hz : t.val ≠ 0 := fun e => h0 (by rw [e])
    rw [sc3_B V c t h0]
    rw [PhiS3_castSucc V c t, PhiS3_pos V c _ _ hz]
    by_cases h1 : t.val % 128 = 127
    · have hc1 : cond3_1 (grid3.coords t) := (hcond3_1 t).mpr h1
      rw [leaves3_6 V c t hc1, after3_6, sc3_B V c t h0]
      unfold out3_6
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel3_C c Set.univ (grid3.coords t) _ _ _ _ _ _ _ _ _ _ _ _ _ _ _ _ hc0 hc1 (iblk3 V c 0 t) (iblk3 V c 1 t) (iblk3 V c 2 t) (iblk3 V c 3 t) (iblk3 V c 4 t) (iblk3 V c 5 t) (sc3 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, H6, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc1 : ¬cond3_1 (grid3.coords t) := fun h => h1 ((hcond3_1 t).mp h)
      rw [Dat.leavesExact_idle (dat3 V c) 6 t (idleAt3_6 t hc1) (noFlush3_6 t hc1)]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel3_B c Set.univ (grid3.coords t) _ _ _ _ _ _ _ _ _ _ _ _ _ _ _ _ hc0 hc1 (iblk3 V c 0 t) (iblk3 V c 1 t) (iblk3 V c 2 t) (iblk3 V c 3 t) (iblk3 V c 4 t) (iblk3 V c 5 t) ((dat3 V c).before 6 t d6) (sc3 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = PhiS3 V c 0 (Nat.zero_le _) from rfl, PhiS3_zero V c 0 _ rfl]

theorem hout3 (c : Dev nD) : (dat3 V c).Φ (Fin.last cfg3.N) ⊢ Pipeline.ΦA spec3 c := by
  have hN : (Fin.last cfg3.N).val ≠ 0 := by rw [Fin.val_last]; have : cfg3.N = 256 := N_3; omega
  rw [show (dat3 V c).Φ (Fin.last cfg3.N) = PhiS3 V c (Fin.last cfg3.N).val (Nat.le_of_lt_succ (Fin.last cfg3.N).isLt) from rfl,
    PhiS3_pos V c _ _ hN, PhiA3_eq]
  iintro ⟨⟨HS, HR⟩, Hg⟩
  isplitl [HS HR]
  · isplitl [HS]
    · iexists _; iexact HS
    iexact HR
  iexact Hg

end Cert.Kernel.Fr

end
-- ==== Proof.KFrW.lean ====
import proofs.«431103_j25254407701135_3_alg».proof.Proof.Gen.Kernel.Launch
import proofs.«431103_j25254407701135_3_alg».proof.Proof.Gen.Kernel.Skeleton
import proofs.«431103_j25254407701135_3_alg».proof.Proof.Gen.Kernel.Points
import proofs.«431103_j25254407701135_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«431103_j25254407701135_3_alg».proof.Proof.KFrR0
import proofs.«431103_j25254407701135_3_alg».proof.Proof.KFrR1
import proofs.«431103_j25254407701135_3_alg».proof.Proof.KFrR2
import proofs.«431103_j25254407701135_3_alg».proof.Proof.KFrR3
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

abbrev V2 : (c : Dev nD) → (b : Ref sig .tc) → Buf (Elt F) ((c : Thread nD τ).loc b) := fun c b => W2 m ρ c b

theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)

abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)

abbrev V5 : (c : Dev nD) → (b : Ref sig .tc) → Buf (Elt F) ((c : Thread nD τ).loc b) := fun c b => W5 m ρ c b

def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb

abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

abbrev W7 : Dev nD → Valuation τ sig (Elt F) := fun c => StableHlo.after hostOps3 (W6 m ρ c)

abbrev W8 : Dev nD → Valuation τ sig (Elt F) := fun c => StableHlo.after hostOps3_1 (W7 m ρ c)

abbrev W9 : Dev nD → Valuation τ sig (Elt F) := fun c => StableHlo.after hostOps3_2 (W8 m ρ c)

abbrev V9 : (c : Dev nD) → (b : Ref sig .tc) → Buf (Elt F) ((c : Thread nD τ).loc b) := fun c b => W9 m ρ c b

def W10 (c : Dev nD) : Valuation τ sig (Elt F) :=
  Pipeline.withArrays spec3 c (W9 m ρ c) fun w => (dat3 (V9 m ρ) c).arrAt w cfg3.N
theorem W10_arr (c : Dev nD) (w : Fin cfg3.W) :
    W10 m ρ c (Proc.devRef .tc (Pipeline.arrRef spec3 w)) = (dat3 (V9 m ρ) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) := by
  unfold W10; exact Pipeline.withArrays_of_ne spec3 c _ _ b hb

abbrev V10 : (c : Dev nD) → (b : Ref sig .tc) → Buf (Elt F) ((c : Thread nD τ).loc b) := fun c b => W10 m ρ c b
theorem hF3 (c : Dev nD) (w : Fin cfg3.W) : (dat3 (V9 m ρ) c).arrAt w cfg3.N = V10 m ρ c (Pipeline.arrRef spec3 w) :=
  (W10_arr m ρ c w).symm
theorem hrest3 (c : Dev nD) : ∀ b, b ∉ Finset.univ.image (Pipeline.arrRef spec3) → V10 m ρ c b = V9 m ρ c b :=
  fun b hb => W10_of_ne m ρ c b fun w e => hb (Finset.mem_image.mpr ⟨w, Finset.mem_univ _, e⟩)

abbrev W11 : Dev nD → Valuation τ sig (Elt F) := fun c => StableHlo.after hostOps4 (W10 m ρ c)

abbrev adm : (p : Fin 4) → (pcfgs (F := F) p).Adm := fun p => (cfgs p).toPCfg_adm

def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V9 m ρ) c

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W11 m ρ c) ∗ ∃ r, prngReg c r)

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

theorem W5_of (c : Dev nD) (r : Ref sig .tc) (h : r ∉ hostOps2_W) : W5 m ρ c (Proc.devRef .tc r) = W4 m ρ c (Proc.devRef .tc r) :=
  StableHlo.after_of_writes_sub hostOps2 _ hostOps2_writes h

theorem W7_of (c : Dev nD) (r : Ref sig .tc) (h : r ∉ hostOps3_W) : W7 m ρ c (Proc.devRef .tc r) = W6 m ρ c (Proc.devRef .tc r) :=
  StableHlo.after_of_writes_sub hostOps3 _ hostOps3_writes h

theorem W8_of (c : Dev nD) (r : Ref sig .tc) (h : r ∉ hostOps3_1_W) : W8 m ρ c (Proc.devRef .tc r) = W7 m ρ c (Proc.devRef .tc r) :=
  StableHlo.after_of_writes_sub hostOps3_1 _ hostOps3_1_writes h

theorem W9_of (c : Dev nD) (r : Ref sig .tc) (h : r ∉ hostOps3_2_W) : W9 m ρ c (Proc.devRef .tc r) = W8 m ρ c (Proc.devRef .tc r) :=
  StableHlo.after_of_writes_sub hostOps3_2 _ hostOps3_2_writes h

theorem W11_of (c : Dev nD) (r : Ref sig .tc) (h : r ∉ hostOps4_W) : W11 m ρ c (Proc.devRef .tc r) = W10 m ρ c (Proc.devRef .tc r) :=
  StableHlo.after_of_writes_sub hostOps4 _ hostOps4_writes h

-- Walk back from the last boundary to the launch, one step per host stretch or region.
theorem W11_of_W0 (c : Dev nD) (r : Ref sig .tc)
    (h : r ∉ hostOps4_W ∧ (∀ w, Pipeline.arrRef spec3 w ≠ r) ∧ r ∉ hostOps3_2_W ∧ r ∉ hostOps3_1_W ∧ r ∉ hostOps3_W
      ∧ (∀ w, Pipeline.arrRef spec2 w ≠ r) ∧ r ∉ hostOps2_W ∧ (∀ w, Pipeline.arrRef spec1 w ≠ r) ∧ r ∉ hostOps1_W ∧ r ∉ hostOps0_W)
    (h0 : W2 m ρ c (Proc.devRef .tc r) = W1 m ρ c (Proc.devRef .tc r)) :
    W11 m ρ c (Proc.devRef .tc r) = m ((c : Thread nD τ).loc r) := by
  obtain ⟨h4, hr3, h32, h31, h3, hr2, h2, hr1, h1, h00⟩ := h
  exact (W11_of m ρ c r h4).trans <| (W10_of_ne m ρ c r hr3).trans <| (W9_of m ρ c r h32).trans <|
    (W8_of m ρ c r h31).trans <| (W7_of m ρ c r h3).trans <| (W6_of_ne m ρ c r hr2).trans <|
    (W5_of m ρ c r h2).trans <| (W4_of_ne m ρ c r hr1).trans <| (W3_of m ρ c r h1).trans <| h0.trans <|
    W1_of m ρ c r h00

theorem W11_main_arg0 (c : Dev nD) : W11 m ρ c (Proc.devRef .tc main_arg0) = m ((c : Thread nD τ).loc main_arg0) :=
  W11_of_W0 m ρ c main_arg0 (by decide) ((W2_arr m ρ c 0).trans (((dat0 (V1 m ρ) c).arrAt_in 0 rfl _).trans (A_eq0 (V1 m ρ) c 0)))
theorem W11_main_arg1 (c : Dev nD) : W11 m ρ c (Proc.devRef .tc main_arg1) = m ((c : Thread nD τ).loc main_arg1) :=
  W11_of_W0 m ρ c main_arg1 (by decide) (W2_of_ne m ρ c main_arg1 (by decide))
theorem W11_main_arg2 (c : Dev nD) : W11 m ρ c (Proc.devRef .tc main_arg2) = m ((c : Thread nD τ).loc main_arg2) :=
  W11_of_W0 m ρ c main_arg2 (by decide) (W2_of_ne m ρ c main_arg2 (by decide))
theorem W11_main_arg3 (c : Dev nD) : W11 m ρ c (Proc.devRef .tc main_arg3) = m ((c : Thread nD τ).loc main_arg3) :=
  W11_of_W0 m ρ c main_arg3 (by decide) (W2_of_ne m ρ c main_arg3 (by decide))
theorem W11_main_arg4 (c : Dev nD) : W11 m ρ c (Proc.devRef .tc main_arg4) = m ((c : Thread nD τ).loc main_arg4) :=
  W11_of_W0 m ρ c main_arg4 (by decide) (W2_of_ne m ρ c main_arg4 (by decide))
theorem W11_main_arg5 (c : Dev nD) : W11 m ρ c (Proc.devRef .tc main_arg5) = m ((c : Thread nD τ).loc main_arg5) :=
  W11_of_W0 m ρ c main_arg5 (by decide) ((W2_arr m ρ c 1).trans (((dat0 (V1 m ρ) c).arrAt_in 1 rfl _).trans (A_eq0 (V1 m ρ) c 1)))
theorem W11_main_arg6 (c : Dev nD) : W11 m ρ c (Proc.devRef .tc main_arg6) = m ((c : Thread nD τ).loc main_arg6) :=
  W11_of_W0 m ρ c main_arg6 (by decide) (W2_of_ne m ρ c main_arg6 (by decide))
theorem W11_main_arg7 (c : Dev nD) : W11 m ρ c (Proc.devRef .tc main_arg7) = m ((c : Thread nD τ).loc main_arg7) :=
  W11_of_W0 m ρ c main_arg7 (by decide) (W2_of_ne m ρ c main_arg7 (by decide))
theorem W11_main_arg8 (c : Dev nD) : W11 m ρ c (Proc.devRef .tc main_arg8) = m ((c : Thread nD τ).loc main_arg8) :=
  W11_of_W0 m ρ c main_arg8 (by decide) (W2_of_ne m ρ c main_arg8 (by decide))
theorem W11_main_arg9 (c : Dev nD) : W11 m ρ c (Proc.devRef .tc main_arg9) = m ((c : Thread nD τ).loc main_arg9) :=
  W11_of_W0 m ρ c main_arg9 (by decide) (W2_of_ne m ρ c main_arg9 (by decide))
theorem W11_main_arg10 (c : Dev nD) : W11 m ρ c (Proc.devRef .tc main_arg10) = m ((c : Thread nD τ).loc main_arg10) :=
  W11_of_W0 m ρ c main_arg10 (by decide) (W2_of_ne m ρ c main_arg10 (by decide))

end Cert.Kernel.Fr

end
-- ==== Proof.KFrRun.lean ====
import proofs.«431103_j25254407701135_3_alg».proof.Proof.Gen.Kernel.Launch
import proofs.«431103_j25254407701135_3_alg».proof.Proof.Gen.Kernel.Skeleton
import proofs.«431103_j25254407701135_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«431103_j25254407701135_3_alg».proof.Proof.KFrW
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- One construction serves the four kernel regions: what differs between them is passed as arguments.
def regOf (p : Fin 4) (lf : Pipeline.LaunchFacts (nD := nD) (τ := τ) cfgs p) (W W' : Dev nD → Valuation τ sig (Elt F))
    (hbody : ∀ c, Pipeline.BodyObligationLoose (pdats m ρ p c) defs₀ 𝒱₀ () Set.univ)
    (howed : ∀ c t, (pdats m ρ p c).owed t = 0) (hq : ∀ c w, (pdats m ρ p c).q w = fullShare)
    (hrec : ∀ c x, x ∈ (pdats m ρ p c).recorded 0)
    (hA : ∀ c w, (pdats m ρ p c).A w = W c (Pipeline.arrRef (cfgs p).spec w))
    (hF : ∀ c w, (pdats m ρ p c).arrAt w (cfgs p).N = W' c (Pipeline.arrRef (cfgs p).spec w))
    (hrest : ∀ c (b : Ref sig .tc), b ∉ Finset.univ.image (Pipeline.arrRef (cfgs p).spec) → W' c b = W c b)
    (hΦ0 : ∀ c, Pipeline.ΦA (cfgs p).spec c ⊢ (pdats m ρ p c).Φ 0)
    (hΦN : ∀ c, (pdats m ρ p c).Φ (Fin.last _) ⊢ Pipeline.ΦA (cfgs p).spec c) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => W c b
  hentry c := by
    rw [Pipeline.ownSems0_none]
    have hsplit := Pipeline.arrays_of_unscopedBufs (p := p) (pcfgs (F := F)) adm (pdats m ρ) lf.win lf.arr_whole c
      ((pdats m ρ p c).share_full (hq c)) (fun b => W c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun x _ => Or.inl (hrec c x)
      rw [howed]; iexact HO
    isplitl [Hp]; · iexact Hp
    iexact Hrest
  hin c := by
    refine BIBase.Entails.trans ?_ (hΦ0 c)
    unfold Pipeline.ΦA
    iintro ⟨Hp, -, Hr⟩
    isplitl [Hr]; · iexact Hr
    iexact Hp
  hout c := by
    rw [Pipeline.ownSems0_none]
    refine BIBase.Entails.trans (hΦN c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (fun b => W c b) (fun b => W' c b) ((pdats m ρ p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed]
    icases HO with ⟨%W, -, HO⟩; iexists W; iexact HO

def reg0 : Pipeline.RegionSeg (pcfgs (F := F)) adm (pdats m ρ) () defs₀ 𝒱₀ L lv 0 :=
  regOf m ρ 0 launch0 (W1 m ρ) (W2 m ρ) (fun c => (body_obligation0 (V1 m ρ) c).loose) (fun _ _ => rfl) (fun _ _ => rfl)
    (fun _ _ => trivial) (fun _ _ => rfl) (hF0 m ρ) (hrest0 m ρ) (fun _ => .rfl) fun _ => .rfl

def reg1 : Pipeline.RegionSeg (pcfgs (F := F)) adm (pdats m ρ) () defs₀ 𝒱₀ L lv 1 :=
  regOf m ρ 1 launch1 (W3 m ρ) (W4 m ρ) (fun c => (body_obligation1 (V3 m ρ) c).loose) (fun _ _ => rfl) (fun _ _ => rfl)
    (fun _ _ => trivial) (fun _ _ => rfl) (hF1 m ρ) (hrest1 m ρ) (fun _ => .rfl) fun _ => .rfl

def reg2 : Pipeline.RegionSeg (pcfgs (F := F)) adm (pdats m ρ) () defs₀ 𝒱₀ L lv 2 :=
  regOf m ρ 2 launch2 (W5 m ρ) (W6 m ρ) (fun c => (body_obligation2 (V5 m ρ) c).loose) (fun _ _ => rfl) (fun _ _ => rfl)
    (fun _ _ => trivial) (fun _ _ => rfl) (hF2 m ρ) (hrest2 m ρ) (fun _ => .rfl) fun _ => .rfl

def reg3 : Pipeline.RegionSeg (pcfgs (F := F)) adm (pdats m ρ) () defs₀ 𝒱₀ L lv 3 :=
  regOf m ρ 3 launch3 (W9 m ρ) (W10 m ρ) (fun c => (body_obligation3 (V9 m ρ) c).loose) (fun _ _ => rfl) (fun _ _ => rfl)
    (fun _ _ => trivial) (fun _ _ => rfl) (hF3 m ρ) (hrest3 m ρ) (hin3 (V9 m ρ)) (hout3 (V9 m ρ))

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .host (hseg hostOps3_1 hostOps3_1_sub hostOps3_1_fresh (W7 m ρ)),
    .host (hseg hostOps3_2 hostOps3_2_sub hostOps3_2_fresh (W8 m ρ)),
    .region (reg3 m ρ),
    .host (hseg hostOps4 hostOps4_sub hostOps4_fresh (W10 m ρ)) ]

theorem main_run (c : Dev nD) : main (F := F) c = Pipeline.Seg.run (segs m ρ) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun c => by
        show iprop(StableHlo.held (c : Thread nD τ) (Pipeline.ucRefs τ sig) (W11 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun _ h => h)

theorem result : θ_run defs (onTc (τ := τ) (main (F := F))) ⟨m, fun _ => 0, ρ⟩ (fun r => ∀ c : Dev nD,
      r.2.mem ((c.tc : Thread nD τ).loc main_v71) = W11 m ρ c (Proc.devRef .tc main_v71)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨h c _ (mem_uc main_v71 (by decide)),
     (h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c),
     (h c _ (mem_uc main_arg6 (by decide))).trans (W11_main_arg6 m ρ c),
     (h c _ (mem_uc main_arg7 (by decide))).trans (W11_main_arg7 m ρ c),
     (h c _ (mem_uc main_arg8 (by decide))).trans (W11_main_arg8 m ρ c),
     (h c _ (mem_uc main_arg9 (by decide))).trans (W11_main_arg9 m ρ c),
     (h c _ (mem_uc main_arg10 (by decide))).trans (W11_main_arg10 m ρ c)⟩) (run_all m ρ)

end Cert.Kernel.Fr

end
-- ==== Proof.FrR0.lean ====
import proofs.«431103_j25254407701135_3_alg».proof.Proof.Gen.KernelIdeal.Launch
import proofs.«431103_j25254407701135_3_alg».proof.Proof.Gen.KernelIdeal.Skeleton
import proofs.«431103_j25254407701135_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_af : Rect S2048x133 := Rect.unit (s := S2048x133) ![0, 0] S2048x133.size inb_S2048x133_S2048x133_0_0
abbrev r0_wi : Rect S133x256 := Rect.unit (s := S133x256) ![0, 0] S133x256.size inb_S133x256_S133x256_0_0
abbrev r0_b : Rect S1x256 := Rect.unit (s := S1x256) ![0, 0] S1x256.size inb_S1x256_S1x256_0_0
abbrev r0_nbs : Rect S2048x14 := Rect.unit (s := S2048x14) ![0, 0] S2048x14.size inb_S2048x14_S2048x14_0_0
abbrev r0_whb : Rect S14x256 := Rect.unit (s := S14x256) ![0, 0] S14x256.size inb_S14x256_S14x256_0_0
abbrev r0_o : Rect S2048x256 := Rect.unit (s := S2048x256) ![0, 0] S2048x256.size inb_S2048x256_S2048x256_0_0

def out0_6 (x0 : Vec F S2048x133 .f32) (x1 : Vec F S133x256 .f32) (x2 : Vec F S1x256 .f32) : Vec F S2048x256 .bf16 :=
  View.canon [⟨r0_o, k0_pay3 (View.ld x0 r0_af) (View.ld x1 r0_wi) (View.ld x2 r0_b)⟩]

def out0_7 (x0 : Vec F S2048x133 .f32) (x1 : Vec F S133x256 .f32) (x2 : Vec F S1x256 .f32) (x3 : Vec F S2048x14 .f32)
    (x4 : Vec F S14x256 .f32) (x5 : Vec F S1x256 .f32) : Vec F S2048x256 .f32 :=
  View.canon [⟨r0_o, k0_pay2 (View.ld x0 r0_af) (View.ld x1 r0_wi) (View.ld x2 r0_b) (View.ld x3 r0_nbs) (View.ld x4 r0_whb) (View.ld x5 r0_b)⟩]

theorem cover0_6 (p0 : Vec F S2048x256 .bf16) (y : S2048x256.Idx) :
    ∃ pc ∈ ([⟨r0_o, p0⟩] : List (View.Piece (Elt F) S2048x256 .bf16)), y ∈ pc.1.set :=
  View.cover_of_tiled [⟨r0_o, p0⟩] S2048x256.size (by rfl) y

theorem cover0_7 (p0 : Vec F S2048x256 .f32) (y : S2048x256.Idx) :
    ∃ pc ∈ ([⟨r0_o, p0⟩] : List (View.Piece (Elt F) S2048x256 .f32)), y ∈ pc.1.set :=
  View.cover_of_tiled [⟨r0_o, p0⟩] S2048x256.size (by rfl) y

set_option maxHeartbeats 2000000 in

theorem sound_kernel0 (c : Dev nD) (E : Set ℕ) (i : grid0.Coords)
    (arg1 : Memref sig .tc .vmem S2048x133 .f32) (harg1 : arg1.IsWhole) (arg2 : Memref sig .tc .vmem S133x256 .f32) (harg2 : arg2.IsWhole)
    (arg3 : Memref sig .tc .vmem S1x256 .f32) (harg3 : arg3.IsWhole) (arg4 : Memref sig .tc .vmem S2048x14 .f32) (harg4 : arg4.IsWhole)
    (arg5 : Memref sig .tc .vmem S14x256 .f32) (harg5 : arg5.IsWhole) (arg6 : Memref sig .tc .vmem S1x256 .f32) (harg6 : arg6.IsWhole)
    (arg7 : Memref sig .tc .vmem S2048x256 .bf16) (harg7 : arg7.IsWhole) (arg8 : Memref sig .tc .vmem S2048x256 .f32) (harg8 : arg8.IsWhole)
    (x0 : Vec F S2048x133 .f32) (x1 : Vec F S133x256 .f32) (x2 : Vec F S1x256 .f32) (x3 : Vec F S2048x14 .f32)
    (x4 : Vec F S14x256 .f32) (x5 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2)
            ∗ owns (c : Thread nD τ) arg8 fullShare (out0_7 x0 x1 x2 x3 x4 x5)) -∗ K ⟨⟩))
      ⊢ wp frame (wpE (defs₀ (F := F)) Variants.none c none) E
          (cc0__init_kernel i arg1 harg1 arg2 harg2 arg3 harg3 arg4 harg4 arg5 harg5 arg6 harg6 arg7 harg7 arg8 harg8) K := by
  simp only [cc0__init_kernel_eq_skeleton]; unfold cc0__init_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_6 _)
  iexists _; isplitr
  swap; · iexact H7
  ipureintro
  exact View.read_writes_eq_canon _ _ _ (cover0_7 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t)
    | ⟨7, _⟩ => out0_7 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) :
    (dat0 V c).after 6 t = out0_6 (iblk0 V c 0 t) (iblk0 V c 1 t) (iblk0 V c 2 t) := by dsimp only [dat0]
theorem after0_7 (c : Dev nD) (t : Fin cfg0.N) :
    (dat0 V c).after 7 t = out0_7 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 1000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _
    (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.FrR1.lean ====
import proofs.«431103_j25254407701135_3_alg».proof.Proof.Gen.KernelIdeal.Launch
import proofs.«431103_j25254407701135_3_alg».proof.Proof.Gen.KernelIdeal.Skeleton
import proofs.«431103_j25254407701135_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S2048x256 := Rect.unit (s := S2048x256) ![0, 0] S2048x256.size inb_S2048x256_S2048x256_0_0
abbrev r1_w : Rect S256x256 := Rect.unit (s := S256x256) ![0, 0] S256x256.size inb_S256x256_S256x256_0_0

def out1_3 (x0 : Vec F S2048x256 .bf16) (x1 : Vec F S2048x256 .f32) (x2 : Vec F S256x256 .f32) : Vec F S2048x256 .bf16 :=
  View.canon [⟨r1_0, k1_pay1 (View.ld x0 r1_0) (View.ld x2 r1_w) (View.ld x1 r1_0)⟩]

theorem cover1_3 (p0 : Vec F S2048x256 .bf16) (y : S2048x256.Idx) :
    ∃ pc ∈ ([⟨r1_0, p0⟩] : List (View.Piece (Elt F) S2048x256 .bf16)), y ∈ pc.1.set :=
  View.cover_of_tiled [⟨r1_0, p0⟩] S2048x256.size (by rfl) y

set_option maxHeartbeats 1000000 in

theorem sound_kernel1 (c : Dev nD) (E : Set ℕ) (i : grid1.Coords)
    (arg1 : Memref sig .tc .vmem S2048x256 .bf16) (harg1 : arg1.IsWhole) (arg2 : Memref sig .tc .vmem S2048x256 .f32) (harg2 : arg2.IsWhole)
    (arg3 : Memref sig .tc .vmem S256x256 .f32) (harg3 : arg3.IsWhole) (arg4 : Memref sig .tc .vmem S2048x256 .bf16) (harg4 : arg4.IsWhole)
    (x0 : Vec F S2048x256 .bf16) (x1 : Vec F S2048x256 .f32) (x2 : Vec F S256x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__step_kernel i arg1 harg1 arg2 harg2 arg3 harg3 arg4 harg4) K := by
  simp only [cc1__step_kernel_eq_skeleton]; unfold cc1__step_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.FrR2.lean ====
import proofs.«431103_j25254407701135_3_alg».proof.Proof.Gen.KernelIdeal.Launch
import proofs.«431103_j25254407701135_3_alg».proof.Proof.Gen.KernelIdeal.Skeleton
import proofs.«431103_j25254407701135_3_alg».proof.Proof.Gen.KernelIdeal.Points
import proofs.«431103_j25254407701135_3_alg».proof.Proof.FrR1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

-- Region 2 runs the same body as region 1.
theorem sound_kernel2 (c : Dev nD) (E : Set ℕ) (i : grid2.Coords)
    (arg1 : Memref sig .tc .vmem S2048x256 .bf16) (harg1 : arg1.IsWhole) (arg2 : Memref sig .tc .vmem S2048x256 .f32) (harg2 : arg2.IsWhole)
    (arg3 : Memref sig .tc .vmem S256x256 .f32) (harg3 : arg3.IsWhole) (arg4 : Memref sig .tc .vmem S2048x256 .bf16) (harg4 : arg4.IsWhole)
    (x0 : Vec F S2048x256 .bf16) (x1 : Vec F S2048x256 .f32) (x2 : Vec F S256x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc2__step_kernel i arg1 harg1 arg2 harg2 arg3 harg3 arg4 harg4) K :=
  sound_kernel1 c E i arg1 harg1 arg2 harg2 arg3 harg3 arg4 harg4 x0 x1 x2 K

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out1_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out1_3 (iblk2 V c 0 t) (iblk2 V c 1 t) (iblk2 V c 2 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.FrR3.lean ====
import proofs.«431103_j25254407701135_3_alg».proof.Proof.Gen.KernelIdeal.Launch
import proofs.«431103_j25254407701135_3_alg».proof.Proof.Gen.KernelIdeal.Skeleton
import proofs.«431103_j25254407701135_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 128 = 0 :=
  (by decide +kernel : ∀ t : Fin grid3.N, cond3_0 (grid3.coords t) ↔ t.val % 128 = 0)

abbrev cond3_1 (i : grid3.Coords) : Prop := k3_cond2 i = 1#1
theorem hcond3_1 : ∀ t : Fin cfg3.N, cond3_1 (grid3.coords t) ↔ t.val % 128 = 127 :=
  (by decide +kernel : ∀ t : Fin grid3.N, cond3_1 (grid3.coords t) ↔ t.val % 128 = 127)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
theorem liveAt3_5 : ∀ t : Fin cfg3.N, cfg3.idle 5 (grid3.coords t) = false := by decide +kernel
theorem idleAt3_6 : ∀ t : Fin cfg3.N, ¬cond3_1 (grid3.coords t) → cfg3.idle 6 (grid3.coords t) = true := by decide +kernel
theorem noFlush3_6 : ∀ t : Fin cfg3.N, ¬cond3_1 (grid3.coords t) → (cfg3.win 6).flush t = false := by decide +kernel
theorem liveAt3_6 : ∀ t : Fin cfg3.N, cond3_1 (grid3.coords t) → cfg3.idle 6 (grid3.coords t) = false := by decide +kernel

theorem hz2 : (![0, 0] : Fin 2 → Nat) = fun _ => 0 := funext fun a => by fin_cases a <;> rfl
theorem hz3 : (![0, 0, 0] : Fin 3 → Nat) = fun _ => 0 := funext fun a => by fin_cases a <;> rfl

theorem cover3_s (p0 : Vec F S2048x256 .f32) (L : List (View.Piece (Elt F) S2048x256 .f32)) (y : S2048x256.Idx) :
    ∃ pc ∈ ((⟨Rect.unit (s := S2048x256) ![0, 0] S2048x256.size inb_S2048x256_S2048x256_0_0, p0⟩ : View.Piece (Elt F) S2048x256 .f32) :: L), y ∈ pc.1.set :=
  ⟨_, List.mem_cons.mpr (Or.inl rfl), View.mem_set_unit_zero hz2 inb_S2048x256_S2048x256_0_0 y⟩
theorem cover3_o (p0 : Vec F S1x2048x256 .f32) (L : List (View.Piece (Elt F) S1x2048x256 .f32)) (y : S1x2048x256.Idx) :
    ∃ pc ∈ ((⟨Rect.unit (s := S1x2048x256) ![0, 0, 0] S1x2048x256.size inb_S1x2048x256_S1x2048x256_0_0_0, p0⟩ : View.Piece (Elt F) S1x2048x256 .f32) :: L), y ∈ pc.1.set :=
  ⟨_, List.mem_cons.mpr (Or.inl rfl), View.mem_set_unit_zero hz3 inb_S1x2048x256_S1x2048x256_0_0_0 y⟩

set_option maxHeartbeats 1000000 in

theorem sound_kernel3_B (c : Dev nD) (E : Set ℕ) (i : grid3.Coords) (arg2 : Memref sig .tc .vmem S1x256x133 .f32) (harg2 : arg2.IsWhole) (arg3 : Memref sig .tc .vmem S1x256x256 .bf16) (harg3 : arg3.IsWhole) (arg4 : Memref sig .tc .vmem S1x256x1 .i32) (harg4 : arg4.IsWhole) (arg5 : Memref sig .tc .vmem S133x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S2048x256 .f32) (harg9 : arg9.IsWhole)
    (hc0 : ¬cond3_0 i) (hc1 : ¬cond3_1 i) (x0 : Vec F S1x256x133 .f32) (x1 : Vec F S1x256x256 .bf16) (x2 : Vec F S1x256x1 .i32) (x3 : Vec F S133x256 .f32) (x4 : Vec F S256x256 .f32) (x5 : Vec F S1x256 .f32) (x6 : Vec F S1x2048x256 .f32) (s : Vec F S2048x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare (k3_pay1 (k3_pay4 x0 x3 x1 x4 x5 x2 s))) -∗ K ⟨⟩))
      ⊢ wp frame (wpE (defs₀ (F := F)) Variants.none c none) E (cc3__readout_pool_kernel i arg2 harg2 arg3 harg3 arg4 harg4 arg5 harg5 arg6 harg6 arg7 harg7 arg8 harg8 arg9 harg9) K := by
  simp only [cc3__readout_pool_kernel_eq_skeleton]; unfold cc3__readout_pool_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
  subst hf0; subst hf1; subst hf2; subst hf3; subst hf4; subst hf5; subst hf6; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact HS
  ipureintro
  rw [View.read_writes_eq_canon _ _ _ (cover3_s _ _), View.canon_unit_zero hz2]
  simp only [View.readAt_eq_ld, View.ld_unit_zero (S := S2048x256) hz2, View.ld_unit_zero (S := S1x256x133) hz3, View.ld_unit_zero (S := S1x256x256) hz3, View.ld_unit_zero (S := S1x256x1) hz3, View.ld_unit_zero (S := S133x256) hz2, View.ld_unit_zero (S := S256x256) hz2, View.ld_unit_zero (S := S1x256) hz2]

set_option maxHeartbeats 1000000 in

theorem sound_kernel3_A (c : Dev nD) (E : Set ℕ) (i : grid3.Coords) (arg2 : Memref sig .tc .vmem S1x256x133 .f32) (harg2 : arg2.IsWhole) (arg3 : Memref sig .tc .vmem S1x256x256 .bf16) (harg3 : arg3.IsWhole) (arg4 : Memref sig .tc .vmem S1x256x1 .i32) (harg4 : arg4.IsWhole) (arg5 : Memref sig .tc .vmem S133x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S2048x256 .f32) (harg9 : arg9.IsWhole)
    (hc0 : cond3_0 i) (hc1 : ¬cond3_1 i) (x0 : Vec F S1x256x133 .f32) (x1 : Vec F S1x256x256 .bf16) (x2 : Vec F S1x256x1 .i32) (x3 : Vec F S133x256 .f32) (x4 : Vec F S256x256 .f32) (x5 : Vec F S1x256 .f32) (x6 : Vec F S1x2048x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare (k3_pay1 (k3_pay4 x0 x3 x1 x4 x5 x2 (k3_pay3 (F := F))))) -∗ K ⟨⟩))
      ⊢ wp frame (wpE (defs₀ (F := F)) Variants.none c none) E (cc3__readout_pool_kernel i arg2 harg2 arg3 harg3 arg4 harg4 arg5 harg5 arg6 harg6 arg7 harg7 arg8 harg8 arg9 harg9) K := by
  simp only [cc3__readout_pool_kernel_eq_skeleton]; unfold cc3__readout_pool_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, Hk⟩
  subst hf0; subst hf1; subst hf2; subst hf3; subst hf4; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact HS
  ipureintro
  sl_unfold_words
  rw [View.read_writes_eq_canon _ _ _ (cover3_s _ _), View.canon_cons_unit_zero (S := S2048x256) hz2, View.readCov_unit_zero (S := S2048x256) _ hz2]
  simp only [View.readAt_eq_ld, View.ld_unit_zero (S := S2048x256) hz2, View.ld_unit_zero (S := S1x256x133) hz3, View.ld_unit_zero (S := S1x256x256) hz3, View.ld_unit_zero (S := S1x256x1) hz3, View.ld_unit_zero (S := S133x256) hz2, View.ld_unit_zero (S := S256x256) hz2, View.ld_unit_zero (S := S1x256) hz2]

set_option maxHeartbeats 1000000 in

theorem sound_kernel3_C (c : Dev nD) (E : Set ℕ) (i : grid3.Coords) (arg2 : Memref sig .tc .vmem S1x256x133 .f32) (harg2 : arg2.IsWhole) (arg3 : Memref sig .tc .vmem S1x256x256 .bf16) (harg3 : arg3.IsWhole) (arg4 : Memref sig .tc .vmem S1x256x1 .i32) (harg4 : arg4.IsWhole) (arg5 : Memref sig .tc .vmem S133x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S2048x256 .f32) (harg9 : arg9.IsWhole)
    (hc0 : ¬cond3_0 i) (hc1 : cond3_1 i) (x0 : Vec F S1x256x133 .f32) (x1 : Vec F S1x256x256 .bf16) (x2 : Vec F S1x256x1 .i32) (x3 : Vec F S133x256 .f32) (x4 : Vec F S256x256 .f32) (x5 : Vec F S1x256 .f32) (s : Vec F S2048x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (k3_pay2 (k3_pay1 (k3_pay4 x0 x3 x1 x4 x5 x2 s)))
            ∗ owns (c : Thread nD τ) arg9 fullShare (k3_pay1 (k3_pay4 x0 x3 x1 x4 x5 x2 s))) -∗ K ⟨⟩))
      ⊢ wp frame (wpE (defs₀ (F := F)) Variants.none c none) E (cc3__readout_pool_kernel i arg2 harg2 arg3 harg3 arg4 harg4 arg5 harg5 arg6 harg6 arg7 harg7 arg8 harg8 arg9 harg9) K := by
  simp only [cc3__readout_pool_kernel_eq_skeleton]; unfold cc3__readout_pool_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
  subst hf0; subst hf1; subst hf2; subst hf3; subst hf4; subst hf5; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    rw [View.read_writes_eq_canon _ _ _ (cover3_o _ _), View.canon_unit_zero hz3, View.readCov_unit_zero (S := S2048x256) _ hz2]
    simp only [View.readAt_eq_ld, View.ld_unit_zero (S := S2048x256) hz2, View.ld_unit_zero (S := S1x256x133) hz3, View.ld_unit_zero (S := S1x256x256) hz3, View.ld_unit_zero (S := S1x256x1) hz3, View.ld_unit_zero (S := S133x256) hz2, View.ld_unit_zero (S := S256x256) hz2, View.ld_unit_zero (S := S1x256) hz2]
  iexists _; isplitr
  swap; · iexact HS
  ipureintro
  sl_unfold_words
  rw [View.read_writes_eq_canon _ _ _ (cover3_s _ _), View.canon_unit_zero hz2]
  simp only [View.readAt_eq_ld, View.ld_unit_zero (S := S2048x256) hz2, View.ld_unit_zero (S := S1x256x133) hz3, View.ld_unit_zero (S := S1x256x256) hz3, View.ld_unit_zero (S := S1x256x1) hz3, View.ld_unit_zero (S := S133x256) hz2, View.ld_unit_zero (S := S256x256) hz2, View.ld_unit_zero (S := S1x256) hz2]

def iblk3 (V : (c : Dev nD) → (b : Ref sig .tc) → Buf (Elt F) ((c : Thread nD τ).loc b)) (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def sc3 (V : (c : Dev nD) → (b : Ref sig .tc) → Buf (Elt F) ((c : Thread nD τ).loc b)) (c : Dev nD) : (n : ℕ) → n < cfg3.N → Vec F S2048x256 .f32
  | 0, h => k3_pay1 (k3_pay4 (iblk3 V c 0 ⟨0, h⟩) (iblk3 V c 3 ⟨0, h⟩) (iblk3 V c 1 ⟨0, h⟩) (iblk3 V c 4 ⟨0, h⟩) (iblk3 V c 5 ⟨0, h⟩) (iblk3 V c 2 ⟨0, h⟩) (k3_pay3 (F := F)))
  | n + 1, h => k3_pay1 (k3_pay4 (iblk3 V c 0 ⟨n + 1, h⟩) (iblk3 V c 3 ⟨n + 1, h⟩) (iblk3 V c 1 ⟨n + 1, h⟩) (iblk3 V c 4 ⟨n + 1, h⟩) (iblk3 V c 5 ⟨n + 1, h⟩) (iblk3 V c 2 ⟨n + 1, h⟩)
      (if (n + 1) % 128 = 0 then (k3_pay3 (F := F)) else sc3 V c n (Nat.lt_of_succ_lt h)))

def out3_6 (s : Vec F S2048x256 .f32) : Vec F S1x2048x256 .f32 := k3_pay2 s

abbrev scM3 : Memref sig .tc .vmem S2048x256 .f32 := Memref.whole cc3_scratch0

def PhiS3 (V : (c : Dev nD) → (b : Ref sig .tc) → Buf (Elt F) ((c : Thread nD τ).loc b)) (c : Dev nD) : (n : ℕ) → n ≤ cfg3.N → sProp 𝕄
  | 0, _ => Pipeline.ΦA spec3 c
  | n + 1, h => iprop(iprop(owns (c : Thread nD τ) scM3 fullShare (sc3 V c n h)
      ∗ Pipeline.scopedRestBut (Ix := Unit) (Name := ℕ) (U := UR sig nD τ) (Lvl := ℕ) (Val := Elt F) spec3 c [cc3_scratch0]) ∗ (∃ r, prngReg c r))

variable (V : (c : Dev nD) → (b : Ref sig .tc) → Buf (Elt F) ((c : Thread nD τ).loc b))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (sc3 V c t.val t.isLt)
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_6 (c : Dev nD) (t : Fin cfg3.N) : (dat3 V c).after 6 t = out3_6 (sc3 V c t.val t.isLt) := by dsimp only [dat3]

theorem sc3_eq (c : Dev nD) (n : ℕ) (h : n < cfg3.N) :
    sc3 V c n h = k3_pay1 (k3_pay4 (iblk3 V c 0 ⟨n, h⟩) (iblk3 V c 3 ⟨n, h⟩) (iblk3 V c 1 ⟨n, h⟩) (iblk3 V c 4 ⟨n, h⟩) (iblk3 V c 5 ⟨n, h⟩) (iblk3 V c 2 ⟨n, h⟩)
      (if n % 128 = 0 then (k3_pay3 (F := F)) else sc3 V c (n - 1) (Nat.lt_of_le_of_lt (Nat.sub_le _ _) h))) := by
  cases n with
  | zero => rfl
  | succ n => rfl

theorem out3_6_eq (s : Vec F S2048x256 .f32) : out3_6 s = k3_pay2 s := rfl

theorem sc3_A (c : Dev nD) (t : Fin cfg3.N) (h0 : t.val % 128 = 0) :
    sc3 V c t.val t.isLt = k3_pay1 (k3_pay4 (iblk3 V c 0 t) (iblk3 V c 3 t) (iblk3 V c 1 t) (iblk3 V c 4 t) (iblk3 V c 5 t) (iblk3 V c 2 t) (k3_pay3 (F := F))) := by
  obtain ⟨n, hn⟩ := t
  have h0' : n % 128 = 0 := h0
  exact (sc3_eq V c n hn).trans (by rw [if_pos h0'])

theorem sc3_B (c : Dev nD) (t : Fin cfg3.N) (h0 : ¬t.val % 128 = 0) :
    sc3 V c t.val t.isLt = k3_pay1 (k3_pay4 (iblk3 V c 0 t) (iblk3 V c 3 t) (iblk3 V c 1 t) (iblk3 V c 4 t) (iblk3 V c 5 t) (iblk3 V c 2 t)
      (sc3 V c (t.val - 1) (Nat.lt_of_le_of_lt (Nat.sub_le _ _) t.isLt))) := by
  obtain ⟨n, hn⟩ := t
  have h0' : ¬n % 128 = 0 := h0
  exact (sc3_eq V c n hn).trans (by rw [if_neg h0'])

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3 fullShare (sc3 V c n hn)
      ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(owns (c : Thread nD τ) scM3 fullShare (sc3 V c (n - 1) (by omega))
      ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

theorem PhiA3_eq (c : Dev nD) :
    (Pipeline.ΦA spec3 c : sProp 𝕄)
      = iprop(iprop((∃ d, owns (c : Thread nD τ) scM3 fullShare d)
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl) (fun t => by rw [after3_4]; unfold Dat.blockOf iblk3; rw [A_eq3]; try rfl) t d).trans
    (by unfold Dat.fetched Dat.blockOf iblk3; rw [A_eq3]; try rfl)
theorem before3_5 (c : Dev nD) (t : Fin cfg3.N) (d) : (dat3 V c).before 5 t d = iblk3 V c 5 t :=
  ((dat3 V c).before_in_eq_fetched 5 rfl (fun _ => rfl) (fun _ _ _ => rfl) (fun t => by rw [after3_5]; unfold Dat.blockOf iblk3; rw [A_eq3]; try rfl) t d).trans
    (by unfold Dat.fetched Dat.blockOf iblk3; rw [A_eq3]; try rfl)

theorem leaves3_0 (c : Dev nD) (t : Fin cfg3.N) :
    (dat3 V c).leavesExact 0 t = owns (c : Thread nD τ) (st3_0 t) fullShare ((dat3 V c).after 0 t) := by
  unfold Dat.leavesExact; rw [liveAt3_0 t]
theorem leaves3_1 (c : Dev nD) (t : Fin cfg3.N) :
    (dat3 V c).leavesExact 1 t = owns (c : Thread nD τ) (st3_1 t) fullShare ((dat3 V c).after 1 t) := by
  unfold Dat.leavesExact; rw [liveAt3_1 t]
theorem leaves3_2 (c : Dev nD) (t : Fin cfg3.N) :
    (dat3 V c).leavesExact 2 t = owns (c : Thread nD τ) (st3_2 t) fullShare ((dat3 V c).after 2 t) := by
  unfold Dat.leavesExact; rw [liveAt3_2 t]
theorem leaves3_3 (c : Dev nD) (t : Fin cfg3.N) :
    (dat3 V c).leavesExact 3 t = owns (c : Thread nD τ) (st3_3 t) fullShare ((dat3 V c).after 3 t) := by
  unfold Dat.leavesExact; rw [liveAt3_3 t]
theorem leaves3_4 (c : Dev nD) (t : Fin cfg3.N) :
    (dat3 V c).leavesExact 4 t = owns (c : Thread nD τ) (st3_4 t) fullShare ((dat3 V c).after 4 t) := by
  unfold Dat.leavesExact; rw [liveAt3_4 t]
theorem leaves3_5 (c : Dev nD) (t : Fin cfg3.N) :
    (dat3 V c).leavesExact 5 t = owns (c : Thread nD τ) (st3_5 t) fullShare ((dat3 V c).after 5 t) := by
  unfold Dat.leavesExact; rw [liveAt3_5 t]

theorem leaves3_6 (c : Dev nD) (t : Fin cfg3.N) (h : cond3_1 (grid3.coords t)) :
    (dat3 V c).leavesExact 6 t = owns (c : Thread nD τ) (st3_6 t) fullShare ((dat3 V c).after 6 t) := by
  unfold Dat.leavesExact; rw [liveAt3_6 t h]

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t)

set_option maxHeartbeats 4800000 in

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).owesAt () t.succ = (dat3 V c).owesAt () t.castSucc from rfl]
  rw [show (dat3 V c).Φ t.succ = PhiS3 V c (t.val + 1) t.isLt from rfl, PhiS3_succ]
  rw [leaves3_0, leaves3_1, leaves3_2, leaves3_3, leaves3_4, leaves3_5,
    after3_0, after3_1, after3_2, after3_3, after3_4, after3_5]
  have hN : t.val < 256 := lt_of_lt_of_eq t.isLt (show cfg3.N = 256 from N_3)
  by_cases h0 : t.val % 128 = 0
  · have h1 : ¬t.val % 128 = 127 := by omega
    have hc0 : cond3_0 (grid3.coords t) := (hcond3_0 t).mpr h0
    have hc1 : ¬cond3_1 (grid3.coords t) := fun h => h1 ((hcond3_1 t).mp h)
    rw [Dat.leavesExact_idle (dat3 V c) 6 t (idleAt3_6 t hc1) (noFlush3_6 t hc1)]
    rw [sc3_A V c t h0]
    by_cases hz : t.val = 0
    · rw [PhiS3_castSucc V c t, PhiS3_zero V c _ _ hz, PhiA3_eq]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel3_A c Set.univ (grid3.coords t) _ _ _ _ _ _ _ _ _ _ _ _ _ _ _ _ hc0 hc1 (iblk3 V c 0 t) (iblk3 V c 1 t) (iblk3 V c 2 t) (iblk3 V c 3 t) (iblk3 V c 4 t) (iblk3 V c 5 t) ((dat3 V c).before 6 t d6) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS3_castSucc V c t, PhiS3_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel3_A c Set.univ (grid3.coords t) _ _ _ _ _ _ _ _ _ _ _ _ _ _ _ _ hc0 hc1 (iblk3 V c 0 t) (iblk3 V c 1 t) (iblk3 V c 2 t) (iblk3 V c 3 t) (iblk3 V c 4 t) (iblk3 V c 5 t) ((dat3 V c).before 6 t d6) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexists _; iexact HS
      iintro ⟨H0, H1, H2, H3, H4, H5, H6, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hc0 : ¬cond3_0 (grid3.coords t) := fun h => h0 ((hcond3_0 t).mp h)
    have hz : t.val ≠ 0 := fun e => h0 (by rw [e])
    rw [sc3_B V c t h0]
    rw [PhiS3_castSucc V c t, PhiS3_pos V c _ _ hz]
    by_cases h1 : t.val % 128 = 127
    · have hc1 : cond3_1 (grid3.coords t) := (hcond3_1 t).mpr h1
      rw [leaves3_6 V c t hc1, after3_6, sc3_B V c t h0]
      unfold out3_6
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel3_C c Set.univ (grid3.coords t) _ _ _ _ _ _ _ _ _ _ _ _ _ _ _ _ hc0 hc1 (iblk3 V c 0 t) (iblk3 V c 1 t) (iblk3 V c 2 t) (iblk3 V c 3 t) (iblk3 V c 4 t) (iblk3 V c 5 t) (sc3 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, H6, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc1 : ¬cond3_1 (grid3.coords t) := fun h => h1 ((hcond3_1 t).mp h)
      rw [Dat.leavesExact_idle (dat3 V c) 6 t (idleAt3_6 t hc1) (noFlush3_6 t hc1)]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel3_B c Set.univ (grid3.coords t) _ _ _ _ _ _ _ _ _ _ _ _ _ _ _ _ hc0 hc1 (iblk3 V c 0 t) (iblk3 V c 1 t) (iblk3 V c 2 t) (iblk3 V c 3 t) (iblk3 V c 4 t) (iblk3 V c 5 t) ((dat3 V c).before 6 t d6) (sc3 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = PhiS3 V c 0 (Nat.zero_le _) from rfl, PhiS3_zero V c 0 _ rfl]

theorem hout3 (c : Dev nD) : (dat3 V c).Φ (Fin.last cfg3.N) ⊢ Pipeline.ΦA spec3 c := by
  have hN : (Fin.last cfg3.N).val ≠ 0 := by rw [Fin.val_last]; have : cfg3.N = 256 := N_3; omega
  rw [show (dat3 V c).Φ (Fin.last cfg3.N) = PhiS3 V c (Fin.last cfg3.N).val (Nat.le_of_lt_succ (Fin.last cfg3.N).isLt) from rfl,
    PhiS3_pos V c _ _ hN, PhiA3_eq]
  iintro ⟨⟨HS, HR⟩, Hg⟩
  isplitl [HS HR]
  · isplitl [HS]
    · iexists _; iexact HS
    iexact HR
  iexact Hg

end Cert.KernelIdeal.Fr

end
-- ==== Proof.FrW.lean ====
import proofs.«431103_j25254407701135_3_alg».proof.Proof.Gen.KernelIdeal.Launch
import proofs.«431103_j25254407701135_3_alg».proof.Proof.Gen.KernelIdeal.Skeleton
import proofs.«431103_j25254407701135_3_alg».proof.Proof.Gen.KernelIdeal.Points
import proofs.«431103_j25254407701135_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«431103_j25254407701135_3_alg».proof.Proof.FrR0
import proofs.«431103_j25254407701135_3_alg».proof.Proof.FrR1
import proofs.«431103_j25254407701135_3_alg».proof.Proof.FrR2
import proofs.«431103_j25254407701135_3_alg».proof.Proof.FrR3

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

abbrev V2 : (c : Dev nD) → (b : Ref sig .tc) → Buf (Elt F) ((c : Thread nD τ).loc b) := fun c b => W2 m ρ c b

theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)

abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)

abbrev V5 : (c : Dev nD) → (b : Ref sig .tc) → Buf (Elt F) ((c : Thread nD τ).loc b) := fun c b => W5 m ρ c b

def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb

abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

abbrev W7 : Dev nD → Valuation τ sig (Elt F) := fun c => StableHlo.after hostOps3 (W6 m ρ c)

abbrev W8 : Dev nD → Valuation τ sig (Elt F) := fun c => StableHlo.after hostOps3_1 (W7 m ρ c)

abbrev W9 : Dev nD → Valuation τ sig (Elt F) := fun c => StableHlo.after hostOps3_2 (W8 m ρ c)

abbrev V9 : (c : Dev nD) → (b : Ref sig .tc) → Buf (Elt F) ((c : Thread nD τ).loc b) := fun c b => W9 m ρ c b

def W10 (c : Dev nD) : Valuation τ sig (Elt F) :=
  Pipeline.withArrays spec3 c (W9 m ρ c) fun w => (dat3 (V9 m ρ) c).arrAt w cfg3.N
theorem W10_arr (c : Dev nD) (w : Fin cfg3.W) :
    W10 m ρ c (Proc.devRef .tc (Pipeline.arrRef spec3 w)) = (dat3 (V9 m ρ) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) := by
  unfold W10; exact Pipeline.withArrays_of_ne spec3 c _ _ b hb

abbrev V10 : (c : Dev nD) → (b : Ref sig .tc) → Buf (Elt F) ((c : Thread nD τ).loc b) := fun c b => W10 m ρ c b
theorem hF3 (c : Dev nD) (w : Fin cfg3.W) : (dat3 (V9 m ρ) c).arrAt w cfg3.N = V10 m ρ c (Pipeline.arrRef spec3 w) :=
  (W10_arr m ρ c w).symm
theorem hrest3 (c : Dev nD) : ∀ b, b ∉ Finset.univ.image (Pipeline.arrRef spec3) → V10 m ρ c b = V9 m ρ c b :=
  fun b hb => W10_of_ne m ρ c b fun w e => hb (Finset.mem_image.mpr ⟨w, Finset.mem_univ _, e⟩)

abbrev W11 : Dev nD → Valuation τ sig (Elt F) := fun c => StableHlo.after hostOps4 (W10 m ρ c)

abbrev adm : (p : Fin 4) → (pcfgs (F := F) p).Adm := fun p => (cfgs p).toPCfg_adm

def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V9 m ρ) c

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W11 m ρ c) ∗ ∃ r, prngReg c r)

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

theorem W5_of (c : Dev nD) (r : Ref sig .tc) (h : r ∉ hostOps2_W) : W5 m ρ c (Proc.devRef .tc r) = W4 m ρ c (Proc.devRef .tc r) :=
  StableHlo.after_of_writes_sub hostOps2 _ hostOps2_writes h

theorem W7_of (c : Dev nD) (r : Ref sig .tc) (h : r ∉ hostOps3_W) : W7 m ρ c (Proc.devRef .tc r) = W6 m ρ c (Proc.devRef .tc r) :=
  StableHlo.after_of_writes_sub hostOps3 _ hostOps3_writes h

theorem W8_of (c : Dev nD) (r : Ref sig .tc) (h : r ∉ hostOps3_1_W) : W8 m ρ c (Proc.devRef .tc r) = W7 m ρ c (Proc.devRef .tc r) :=
  StableHlo.after_of_writes_sub hostOps3_1 _ hostOps3_1_writes h

theorem W9_of (c : Dev nD) (r : Ref sig .tc) (h : r ∉ hostOps3_2_W) : W9 m ρ c (Proc.devRef .tc r) = W8 m ρ c (Proc.devRef .tc r) :=
  StableHlo.after_of_writes_sub hostOps3_2 _ hostOps3_2_writes h

theorem W11_of (c : Dev nD) (r : Ref sig .tc) (h : r ∉ hostOps4_W) : W11 m ρ c (Proc.devRef .tc r) = W10 m ρ c (Proc.devRef .tc r) :=
  StableHlo.after_of_writes_sub hostOps4 _ hostOps4_writes h

-- Walk back from the last boundary to the launch, one step per host stretch or region.
theorem W11_of_W0 (c : Dev nD) (r : Ref sig .tc)
    (h : r ∉ hostOps4_W ∧ (∀ w, Pipeline.arrRef spec3 w ≠ r) ∧ r ∉ hostOps3_2_W ∧ r ∉ hostOps3_1_W ∧ r ∉ hostOps3_W
      ∧ (∀ w, Pipeline.arrRef spec2 w ≠ r) ∧ r ∉ hostOps2_W ∧ (∀ w, Pipeline.arrRef spec1 w ≠ r) ∧ r ∉ hostOps1_W ∧ r ∉ hostOps0_W)
    (h0 : W2 m ρ c (Proc.devRef .tc r) = W1 m ρ c (Proc.devRef .tc r)) :
    W11 m ρ c (Proc.devRef .tc r) = m ((c : Thread nD τ).loc r) := by
  obtain ⟨h4, hr3, h32, h31, h3, hr2, h2, hr1, h1, h00⟩ := h
  exact (W11_of m ρ c r h4).trans <| (W10_of_ne m ρ c r hr3).trans <| (W9_of m ρ c r h32).trans <|
    (W8_of m ρ c r h31).trans <| (W7_of m ρ c r h3).trans <| (W6_of_ne m ρ c r hr2).trans <|
    (W5_of m ρ c r h2).trans <| (W4_of_ne m ρ c r hr1).trans <| (W3_of m ρ c r h1).trans <| h0.trans <|
    W1_of m ρ c r h00

theorem W11_main_arg0 (c : Dev nD) : W11 m ρ c (Proc.devRef .tc main_arg0) = m ((c : Thread nD τ).loc main_arg0) :=
  W11_of_W0 m ρ c main_arg0 (by decide) ((W2_arr m ρ c 0).trans (((dat0 (V1 m ρ) c).arrAt_in 0 rfl _).trans (A_eq0 (V1 m ρ) c 0)))
theorem W11_main_arg1 (c : Dev nD) : W11 m ρ c (Proc.devRef .tc main_arg1) = m ((c : Thread nD τ).loc main_arg1) :=
  W11_of_W0 m ρ c main_arg1 (by decide) (W2_of_ne m ρ c main_arg1 (by decide))
theorem W11_main_arg2 (c : Dev nD) : W11 m ρ c (Proc.devRef .tc main_arg2) = m ((c : Thread nD τ).loc main_arg2) :=
  W11_of_W0 m ρ c main_arg2 (by decide) (W2_of_ne m ρ c main_arg2 (by decide))
theorem W11_main_arg3 (c : Dev nD) : W11 m ρ c (Proc.devRef .tc main_arg3) = m ((c : Thread nD τ).loc main_arg3) :=
  W11_of_W0 m ρ c main_arg3 (by decide) (W2_of_ne m ρ c main_arg3 (by decide))
theorem W11_main_arg4 (c : Dev nD) : W11 m ρ c (Proc.devRef .tc main_arg4) = m ((c : Thread nD τ).loc main_arg4) :=
  W11_of_W0 m ρ c main_arg4 (by decide) (W2_of_ne m ρ c main_arg4 (by decide))
theorem W11_main_arg5 (c : Dev nD) : W11 m ρ c (Proc.devRef .tc main_arg5) = m ((c : Thread nD τ).loc main_arg5) :=
  W11_of_W0 m ρ c main_arg5 (by decide) ((W2_arr m ρ c 1).trans (((dat0 (V1 m ρ) c).arrAt_in 1 rfl _).trans (A_eq0 (V1 m ρ) c 1)))
theorem W11_main_arg6 (c : Dev nD) : W11 m ρ c (Proc.devRef .tc main_arg6) = m ((c : Thread nD τ).loc main_arg6) :=
  W11_of_W0 m ρ c main_arg6 (by decide) (W2_of_ne m ρ c main_arg6 (by decide))
theorem W11_main_arg7 (c : Dev nD) : W11 m ρ c (Proc.devRef .tc main_arg7) = m ((c : Thread nD τ).loc main_arg7) :=
  W11_of_W0 m ρ c main_arg7 (by decide) (W2_of_ne m ρ c main_arg7 (by decide))
theorem W11_main_arg8 (c : Dev nD) : W11 m ρ c (Proc.devRef .tc main_arg8) = m ((c : Thread nD τ).loc main_arg8) :=
  W11_of_W0 m ρ c main_arg8 (by decide) (W2_of_ne m ρ c main_arg8 (by decide))
theorem W11_main_arg9 (c : Dev nD) : W11 m ρ c (Proc.devRef .tc main_arg9) = m ((c : Thread nD τ).loc main_arg9) :=
  W11_of_W0 m ρ c main_arg9 (by decide) (W2_of_ne m ρ c main_arg9 (by decide))
theorem W11_main_arg10 (c : Dev nD) : W11 m ρ c (Proc.devRef .tc main_arg10) = m ((c : Thread nD τ).loc main_arg10) :=
  W11_of_W0 m ρ c main_arg10 (by decide) (W2_of_ne m ρ c main_arg10 (by decide))

end Cert.KernelIdeal.Fr

end
-- ==== Proof.FrRun.lean ====
import proofs.«431103_j25254407701135_3_alg».proof.Proof.Gen.KernelIdeal.Launch
import proofs.«431103_j25254407701135_3_alg».proof.Proof.Gen.KernelIdeal.Skeleton
import proofs.«431103_j25254407701135_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«431103_j25254407701135_3_alg».proof.Proof.FrW

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- One construction serves the four kernel regions: what differs between them is passed as arguments.
def regOf (p : Fin 4) (lf : Pipeline.LaunchFacts (nD := nD) (τ := τ) cfgs p) (W W' : Dev nD → Valuation τ sig (Elt F))
    (hbody : ∀ c, Pipeline.BodyObligationLoose (pdats m ρ p c) defs₀ 𝒱₀ () Set.univ)
    (howed : ∀ c t, (pdats m ρ p c).owed t = 0) (hq : ∀ c w, (pdats m ρ p c).q w = fullShare)
    (hrec : ∀ c x, x ∈ (pdats m ρ p c).recorded 0)
    (hA : ∀ c w, (pdats m ρ p c).A w = W c (Pipeline.arrRef (cfgs p).spec w))
    (hF : ∀ c w, (pdats m ρ p c).arrAt w (cfgs p).N = W' c (Pipeline.arrRef (cfgs p).spec w))
    (hrest : ∀ c (b : Ref sig .tc), b ∉ Finset.univ.image (Pipeline.arrRef (cfgs p).spec) → W' c b = W c b)
    (hΦ0 : ∀ c, Pipeline.ΦA (cfgs p).spec c ⊢ (pdats m ρ p c).Φ 0)
    (hΦN : ∀ c, (pdats m ρ p c).Φ (Fin.last _) ⊢ Pipeline.ΦA (cfgs p).spec c) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => W c b
  hentry c := by
    rw [Pipeline.ownSems0_none]
    have hsplit := Pipeline.arrays_of_unscopedBufs (p := p) (pcfgs (F := F)) adm (pdats m ρ) lf.win lf.arr_whole c
      ((pdats m ρ p c).share_full (hq c)) (fun b => W c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun x _ => Or.inl (hrec c x)
      rw [howed]; iexact HO
    isplitl [Hp]; · iexact Hp
    iexact Hrest
  hin c := by
    refine BIBase.Entails.trans ?_ (hΦ0 c)
    unfold Pipeline.ΦA
    iintro ⟨Hp, -, Hr⟩
    isplitl [Hr]; · iexact Hr
    iexact Hp
  hout c := by
    rw [Pipeline.ownSems0_none]
    refine BIBase.Entails.trans (hΦN c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (fun b => W c b) (fun b => W' c b) ((pdats m ρ p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed]
    icases HO with ⟨%W, -, HO⟩; iexists W; iexact HO

def reg0 : Pipeline.RegionSeg (pcfgs (F := F)) adm (pdats m ρ) () defs₀ 𝒱₀ L lv 0 :=
  regOf m ρ 0 launch0 (W1 m ρ) (W2 m ρ) (fun c => (body_obligation0 (V1 m ρ) c).loose) (fun _ _ => rfl) (fun _ _ => rfl)
    (fun _ _ => trivial) (fun _ _ => rfl) (hF0 m ρ) (hrest0 m ρ) (fun _ => .rfl) fun _ => .rfl

def reg1 : Pipeline.RegionSeg (pcfgs (F := F)) adm (pdats m ρ) () defs₀ 𝒱₀ L lv 1 :=
  regOf m ρ 1 launch1 (W3 m ρ) (W4 m ρ) (fun c => (body_obligation1 (V3 m ρ) c).loose) (fun _ _ => rfl) (fun _ _ => rfl)
    (fun _ _ => trivial) (fun _ _ => rfl) (hF1 m ρ) (hrest1 m ρ) (fun _ => .rfl) fun _ => .rfl

def reg2 : Pipeline.RegionSeg (pcfgs (F := F)) adm (pdats m ρ) () defs₀ 𝒱₀ L lv 2 :=
  regOf m ρ 2 launch2 (W5 m ρ) (W6 m ρ) (fun c => (body_obligation2 (V5 m ρ) c).loose) (fun _ _ => rfl) (fun _ _ => rfl)
    (fun _ _ => trivial) (fun _ _ => rfl) (hF2 m ρ) (hrest2 m ρ) (fun _ => .rfl) fun _ => .rfl

def reg3 : Pipeline.RegionSeg (pcfgs (F := F)) adm (pdats m ρ) () defs₀ 𝒱₀ L lv 3 :=
  regOf m ρ 3 launch3 (W9 m ρ) (W10 m ρ) (fun c => (body_obligation3 (V9 m ρ) c).loose) (fun _ _ => rfl) (fun _ _ => rfl)
    (fun _ _ => trivial) (fun _ _ => rfl) (hF3 m ρ) (hrest3 m ρ) (hin3 (V9 m ρ)) (hout3 (V9 m ρ))

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .host (hseg hostOps3_1 hostOps3_1_sub hostOps3_1_fresh (W7 m ρ)),
    .host (hseg hostOps3_2 hostOps3_2_sub hostOps3_2_fresh (W8 m ρ)),
    .region (reg3 m ρ),
    .host (hseg hostOps4 hostOps4_sub hostOps4_fresh (W10 m ρ)) ]

theorem main_run (c : Dev nD) : main (F := F) c = Pipeline.Seg.run (segs m ρ) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun c => by
        show iprop(StableHlo.held (c : Thread nD τ) (Pipeline.ucRefs τ sig) (W11 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun _ h => h)

theorem result : θ_run defs (onTc (τ := τ) (main (F := F))) ⟨m, fun _ => 0, ρ⟩ (fun r => ∀ c : Dev nD,
      r.2.mem ((c.tc : Thread nD τ).loc main_v71) = W11 m ρ c (Proc.devRef .tc main_v71)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨h c _ (mem_uc main_v71 (by decide)),
     (h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c),
     (h c _ (mem_uc main_arg6 (by decide))).trans (W11_main_arg6 m ρ c),
     (h c _ (mem_uc main_arg7 (by decide))).trans (W11_main_arg7 m ρ c),
     (h c _ (mem_uc main_arg8 (by decide))).trans (W11_main_arg8 m ρ c),
     (h c _ (mem_uc main_arg9 (by decide))).trans (W11_main_arg9 m ρ c),
     (h c _ (mem_uc main_arg10 (by decide))).trans (W11_main_arg10 m ρ c)⟩) (run_all m ρ)

end Cert.KernelIdeal.Fr

end
-- ==== Proof.HostK.lean ====
import proofs.«431103_j25254407701135_3_alg».proof.Proof.Gen.KernelIdeal.Launch
import proofs.«431103_j25254407701135_3_alg».proof.Proof.Gen.KernelIdeal.Regions
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe
open Idealize.SL.Sem

variable {F : FTy → Type} [FloatOps F]

def nbsOf (fbonds : (⟨S131072x147, .f32⟩ : BufTy).Contents (Elt F)) (a2b : (⟨S65536x6, .i32⟩ : BufTy).Contents (Elt F)) :
    (⟨S65536x14, .f32⟩ : BufTy).Contents (Elt F) :=
  Host.reduceAdd
    (Host.gather gather_S131072x14_S65536x6x1_S65536x6x14_2_0_n_n_0_2_114
      (extractStridedSlice S131072x14 ![0, 133] fbonds slices_S131072x147_S131072x14_0_133)
      (broadcastInDim S65536x6x1 ![0, 1] bcast_S65536x6_S65536x6x1_0_1
        (select (cmpi .slt a2b (broadcastInDim S65536x6 ![] bcast_S_S65536x6 (constantI S_ 32 0#32)))
          (addi a2b (broadcastInDim S65536x6 ![] bcast_S_S65536x6 (constantI S_ 32 131072#32)))
          a2b)))
    (constant (F := F) S_ .f32 0x00000000#32) reducesTo_S65536x6x14_S65536x14_d1 h_S_

def nasOf (msg : (⟨S65536x256, .bf16⟩ : BufTy).Contents (Elt F)) (a2a : (⟨S65536x6, .i32⟩ : BufTy).Contents (Elt F)) :
    (⟨S65536x256, .bf16⟩ : BufTy).Contents (Elt F) :=
  truncf (F := F) .bf16
    (Host.reduceAdd
      (extf (F := F) .f32
        (Host.gather gather_S65536x256_S65536x6x1_S65536x6x256_2_0_n_n_0_2_1256 msg
          (broadcastInDim S65536x6x1 ![0, 1] bcast_S65536x6_S65536x6x1_0_1
            (select (cmpi .slt a2a (broadcastInDim S65536x6 ![] bcast_S_S65536x6 (constantI S_ 32 0#32)))
              (addi a2a (broadcastInDim S65536x6 ![] bcast_S_S65536x6 (constantI S_ 32 65536#32)))
              a2a)))
        bitsLt_bf16_f32)
      (constant (F := F) S_ .f32 0x00000000#32) reducesTo_S65536x6x256_S65536x256_d1 h_S_)
    bitsLt_bf16_f32

def cntOf (seg : (⟨S65536, .i32⟩ : BufTy).Contents (Elt F)) : (⟨S2048, .f32⟩ : BufTy).Contents (Elt F) :=
  Host.scatterAdd scatter_S2048_S65536x1_S65536_n_0_0_1
    (broadcastInDim S2048 ![] bcast_S_S2048 (constant (F := F) S_ .f32 0x00000000#32))
    (broadcastInDim S65536x1 ![0] bcast_S65536_S65536x1_0 seg)
    (broadcastInDim S65536 ![] bcast_S_S65536 (constant (F := F) S_ .f32 0x3F800000#32))

def invOf (seg : (⟨S65536, .i32⟩ : BufTy).Contents (Elt F)) : (⟨S2048, .f32⟩ : BufTy).Contents (Elt F) :=
  select
    (cmpf (F := F) .ogt (cntOf seg) (broadcastInDim S2048 ![] bcast_S_S2048 (constant (F := F) S_ .f32 0x00000000#32)))
    (Host.divf (F := F) (broadcastInDim S2048 ![] bcast_S_S2048 (constant (F := F) S_ .f32 0x3F800000#32))
      (maximumf (F := F) (cntOf seg) (broadcastInDim S2048 ![] bcast_S_S2048 (constant (F := F) S_ .f32 0x3F800000#32))))
    (broadcastInDim S2048 ![] bcast_S_S2048 (constant (F := F) S_ .f32 0x00000000#32))

theorem host0_v10 (W : Valuation τ sig (Elt F)) :
    StableHlo.after hostOps0 W (Proc.devRef .tc main_v10)
      = nbsOf (W (Proc.devRef .tc main_arg1)) (W (Proc.devRef .tc main_arg3)) := by
  show StableHlo.after hostOps0 W (Proc.devRef .tc main_v10) = _
  after_results <;> rfl

theorem host0_v1 (W : Valuation τ sig (Elt F)) :
    StableHlo.after hostOps0 W (Proc.devRef .tc main_v1)
      = extractStridedSlice S256x256 ![0, 0] (W (Proc.devRef .tc main_arg7)) slices_S270x256_S256x256_0_0 := by
  show StableHlo.after hostOps0 W (Proc.devRef .tc main_v1) = _
  after_results <;> rfl

theorem host0_v2 (W : Valuation τ sig (Elt F)) :
    StableHlo.after hostOps0 W (Proc.devRef .tc main_v2)
      = extractStridedSlice S14x256 ![256, 0] (W (Proc.devRef .tc main_arg7)) slices_S270x256_S14x256_256_0 := by
  show StableHlo.after hostOps0 W (Proc.devRef .tc main_v2) = _
  after_results <;> rfl

theorem host0_v11 (W : Valuation τ sig (Elt F)) :
    StableHlo.after hostOps0 W (Proc.devRef .tc main_v11)
      = shapeCast S1x256 (W (Proc.devRef .tc main_arg6)) shapeCasts_S256_S1x256 := by
  show StableHlo.after hostOps0 W (Proc.devRef .tc main_v11) = _
  after_results <;> rfl

theorem host0_v12 (W : Valuation τ sig (Elt F)) :
    StableHlo.after hostOps0 W (Proc.devRef .tc main_v12)
      = shapeCast S1x256 (W (Proc.devRef .tc main_arg8)) shapeCasts_S256_S1x256 := by
  show StableHlo.after hostOps0 W (Proc.devRef .tc main_v12) = _
  after_results <;> rfl

theorem host0_keep (W : Valuation τ sig (Elt F)) (b : Ref sig .tc) (h : b ∉ hostOps0_W) :
    StableHlo.after hostOps0 W (Proc.devRef .tc b) = W (Proc.devRef .tc b) :=
  StableHlo.after_of_writes_sub hostOps0 W hostOps0_writes h

theorem host1_v23 (W : Valuation τ sig (Elt F)) :
    StableHlo.after hostOps1 W (Proc.devRef .tc main_v23)
      = nasOf (W (Proc.devRef .tc main_v13_0)) (W (Proc.devRef .tc main_arg2)) := by
  show StableHlo.after hostOps1 W (Proc.devRef .tc main_v23) = _
  after_results <;> rfl

theorem host1_keep (W : Valuation τ sig (Elt F)) (b : Ref sig .tc) (h : b ∉ hostOps1_W) :
    StableHlo.after hostOps1 W (Proc.devRef .tc b) = W (Proc.devRef .tc b) :=
  StableHlo.after_of_writes_sub hostOps1 W hostOps1_writes h

theorem host2_v34 (W : Valuation τ sig (Elt F)) :
    StableHlo.after hostOps2 W (Proc.devRef .tc main_v34)
      = nasOf (W (Proc.devRef .tc main_v24)) (W (Proc.devRef .tc main_arg2)) := by
  show StableHlo.after hostOps2 W (Proc.devRef .tc main_v34) = _
  after_results <;> rfl

theorem host2_keep (W : Valuation τ sig (Elt F)) (b : Ref sig .tc) (h : b ∉ hostOps2_W) :
    StableHlo.after hostOps2 W (Proc.devRef .tc b) = W (Proc.devRef .tc b) :=
  StableHlo.after_of_writes_sub hostOps2 W hostOps2_writes h

theorem host3_v45 (W : Valuation τ sig (Elt F)) :
    StableHlo.after hostOps3 W (Proc.devRef .tc main_v45)
      = nasOf (W (Proc.devRef .tc main_v35)) (W (Proc.devRef .tc main_arg2)) := by
  show StableHlo.after hostOps3 W (Proc.devRef .tc main_v45) = _
  after_results <;> rfl

theorem host3_v46 (W : Valuation τ sig (Elt F)) :
    StableHlo.after hostOps3 W (Proc.devRef .tc main_v46)
      = extractStridedSlice S133x256 ![0, 0] (W (Proc.devRef .tc main_arg9)) slices_S389x256_S133x256_0_0 := by
  show StableHlo.after hostOps3 W (Proc.devRef .tc main_v46) = _
  after_results <;> rfl

theorem host3_v47 (W : Valuation τ sig (Elt F)) :
    StableHlo.after hostOps3 W (Proc.devRef .tc main_v47)
      = extractStridedSlice S256x256 ![133, 0] (W (Proc.devRef .tc main_arg9)) slices_S389x256_S256x256_133_0 := by
  show StableHlo.after hostOps3 W (Proc.devRef .tc main_v47) = _
  after_results <;> rfl

theorem host3_v53 (W : Valuation τ sig (Elt F)) :
    StableHlo.after hostOps3 W (Proc.devRef .tc main_v53)
      = cmpf (F := F) .ogt (cntOf (W (Proc.devRef .tc main_arg4))) (broadcastInDim S2048 ![] bcast_S_S2048 (constant (F := F) S_ .f32 0x00000000#32)) := by
  show StableHlo.after hostOps3 W (Proc.devRef .tc main_v53) = _
  after_results <;> rfl

theorem host3_v57 (W : Valuation τ sig (Elt F)) :
    StableHlo.after hostOps3 W (Proc.devRef .tc main_v57)
      = Host.divf (F := F) (broadcastInDim S2048 ![] bcast_S_S2048 (constant (F := F) S_ .f32 0x3F800000#32))
          (maximumf (F := F) (cntOf (W (Proc.devRef .tc main_arg4))) (broadcastInDim S2048 ![] bcast_S_S2048 (constant (F := F) S_ .f32 0x3F800000#32))) := by
  show StableHlo.after hostOps3 W (Proc.devRef .tc main_v57) = _
  after_results <;> rfl

theorem host3_cst_15 (W : Valuation τ sig (Elt F)) :
    StableHlo.after hostOps3 W (Proc.devRef .tc main_cst_15)
      = constant (F := F) S_ .f32 0x00000000#32 := by
  show StableHlo.after hostOps3 W (Proc.devRef .tc main_cst_15) = _
  after_results <;> rfl

theorem host3_keep (W : Valuation τ sig (Elt F)) (b : Ref sig .tc) (h : b ∉ hostOps3_W) :
    StableHlo.after hostOps3 W (Proc.devRef .tc b) = W (Proc.devRef .tc b) :=
  StableHlo.after_of_writes_sub hostOps3 W hostOps3_writes h

theorem host31_v58_of (W : Valuation τ sig (Elt F)) :
    StableHlo.after hostOps3_1 W (Proc.devRef .tc main_v58)
      = select (W (Proc.devRef .tc main_v53)) (W (Proc.devRef .tc main_v57)) (broadcastInDim S2048 ![] bcast_S_S2048 (W (Proc.devRef .tc main_cst_15))) := by
  show StableHlo.after hostOps3_1 W (Proc.devRef .tc main_v58) = _
  after_results <;> rfl

theorem host31_keep (W : Valuation τ sig (Elt F)) (b : Ref sig .tc) (h : b ∉ hostOps3_1_W) :
    StableHlo.after hostOps3_1 W (Proc.devRef .tc b) = W (Proc.devRef .tc b) :=
  StableHlo.after_of_writes_sub hostOps3_1 W hostOps3_1_writes h

theorem host31_v58 (W : Valuation τ sig (Elt F)) :
    StableHlo.after hostOps3_1 (StableHlo.after hostOps3 W) (Proc.devRef .tc main_v58) = invOf (W (Proc.devRef .tc main_arg4)) := by
  rw [host31_v58_of, host3_v53, host3_v57, host3_cst_15]
  rfl

theorem host32_v59 (W : Valuation τ sig (Elt F)) :
    StableHlo.after hostOps3_2 W (Proc.devRef .tc main_v59)
      = shapeCast S2x32768x133 (W (Proc.devRef .tc main_arg0)) shapeCasts_S65536x133_S2x32768x133 := by
  show StableHlo.after hostOps3_2 W (Proc.devRef .tc main_v59) = _
  after_results <;> rfl

theorem host32_v60 (W : Valuation τ sig (Elt F)) :
    StableHlo.after hostOps3_2 W (Proc.devRef .tc main_v60)
      = shapeCast S2x32768x256 (W (Proc.devRef .tc main_v45)) shapeCasts_S65536x256_S2x32768x256 := by
  show StableHlo.after hostOps3_2 W (Proc.devRef .tc main_v60) = _
  after_results <;> rfl

theorem host32_v61 (W : Valuation τ sig (Elt F)) :
    StableHlo.after hostOps3_2 W (Proc.devRef .tc main_v61)
      = shapeCast S2x32768x1 (W (Proc.devRef .tc main_arg4)) shapeCasts_S65536_S2x32768x1 := by
  show StableHlo.after hostOps3_2 W (Proc.devRef .tc main_v61) = _
  after_results <;> rfl

theorem host32_v62 (W : Valuation τ sig (Elt F)) :
    StableHlo.after hostOps3_2 W (Proc.devRef .tc main_v62)
      = shapeCast S1x256 (W (Proc.devRef .tc main_arg10)) shapeCasts_S256_S1x256 := by
  show StableHlo.after hostOps3_2 W (Proc.devRef .tc main_v62) = _
  after_results <;> rfl

theorem host32_keep (W : Valuation τ sig (Elt F)) (b : Ref sig .tc) (h : b ∉ hostOps3_2_W) :
    StableHlo.after hostOps3_2 W (Proc.devRef .tc b) = W (Proc.devRef .tc b) :=
  StableHlo.after_of_writes_sub hostOps3_2 W hostOps3_2_writes h

theorem host4_v71 (W : Valuation τ sig (Elt F)) :
    StableHlo.after hostOps4 W (Proc.devRef .tc main_v71)
      = mulf (F := F)
          (addf (F := F)
            (shapeCast S2048x256 (extractStridedSlice S1x2048x256 ![0, 0, 0] (W (Proc.devRef .tc main_v63)) slices_S2x2048x256_S1x2048x256_0_0_0) shapeCasts_S1x2048x256_S2048x256)
            (shapeCast S2048x256 (extractStridedSlice S1x2048x256 ![1, 0, 0] (W (Proc.devRef .tc main_v63)) slices_S2x2048x256_S1x2048x256_1_0_0) shapeCasts_S1x2048x256_S2048x256))
          (broadcastInDim S2048x256 ![0, 1] bcast_S2048x1_S2048x256_0_1 (shapeCast S2048x1 (W (Proc.devRef .tc main_v58)) shapeCasts_S2048_S2048x1)) := by
  show StableHlo.after hostOps4 W (Proc.devRef .tc main_v71) = _
  after_results <;> rfl

end Cert.KernelIdeal.Val

end
-- ==== Proof.Spec.lean ====
import Idealize.ShloMosaic.Lib.ValueIdx
import Idealize.ShloMosaic.PureOps.Ideal.Laws

noncomputable section

open scoped BigOperators

namespace Cert.Spec

open Idealize.ShloMosaic Idealize.ShloMosaic.ValueIdx

abbrev Arr2 (a b : ℕ) : Type := (⟨2, ![a, b]⟩ : Shape).Idx → EReal

abbrev Arr3 (a b c : ℕ) : Type := (⟨3, ![a, b, c]⟩ : Shape).Idx → EReal

def rowDot {N K H : ℕ} (x : Arr2 N K) (w : Arr2 K H) (r : Fin N) (j : Fin H) : EReal :=
  ∑ k : Fin K, x (ix2 r k) * w (ix2 k j)

def inp (af : Arr2 65536 133) (wi : Arr2 133 256) (bi : Arr2 1 256) (r : Fin 65536) (j : Fin 256) : EReal :=
  rowDot af wi r j + bi (ix2 (0 : Fin 1) j)

def msg0 (af : Arr2 65536 133) (wi : Arr2 133 256) (bi : Arr2 1 256) (r : Fin 65536) (j : Fin 256) : EReal :=
  max (inp af wi bi r j) 0

def base (af : Arr2 65536 133) (wi : Arr2 133 256) (bi : Arr2 1 256) (nbs : Arr2 65536 14) (whb : Arr2 14 256)
    (bh : Arr2 1 256) (r : Fin 65536) (j : Fin 256) : EReal :=
  inp af wi bi r j + (rowDot nbs whb r j + bh (ix2 (0 : Fin 1) j))

def step (a : Arr2 65536 256) (b : Arr2 65536 256) (wa : Arr2 256 256) (r : Fin 65536) (j : Fin 256) : EReal :=
  max (b (ix2 r j) + rowDot a wa r j) 0

def oneHot (x : BitVec 32) (s : Fin 2048) : EReal := if x = BitVec.ofNat 32 s.val then 1 else 0

def hidden (af : Arr3 2 32768 133) (am : Arr3 2 32768 256) (woaf : Arr2 133 256) (woam : Arr2 256 256) (bo : Arr2 1 256)
    (h : Fin 2) (p : Fin 32768) (j : Fin 256) : EReal :=
  max ((∑ k : Fin 133, af (ix3 h p k) * woaf (ix2 k j)) + (∑ k : Fin 256, am (ix3 h p k) * woam (ix2 k j))
    + bo (ix2 (0 : Fin 1) j)) 0

def pool (af : Arr3 2 32768 133) (am : Arr3 2 32768 256) (seg : (⟨3, ![2, 32768, 1]⟩ : Shape).Idx → BitVec 32)
    (woaf : Arr2 133 256) (woam : Arr2 256 256) (bo : Arr2 1 256) (h : Fin 2) (s : Fin 2048) (j : Fin 256) : EReal :=
  ∑ p : Fin 32768, oneHot (seg (ix3 h p (0 : Fin 1))) s * hidden af am woaf woam bo h p j

end Cert.Spec

end
-- ==== Proof.ValR0.lean ====
import proofs.«431103_j25254407701135_3_alg».proof.Proof.FrR0
import proofs.«431103_j25254407701135_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open scoped BigOperators

namespace R0

theorem lhs_af_0 (i : S2048x256.Idx) (q : dot_S2048x133_S133x256_S2048x256_1_0_0_1_n_n.contr.Idx) :
    (dot_S2048x133_S133x256_S2048x256_1_0_0_1_n_n.lhsIdx i q 0).val = (i 0).val := by
  unfold DotDims.lhsIdx
  rw [dif_neg (show ¬(0 : Fin S2048x133.rank) ∈ dot_S2048x133_S133x256_S2048x256_1_0_0_1_n_n.lhsBatch by decide), dif_pos (show (0 : Fin S2048x133.rank) ∈ dot_S2048x133_S133x256_S2048x256_1_0_0_1_n_n.lhsNonContracting by decide)]
  rfl

theorem lhs_af_1 (i : S2048x256.Idx) (q : dot_S2048x133_S133x256_S2048x256_1_0_0_1_n_n.contr.Idx) :
    (dot_S2048x133_S133x256_S2048x256_1_0_0_1_n_n.lhsIdx i q 1).val = (q ⟨0, by decide⟩).val :=
  dot_S2048x133_S133x256_S2048x256_1_0_0_1_n_n.lhsIdx_val_of_single rfl i q

theorem rhs_af_0 (i : S2048x256.Idx) (q : dot_S2048x133_S133x256_S2048x256_1_0_0_1_n_n.contr.Idx) :
    (dot_S2048x133_S133x256_S2048x256_1_0_0_1_n_n.rhsIdx i q 0).val = (q ⟨0, by decide⟩).val :=
  dot_S2048x133_S133x256_S2048x256_1_0_0_1_n_n.rhsIdx_val_of_single rfl i q

theorem rhs_af_1 (i : S2048x256.Idx) (q : dot_S2048x133_S133x256_S2048x256_1_0_0_1_n_n.contr.Idx) :
    (dot_S2048x133_S133x256_S2048x256_1_0_0_1_n_n.rhsIdx i q 1).val = (i 1).val := by
  unfold DotDims.rhsIdx
  rw [dif_neg (show ¬(1 : Fin S133x256.rank) ∈ dot_S2048x133_S133x256_S2048x256_1_0_0_1_n_n.rhsBatch by decide), dif_pos (show (1 : Fin S133x256.rank) ∈ dot_S2048x133_S133x256_S2048x256_1_0_0_1_n_n.rhsNonContracting by decide)]
  rfl

theorem mm_af_apply (x : FVec Ideal S2048x133 .bf16) (w : FVec Ideal S133x256 .bf16) (p : Fin 2048) (q : Fin 256) :
    matmul dot_S2048x133_S133x256_S2048x256_1_0_0_1_n_n none x w (constant (F := Ideal) S2048x256 .f32 0x00000000#32) (ix2 p q)
      = ∑ k : Fin 133, x (ix2 p k) * w (ix2 k q) := by
  simp only [matmul]
  rw [Ideal.matmul_constant_zero_apply, ← Equiv.sum_comp (contrEquiv1 dot_S2048x133_S133x256_S2048x256_1_0_0_1_n_n 133 rfl rfl).symm]
  refine Finset.sum_congr rfl fun k _ => ?_
  have hk := contrEquiv1_symm_val dot_S2048x133_S133x256_S2048x256_1_0_0_1_n_n 133 rfl rfl k
  have el : dot_S2048x133_S133x256_S2048x256_1_0_0_1_n_n.lhsIdx (ix2 p q) ((contrEquiv1 dot_S2048x133_S133x256_S2048x256_1_0_0_1_n_n 133 rfl rfl).symm k) = ix2 p k := funext fun a => Fin.ext (by
    match a with
    | ⟨0, _⟩ => exact lhs_af_0 _ _
    | ⟨1, _⟩ => exact (lhs_af_1 _ _).trans hk)
  have er : dot_S2048x133_S133x256_S2048x256_1_0_0_1_n_n.rhsIdx (ix2 p q) ((contrEquiv1 dot_S2048x133_S133x256_S2048x256_1_0_0_1_n_n 133 rfl rfl).symm k) = ix2 k q := funext fun a => Fin.ext (by
    match a with
    | ⟨0, _⟩ => exact (rhs_af_0 _ _).trans hk
    | ⟨1, _⟩ => exact rhs_af_1 _ _)
  rw [el, er]

theorem lhs_nbs_0 (i : S2048x256.Idx) (q : dot_S2048x14_S14x256_S2048x256_1_0_0_1_n_n.contr.Idx) :
    (dot_S2048x14_S14x256_S2048x256_1_0_0_1_n_n.lhsIdx i q 0).val = (i 0).val := by
  unfold DotDims.lhsIdx
  rw [dif_neg (show ¬(0 : Fin S2048x14.rank) ∈ dot_S2048x14_S14x256_S2048x256_1_0_0_1_n_n.lhsBatch by decide), dif_pos (show (0 : Fin S2048x14.rank) ∈ dot_S2048x14_S14x256_S2048x256_1_0_0_1_n_n.lhsNonContracting by decide)]
  rfl

theorem lhs_nbs_1 (i : S2048x256.Idx) (q : dot_S2048x14_S14x256_S2048x256_1_0_0_1_n_n.contr.Idx) :
    (dot_S2048x14_S14x256_S2048x256_1_0_0_1_n_n.lhsIdx i q 1).val = (q ⟨0, by decide⟩).val :=
  dot_S2048x14_S14x256_S2048x256_1_0_0_1_n_n.lhsIdx_val_of_single rfl i q

theorem rhs_nbs_0 (i : S2048x256.Idx) (q : dot_S2048x14_S14x256_S2048x256_1_0_0_1_n_n.contr.Idx) :
    (dot_S2048x14_S14x256_S2048x256_1_0_0_1_n_n.rhsIdx i q 0).val = (q ⟨0, by decide⟩).val :=
  dot_S2048x14_S14x256_S2048x256_1_0_0_1_n_n.rhsIdx_val_of_single rfl i q

theorem rhs_nbs_1 (i : S2048x256.Idx) (q : dot_S2048x14_S14x256_S2048x256_1_0_0_1_n_n.contr.Idx) :
    (dot_S2048x14_S14x256_S2048x256_1_0_0_1_n_n.rhsIdx i q 1).val = (i 1).val := by
  unfold DotDims.rhsIdx
  rw [dif_neg (show ¬(1 : Fin S14x256.rank) ∈ dot_S2048x14_S14x256_S2048x256_1_0_0_1_n_n.rhsBatch by decide), dif_pos (show (1 : Fin S14x256.rank) ∈ dot_S2048x14_S14x256_S2048x256_1_0_0_1_n_n.rhsNonContracting by decide)]
  rfl

theorem mm_nbs_apply (x : FVec Ideal S2048x14 .bf16) (w : FVec Ideal S14x256 .bf16) (p : Fin 2048) (q : Fin 256) :
    matmul dot_S2048x14_S14x256_S2048x256_1_0_0_1_n_n none x w (constant (F := Ideal) S2048x256 .f32 0x00000000#32) (ix2 p q)
      = ∑ k : Fin 14, x (ix2 p k) * w (ix2 k q) := by
  simp only [matmul]
  rw [Ideal.matmul_constant_zero_apply, ← Equiv.sum_comp (contrEquiv1 dot_S2048x14_S14x256_S2048x256_1_0_0_1_n_n 14 rfl rfl).symm]
  refine Finset.sum_congr rfl fun k _ => ?_
  have hk := contrEquiv1_symm_val dot_S2048x14_S14x256_S2048x256_1_0_0_1_n_n 14 rfl rfl k
  have el : dot_S2048x14_S14x256_S2048x256_1_0_0_1_n_n.lhsIdx (ix2 p q) ((contrEquiv1 dot_S2048x14_S14x256_S2048x256_1_0_0_1_n_n 14 rfl rfl).symm k) = ix2 p k := funext fun a => Fin.ext (by
    match a with
    | ⟨0, _⟩ => exact lhs_nbs_0 _ _
    | ⟨1, _⟩ => exact (lhs_nbs_1 _ _).trans hk)
  have er : dot_S2048x14_S14x256_S2048x256_1_0_0_1_n_n.rhsIdx (ix2 p q) ((contrEquiv1 dot_S2048x14_S14x256_S2048x256_1_0_0_1_n_n 14 rfl rfl).symm k) = ix2 k q := funext fun a => Fin.ext (by
    match a with
    | ⟨0, _⟩ => exact (rhs_nbs_0 _ _).trans hk
    | ⟨1, _⟩ => exact rhs_nbs_1 _ _)
  rw [el, er]

theorem pay1_apply (x0 : Vec Ideal S2048x133 .f32) (x1 : Vec Ideal S133x256 .f32) (x2 : Vec Ideal S1x256 .f32)
    (p : Fin 2048) (q : Fin 256) :
    k0_pay1 x0 x1 x2 (ix2 p q) = (∑ k : Fin 133, x0 (ix2 p k) * x1 (ix2 k q)) + x2 (ix2 (0 : Fin 1) q) := by
  unfold k0_pay1
  rw [addf_apply, mm_af_apply, shapeCast_self, broadcastTo_1b_ab_apply]
  rfl

theorem pay3_apply (x0 : Vec Ideal S2048x133 .f32) (x1 : Vec Ideal S133x256 .f32) (x2 : Vec Ideal S1x256 .f32)
    (p : Fin 2048) (q : Fin 256) :
    k0_pay3 x0 x1 x2 (ix2 p q) = max ((∑ k : Fin 133, x0 (ix2 p k) * x1 (ix2 k q)) + x2 (ix2 (0 : Fin 1) q)) 0 := by
  unfold k0_pay3
  rw [truncf_apply, maximumf_apply, pay1_apply, broadcast_apply]
  show max _ (Ideal.ofBits .f32 0x00000000#32) = _
  rw [Ideal.ofBits_zero_f32]

theorem pay2_apply (x0 : Vec Ideal S2048x133 .f32) (x1 : Vec Ideal S133x256 .f32) (x2 : Vec Ideal S1x256 .f32)
    (x3 : Vec Ideal S2048x14 .f32) (x4 : Vec Ideal S14x256 .f32) (x5 : Vec Ideal S1x256 .f32) (p : Fin 2048) (q : Fin 256) :
    k0_pay2 x0 x1 x2 x3 x4 x5 (ix2 p q)
      = ((∑ k : Fin 133, x0 (ix2 p k) * x1 (ix2 k q)) + x2 (ix2 (0 : Fin 1) q))
        + ((∑ k : Fin 14, x3 (ix2 p k) * x4 (ix2 k q)) + x5 (ix2 (0 : Fin 1) q)) := by
  unfold k0_pay2
  rw [addf_apply, pay1_apply, addf_apply, mm_nbs_apply, shapeCast_self, shapeCast_self, shapeCast_self, broadcastTo_1b_ab_apply]
  rfl

theorem tile_msg0 (af : Cert.Spec.Arr2 65536 133) (wi : Cert.Spec.Arr2 133 256) (bi : Cert.Spec.Arr2 1 256)
    (x0 : Vec Ideal S2048x133 .f32) (x1 : Vec Ideal S133x256 .f32) (x2 : Vec Ideal S1x256 .f32)
    (p : Fin 2048) (q : Fin 256) (r : Fin 65536)
    (h0 : ∀ k : Fin 133, x0 (ix2 p k) = af (ix2 r k)) (h1 : ∀ k : Fin 133, x1 (ix2 k q) = wi (ix2 k q))
    (h2 : x2 (ix2 (0 : Fin 1) q) = bi (ix2 (0 : Fin 1) q)) :
    k0_pay3 x0 x1 x2 (ix2 p q) = Cert.Spec.msg0 af wi bi r q := by
  rw [pay3_apply]
  unfold Cert.Spec.msg0 Cert.Spec.inp Cert.Spec.rowDot
  simp only [h0, h1, h2]

theorem tile_base (af : Cert.Spec.Arr2 65536 133) (wi : Cert.Spec.Arr2 133 256) (bi : Cert.Spec.Arr2 1 256)
    (nbs : Cert.Spec.Arr2 65536 14) (whb : Cert.Spec.Arr2 14 256) (bh : Cert.Spec.Arr2 1 256)
    (x0 : Vec Ideal S2048x133 .f32) (x1 : Vec Ideal S133x256 .f32) (x2 : Vec Ideal S1x256 .f32)
    (x3 : Vec Ideal S2048x14 .f32) (x4 : Vec Ideal S14x256 .f32) (x5 : Vec Ideal S1x256 .f32)
    (p : Fin 2048) (q : Fin 256) (r : Fin 65536)
    (h0 : ∀ k : Fin 133, x0 (ix2 p k) = af (ix2 r k)) (h1 : ∀ k : Fin 133, x1 (ix2 k q) = wi (ix2 k q))
    (h2 : x2 (ix2 (0 : Fin 1) q) = bi (ix2 (0 : Fin 1) q))
    (h3 : ∀ k : Fin 14, x3 (ix2 p k) = nbs (ix2 r k)) (h4 : ∀ k : Fin 14, x4 (ix2 k q) = whb (ix2 k q))
    (h5 : x5 (ix2 (0 : Fin 1) q) = bh (ix2 (0 : Fin 1) q)) :
    k0_pay2 x0 x1 x2 x3 x4 x5 (ix2 p q) = Cert.Spec.base af wi bi nbs whb bh r q := by
  rw [pay2_apply]
  unfold Cert.Spec.base Cert.Spec.inp Cert.Spec.rowDot
  simp only [h0, h1, h2, h3, h4, h5]

variable (V : (c : Dev nD) → (b : Ref sig .tc) → Buf (Elt Ideal) ((c : Thread nD τ).loc b))

theorem hz : (![0, 0] : Fin 2 → Nat) = fun _ => 0 := funext fun a => by fin_cases a <;> rfl

theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem af_blk (c : Dev nD) (t : Fin cfg0.N) (p : Fin 2048) (k : Fin 133) (r : Fin 65536) (hr : r.val = 2048 * t.val + p.val) :
    (iblk0 V c 0 t : Vec Ideal S2048x133 .f32) (ix2 p k) = (V c main_arg0 : S65536x133.Idx → EReal) (ix2 r k) := by
  obtain ⟨e0, e1, -⟩ := idx_facts t
  show V c main_arg0 (((cfg0.win 0).blk t).view.emb (ix2 p k)) = V c main_arg0 (ix2 r k)
  refine congrArg _ (funext fun a => Fin.ext ?_)
  match a with
  | ⟨0, _⟩ => show win0_0.index t (0 : Fin 2) * 2048 + 1 * p.val = r.val; omega
  | ⟨1, _⟩ => show win0_0.index t (1 : Fin 2) * 133 + 1 * k.val = k.val; omega

theorem nbs_blk (c : Dev nD) (t : Fin cfg0.N) (p : Fin 2048) (k : Fin 14) (r : Fin 65536) (hr : r.val = 2048 * t.val + p.val) :
    (iblk0 V c 3 t : Vec Ideal S2048x14 .f32) (ix2 p k) = (V c main_v10 : S65536x14.Idx → EReal) (ix2 r k) := by
  obtain ⟨-, -, -, -, -, -, e0, e1, -⟩ := idx_facts t
  show V c main_v10 (((cfg0.win 3).blk t).view.emb (ix2 p k)) = V c main_v10 (ix2 r k)
  refine congrArg _ (funext fun a => Fin.ext ?_)
  match a with
  | ⟨0, _⟩ => show win0_3.index t (0 : Fin 2) * 2048 + 1 * p.val = r.val; omega
  | ⟨1, _⟩ => show win0_3.index t (1 : Fin 2) * 14 + 1 * k.val = k.val; omega

theorem wi_blk (c : Dev nD) (t : Fin cfg0.N) (k : Fin 133) (q : Fin 256) :
    (iblk0 V c 1 t : Vec Ideal S133x256 .f32) (ix2 k q) = (V c main_arg5 : S133x256.Idx → EReal) (ix2 k q) := by
  obtain ⟨-, -, e0, e1, -⟩ := idx_facts t
  show V c main_arg5 (((cfg0.win 1).blk t).view.emb (ix2 k q)) = V c main_arg5 (ix2 k q)
  refine congrArg _ (funext fun a => Fin.ext ?_)
  match a with
  | ⟨0, _⟩ => show win0_1.index t (0 : Fin 2) * 133 + 1 * k.val = k.val; omega
  | ⟨1, _⟩ => show win0_1.index t (1 : Fin 2) * 256 + 1 * q.val = q.val; omega

theorem bi_blk (c : Dev nD) (t : Fin cfg0.N) (q : Fin 256) :
    (iblk0 V c 2 t : Vec Ideal S1x256 .f32) (ix2 (0 : Fin 1) q) = (V c main_v11 : S1x256.Idx → EReal) (ix2 (0 : Fin 1) q) := by
  obtain ⟨-, -, -, -, e0, e1, -⟩ := idx_facts t
  show V c main_v11 (((cfg0.win 2).blk t).view.emb (ix2 (0 : Fin 1) q)) = V c main_v11 (ix2 (0 : Fin 1) q)
  refine congrArg _ (funext fun a => Fin.ext ?_)
  match a with
  | ⟨0, _⟩ => show win0_2.index t (0 : Fin 2) * 1 + 1 * 0 = 0; omega
  | ⟨1, _⟩ => show win0_2.index t (1 : Fin 2) * 256 + 1 * q.val = q.val; omega

theorem whb_blk (c : Dev nD) (t : Fin cfg0.N) (k : Fin 14) (q : Fin 256) :
    (iblk0 V c 4 t : Vec Ideal S14x256 .f32) (ix2 k q) = (V c main_v2 : S14x256.Idx → EReal) (ix2 k q) := by
  obtain ⟨-, -, -, -, -, -, -, -, e0, e1, -⟩ := idx_facts t
  show V c main_v2 (((cfg0.win 4).blk t).view.emb (ix2 k q)) = V c main_v2 (ix2 k q)
  refine congrArg _ (funext fun a => Fin.ext ?_)
  match a with
  | ⟨0, _⟩ => show win0_4.index t (0 : Fin 2) * 14 + 1 * k.val = k.val; omega
  | ⟨1, _⟩ => show win0_4.index t (1 : Fin 2) * 256 + 1 * q.val = q.val; omega

theorem bh_blk (c : Dev nD) (t : Fin cfg0.N) (q : Fin 256) :
    (iblk0 V c 5 t : Vec Ideal S1x256 .f32) (ix2 (0 : Fin 1) q) = (V c main_v12 : S1x256.Idx → EReal) (ix2 (0 : Fin 1) q) := by
  obtain ⟨-, -, -, -, -, -, -, -, -, -, e0, e1, -⟩ := idx_facts t
  show V c main_v12 (((cfg0.win 5).blk t).view.emb (ix2 (0 : Fin 1) q)) = V c main_v12 (ix2 (0 : Fin 1) q)
  refine congrArg _ (funext fun a => Fin.ext ?_)
  match a with
  | ⟨0, _⟩ => show win0_5.index t (0 : Fin 2) * 1 + 1 * 0 = 0; omega
  | ⟨1, _⟩ => show win0_5.index t (1 : Fin 2) * 256 + 1 * q.val = q.val; omega

abbrev msgArr (c : Dev nD) : S65536x256.Idx → EReal := fun i =>
  Cert.Spec.msg0 (V c main_arg0 : S65536x133.Idx → EReal) (V c main_arg5 : S133x256.Idx → EReal)
    (V c main_v11 : S1x256.Idx → EReal) (i 0) (i 1)

abbrev baseArr (c : Dev nD) : S65536x256.Idx → EReal := fun i =>
  Cert.Spec.base (V c main_arg0 : S65536x133.Idx → EReal) (V c main_arg5 : S133x256.Idx → EReal)
    (V c main_v11 : S1x256.Idx → EReal) (V c main_v10 : S65536x14.Idx → EReal) (V c main_v2 : S14x256.Idx → EReal)
    (V c main_v12 : S1x256.Idx → EReal) (i 0) (i 1)

theorem flushed_msg (c : Dev nD) (t : Fin cfg0.N) :
    (dat0 V c).flushed 6 t = ((cfg0.win 6).blk t).view.read (Elt Ideal) (msgArr V c) := by
  show (cfg0.win 6).cut (grid0.coords t) ((dat0 V c).after 6 t) = _
  rw [after0_6]
  unfold out0_6
  rw [View.canon_unit_zero hz]
  simp only [View.ld_unit_zero (S := S2048x133) hz, View.ld_unit_zero (S := S133x256) hz, View.ld_unit_zero (S := S1x256) hz]
  obtain ⟨-, -, -, -, -, -, -, -, -, -, -, -, e0, e1, -⟩ := idx_facts t
  funext y
  obtain ⟨p, q, rfl⟩ : ∃ (p : Fin 2048) (q : Fin 256), y = ix2 p q := ⟨y 0, y 1, eq_ix2 y⟩
  have ht : t.val < 32 := lt_of_lt_of_eq t.isLt N_0
  have hp : p.val < 2048 := p.isLt
  have hr : 2048 * t.val + p.val < 65536 := by omega
  show k0_pay3 (iblk0 V c 0 t) (iblk0 V c 1 t) (iblk0 V c 2 t) (ix2 p q) = msgArr V c (((cfg0.win 6).blk t).view.emb (ix2 p q))
  refine (tile_msg0 (V c main_arg0) (V c main_arg5) (V c main_v11) (iblk0 V c 0 t) (iblk0 V c 1 t) (iblk0 V c 2 t) p q
    ⟨2048 * t.val + p.val, hr⟩ (fun k => af_blk V c t p k _ rfl) (fun k => wi_blk V c t k q) (bi_blk V c t q)).trans ?_
  show Cert.Spec.msg0 _ _ _ _ _ = Cert.Spec.msg0 _ _ _ _ _
  congr 1 <;> apply Fin.ext
  · show 2048 * t.val + p.val = win0_6.index t (0 : Fin 2) * 2048 + 1 * p.val; omega
  · show q.val = win0_6.index t (1 : Fin 2) * 256 + 1 * q.val; omega

theorem flushed_base (c : Dev nD) (t : Fin cfg0.N) :
    (dat0 V c).flushed 7 t = ((cfg0.win 7).blk t).view.read (Elt Ideal) (baseArr V c) := by
  show (cfg0.win 7).cut (grid0.coords t) ((dat0 V c).after 7 t) = _
  rw [after0_7]
  unfold out0_7
  rw [View.canon_unit_zero hz]
  simp only [View.ld_unit_zero (S := S2048x133) hz, View.ld_unit_zero (S := S133x256) hz, View.ld_unit_zero (S := S1x256) hz,
    View.ld_unit_zero (S := S2048x14) hz, View.ld_unit_zero (S := S14x256) hz]
  obtain ⟨-, -, -, -, -, -, -, -, -, -, -, -, -, -, e0, e1⟩ := idx_facts t
  funext y
  obtain ⟨p, q, rfl⟩ : ∃ (p : Fin 2048) (q : Fin 256), y = ix2 p q := ⟨y 0, y 1, eq_ix2 y⟩
  have ht : t.val < 32 := lt_of_lt_of_eq t.isLt N_0
  have hp : p.val < 2048 := p.isLt
  have hr : 2048 * t.val + p.val < 65536 := by omega
  show k0_pay2 (iblk0 V c 0 t) (iblk0 V c 1 t) (iblk0 V c 2 t) (iblk0 V c 3 t) (iblk0 V c 4 t) (iblk0 V c 5 t) (ix2 p q)
    = baseArr V c (((cfg0.win 7).blk t).view.emb (ix2 p q))
  refine (tile_base (V c main_arg0) (V c main_arg5) (V c main_v11) (V c main_v10) (V c main_v2) (V c main_v12)
    (iblk0 V c 0 t) (iblk0 V c 1 t) (iblk0 V c 2 t) (iblk0 V c 3 t) (iblk0 V c 4 t) (iblk0 V c 5 t) p q
    ⟨2048 * t.val + p.val, hr⟩ (fun k => af_blk V c t p k _ rfl) (fun k => wi_blk V c t k q) (bi_blk V c t q)
    (fun k => nbs_blk V c t p k _ rfl) (fun k => whb_blk V c t k q) (bh_blk V c t q)).trans ?_
  show Cert.Spec.base _ _ _ _ _ _ _ _ = Cert.Spec.base _ _ _ _ _ _ _ _
  congr 1 <;> apply Fin.ext
  · show 2048 * t.val + p.val = win0_7.index t (0 : Fin 2) * 2048 + 1 * p.val; omega
  · show q.val = win0_7.index t (1 : Fin 2) * 256 + 1 * q.val; omega

theorem mem_blk_msg (t : Fin cfg0.N) (i : S65536x256.Idx) :
    i ∈ ((cfg0.win 6).blk t).view.set ↔ ∀ a : Fin 2, win0_6.index t a * S2048x256.size a ≤ (i a).val ∧ (i a).val < win0_6.index t a * S2048x256.size a + S2048x256.size a := by
  show i ∈ ((View.whole main_v13_0).slice (win0_6.rect t)).set ↔ _
  rw [View.set_slice_whole, Rect.mem_set_unit]
  exact Iff.rfl

theorem mem_blk_base (t : Fin cfg0.N) (i : S65536x256.Idx) :
    i ∈ ((cfg0.win 7).blk t).view.set ↔ ∀ a : Fin 2, win0_7.index t a * S2048x256.size a ≤ (i a).val ∧ (i a).val < win0_7.index t a * S2048x256.size a + S2048x256.size a := by
  show i ∈ ((View.whole main_v13_1).slice (win0_7.rect t)).set ↔ _
  rw [View.set_slice_whole, Rect.mem_set_unit]
  exact Iff.rfl

theorem cover_msg (i : S65536x256.Idx) : ∃ t : Fin cfg0.N, (cfg0.win 6).flush t = true ∧ i ∈ ((cfg0.win 6).blk t).view.set := by
  have hi0 : (i 0).val < 65536 := (i 0).isLt
  have hi1 : (i 1).val < 256 := (i 1).isLt
  obtain ⟨t, ht⟩ : ∃ t : Fin cfg0.N, t.val = (i 0).val / 2048 := ⟨⟨(i 0).val / 2048, by rw [show cfg0.N = 32 from N_0]; omega⟩, rfl⟩
  obtain ⟨-, -, -, -, -, -, -, -, -, -, -, -, e0, e1, -⟩ := idx_facts t
  refine ⟨t, flush0_6 t, ?_⟩
  rw [mem_blk_msg]
  intro a
  match a with
  | ⟨0, _⟩ => show win0_6.index t (0 : Fin 2) * 2048 ≤ (i 0).val ∧ (i 0).val < win0_6.index t (0 : Fin 2) * 2048 + 2048; omega
  | ⟨1, _⟩ => show win0_6.index t (1 : Fin 2) * 256 ≤ (i 1).val ∧ (i 1).val < win0_6.index t (1 : Fin 2) * 256 + 256; omega

theorem cover_base (i : S65536x256.Idx) : ∃ t : Fin cfg0.N, (cfg0.win 7).flush t = true ∧ i ∈ ((cfg0.win 7).blk t).view.set := by
  have hi0 : (i 0).val < 65536 := (i 0).isLt
  have hi1 : (i 1).val < 256 := (i 1).isLt
  obtain ⟨t, ht⟩ : ∃ t : Fin cfg0.N, t.val = (i 0).val / 2048 := ⟨⟨(i 0).val / 2048, by rw [show cfg0.N = 32 from N_0]; omega⟩, rfl⟩
  obtain ⟨-, -, -, -, -, -, -, -, -, -, -, -, -, -, e0, e1⟩ := idx_facts t
  refine ⟨t, flush0_7 t, ?_⟩
  rw [mem_blk_base]
  intro a
  match a with
  | ⟨0, _⟩ => show win0_7.index t (0 : Fin 2) * 2048 ≤ (i 0).val ∧ (i 0).val < win0_7.index t (0 : Fin 2) * 2048 + 2048; omega
  | ⟨1, _⟩ => show win0_7.index t (1 : Fin 2) * 256 ≤ (i 1).val ∧ (i 1).val < win0_7.index t (1 : Fin 2) * 256 + 256; omega

end R0

open R0

variable (V : (c : Dev nD) → (b : Ref sig .tc) → Buf (Elt Ideal) ((c : Thread nD τ).loc b))

theorem final0_6 (c : Dev nD) (r : Fin 65536) (j : Fin 256) :
    ((dat0 (F := Ideal) V c).arrAt 6 cfg0.N : S65536x256.Idx → EReal) (ix2 r j)
      = Cert.Spec.msg0 (V c main_arg0 : S65536x133.Idx → EReal) (V c main_arg5 : S133x256.Idx → EReal)
          (V c main_v11 : S1x256.Idx → EReal) r j :=
  congrFun ((dat0 (F := Ideal) V c).arrAt_eq_of_cover 6 (msgArr V c) (fun t _ => flushed_msg V c t) cover_msg) (ix2 r j)

theorem final0_7 (c : Dev nD) (r : Fin 65536) (j : Fin 256) :
    ((dat0 (F := Ideal) V c).arrAt 7 cfg0.N : S65536x256.Idx → EReal) (ix2 r j)
      = Cert.Spec.base (V c main_arg0 : S65536x133.Idx → EReal) (V c main_arg5 : S133x256.Idx → EReal)
          (V c main_v11 : S1x256.Idx → EReal) (V c main_v10 : S65536x14.Idx → EReal) (V c main_v2 : S14x256.Idx → EReal)
          (V c main_v12 : S1x256.Idx → EReal) r j :=
  congrFun ((dat0 (F := Ideal) V c).arrAt_eq_of_cover 7 (baseArr V c) (fun t _ => flushed_base V c t) cover_base) (ix2 r j)

end Cert.KernelIdeal.Val

end
-- ==== Proof.ValR1.lean ====
import proofs.«431103_j25254407701135_3_alg».proof.Proof.FrR1
import proofs.«431103_j25254407701135_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open scoped BigOperators

variable (V : (c : Dev nD) → (b : Ref sig .tc) → Buf (Elt Ideal) ((c : Thread nD τ).loc b))

private theorem lhs_dotStep_row (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
private theorem lhs_dotStep_col (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
private theorem rhs_dotStep_row (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
private theorem rhs_dotStep_col (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

set_option maxHeartbeats 400000 in

private theorem matmulStep_apply (a : FVec Ideal S2048x256 .bf16) (b : FVec Ideal S256x256 .bf16) (p : Fin 2048) (q : Fin 256) :
    (matmul dot_S2048x256_S256x256_S2048x256_1_0_0_1_n_n none a b (constant S2048x256 .f32 0x00000000#32) : FVec Ideal S2048x256 .f32) (ix2 p q)
      = ∑ k : Fin 256, a (ix2 p k) * b (ix2 k q) := by
  simp only [matmul]
  rw [Ideal.matmul_constant_zero_apply, ← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p q) ((contrEquiv1 dot_S2048x256_S256x256_S2048x256_1_0_0_1_n_n 256 rfl rfl).symm k) = ix2 p k := funext fun a => Fin.ext (by
    match a with
    | ⟨0, _⟩ => exact lhs_dotStep_row _ _
    | ⟨1, _⟩ => exact (lhs_dotStep_col _ _).trans hk)
  have er : dot_S2048x256_S256x256_S2048x256_1_0_0_1_n_n.rhsIdx (ix2 p q) ((contrEquiv1 dot_S2048x256_S256x256_S2048x256_1_0_0_1_n_n 256 rfl rfl).symm k) = ix2 k q := funext fun a => Fin.ext (by
    match a with
    | ⟨0, _⟩ => exact (rhs_dotStep_row _ _).trans hk
    | ⟨1, _⟩ => exact rhs_dotStep_col _ _)
  rw [el, er]

set_option maxHeartbeats 400000 in

theorem k1_pay_apply (x0 : Vec Ideal S2048x256 .bf16) (x2 : Vec Ideal S256x256 .f32) (x1 : Vec Ideal S2048x256 .f32)
    (p : Fin 2048) (q : Fin 256) :
    (k1_pay1 x0 x2 x1 : S2048x256.Idx → EReal) (ix2 p q)
      = max (x1 (ix2 p q) + ∑ k : Fin 256, x0 (ix2 p k) * x2 (ix2 k q)) 0 := by
  unfold k1_pay1
  simp only [shapeCast_self]
  rw [truncf_apply, maximumf_apply, addf_apply, matmulStep_apply, broadcast_apply]
  simp only [truncf_apply]
  show max _ (Ideal.ofBits .f32 0x00000000#32) = _
  rw [Ideal.ofBits_zero_f32]

private theorem hz : (![0, 0] : Fin 2 → Nat) = fun _ => 0 := funext fun a => by fin_cases a <;> rfl

set_option maxHeartbeats 400000 in

theorem out1_apply (x0 : Vec Ideal S2048x256 .bf16) (x1 : Vec Ideal S2048x256 .f32) (x2 : Vec Ideal S256x256 .f32)
    (p : Fin 2048) (q : Fin 256) :
    (out1_3 x0 x1 x2 : S2048x256.Idx → EReal) (ix2 p q)
      = max (x1 (ix2 p q) + ∑ k : Fin 256, x0 (ix2 p k) * x2 (ix2 k q)) 0 := by
  unfold out1_3
  rw [View.canon_unit_zero hz]
  simp only [View.ld_unit_zero (S := S2048x256) hz, View.ld_unit_zero (S := S256x256) hz]
  exact k1_pay_apply x0 x2 x1 p q

theorem tile1_idx : ∀ t : Fin cfg1.N,
    (cfg1.win 0).index t (0 : Fin 2) = t.val ∧ (cfg1.win 0).index t (1 : Fin 2) = 0
    ∧ (cfg1.win 1).index t (0 : Fin 2) = t.val ∧ (cfg1.win 1).index t (1 : Fin 2) = 0
    ∧ (cfg1.win 2).index t (0 : Fin 2) = 0 ∧ (cfg1.win 2).index t (1 : Fin 2) = 0
    ∧ (cfg1.win 3).index t (0 : Fin 2) = t.val ∧ (cfg1.win 3).index t (1 : Fin 2) = 0
    ∧ (cfg1.win 3).flush t = true :=
  (by decide +kernel : ∀ t : Fin grid1.N, _)

set_option maxHeartbeats 400000 in

theorem blockRead1_a (c : Dev nD) (t : Fin cfg1.N) (y : S2048x256.Idx) (i : S65536x256.Idx)
    (h0 : (i 0).val = 2048 * t.val + (y 0).val) (h1 : (i 1).val = (y 1).val) :
    (iblk1 V c 0 t : S2048x256.Idx → EReal) y = (V c main_v23 : S65536x256.Idx → EReal) i := by
  obtain ⟨e0, e1, -⟩ := tile1_idx t
  unfold iblk1
  rw [View.read_apply]
  show V c main_v23 _ = V c main_v23 _
  congr 1
  funext a
  apply Fin.ext
  match a with
  | ⟨0, _⟩ => show (cfg1.win 0).index t (0 : Fin 2) * 2048 + 1 * (y 0).val = (i 0).val; rw [e0, h0]; omega
  | ⟨1, _⟩ => show (cfg1.win 0).index t (1 : Fin 2) * 256 + 1 * (y 1).val = (i 1).val; rw [e1, h1]; omega

set_option maxHeartbeats 400000 in

theorem blockRead1_b (c : Dev nD) (t : Fin cfg1.N) (y : S2048x256.Idx) (i : S65536x256.Idx)
    (h0 : (i 0).val = 2048 * t.val + (y 0).val) (h1 : (i 1).val = (y 1).val) :
    (iblk1 V c 1 t : S2048x256.Idx → EReal) y = (V c main_v13_1 : S65536x256.Idx → EReal) i := by
  obtain ⟨-, -, e0, e1, -⟩ := tile1_idx t
  unfold iblk1
  rw [View.read_apply]
  show V c main_v13_1 _ = V c main_v13_1 _
  congr 1
  funext a
  apply Fin.ext
  match a with
  | ⟨0, _⟩ => show (cfg1.win 1).index t (0 : Fin 2) * 2048 + 1 * (y 0).val = (i 0).val; rw [e0, h0]; omega
  | ⟨1, _⟩ => show (cfg1.win 1).index t (1 : Fin 2) * 256 + 1 * (y 1).val = (i 1).val; rw [e1, h1]; omega

set_option maxHeartbeats 400000 in

theorem blockRead1_w (c : Dev nD) (t : Fin cfg1.N) (y : S256x256.Idx) :
    (iblk1 V c 2 t : S256x256.Idx → EReal) y = (V c main_v1 : S256x256.Idx → EReal) y := by
  obtain ⟨-, -, -, -, e0, e1, -⟩ := tile1_idx t
  unfold iblk1
  rw [View.read_apply]
  show V c main_v1 _ = V c main_v1 _
  congr 1
  funext a
  apply Fin.ext
  match a with
  | ⟨0, _⟩ => show (cfg1.win 2).index t (0 : Fin 2) * 256 + 1 * (y 0).val = (y 0).val; rw [e0]; omega
  | ⟨1, _⟩ => show (cfg1.win 2).index t (1 : Fin 2) * 256 + 1 * (y 1).val = (y 1).val; rw [e1]; omega

def val1 (c : Dev nD) : S65536x256.Idx → EReal := fun i =>
  Cert.Spec.step (V c main_v23 : S65536x256.Idx → EReal) (V c main_v13_1 : S65536x256.Idx → EReal)
    (V c main_v1 : S256x256.Idx → EReal) (i 0) (i 1)

set_option maxHeartbeats 400000 in

theorem flushed1_eq (c : Dev nD) (t : Fin cfg1.N) :
    (dat1 (F := Ideal) V c).flushed 3 t = ((cfg1.win 3).blk t).view.read (Elt Ideal) (val1 V c) := by
  show (cfg1.win 3).cut (grid1.coords t) ((dat1 V c).after 3 t) = _
  rw [after1_3]
  obtain ⟨-, -, -, -, -, -, e0, e1, -⟩ := tile1_idx t
  funext y
  obtain ⟨p, q, rfl⟩ : ∃ (p : Fin 2048) (q : Fin 256), y = ix2 p q := ⟨y 0, y 1, eq_ix2 y⟩
  rw [View.read_apply]
  generalize hi : ((cfg1.win 3).blk t).view.emb (ix2 p q) = i
  have hi0 : (i 0).val = 2048 * t.val + p.val := by
    rw [← hi]
    show (cfg1.win 3).index t (0 : Fin 2) * 2048 + 1 * p.val = _
    rw [e0]; omega
  have hi1 : (i 1).val = q.val := by
    rw [← hi]
    show (cfg1.win 3).index t (1 : Fin 2) * 256 + 1 * q.val = _
    rw [e1]; omega
  show (out1_3 (iblk1 V c 0 t) (iblk1 V c 1 t) (iblk1 V c 2 t) : S2048x256.Idx → EReal) (ix2 p q) = val1 V c i
  rw [out1_apply]
  unfold val1 Cert.Spec.step Cert.Spec.rowDot
  rw [blockRead1_b V c t (ix2 p q) (ix2 (i 0) (i 1)) hi0 hi1]
  congr 2
  refine Finset.sum_congr rfl fun k _ => ?_
  rw [blockRead1_a V c t (ix2 p k) (ix2 (i 0) k) hi0 rfl, blockRead1_w V c t (ix2 k q)]
  congr 2
  exact congrArg (ix2 k) (Fin.ext hi1.symm)

theorem tile1_mem (t : Fin cfg1.N) (i : S65536x256.Idx) :
    i ∈ ((cfg1.win 3).blk t).view.set ↔ ∀ a : Fin 2, (cfg1.win 3).index t a * S2048x256.size a ≤ (i a).val ∧ (i a).val < (cfg1.win 3).index t a * S2048x256.size a + S2048x256.size a := by
  show i ∈ ((View.whole main_v24).slice ((cfg1.win 3).rect t)).set ↔ _
  rw [View.set_slice_whole, Rect.mem_set_unit]
  exact Iff.rfl

theorem cover1 (i : S65536x256.Idx) :
    ∃ t : Fin cfg1.N, (cfg1.win 3).flush t = true ∧ i ∈ ((cfg1.win 3).blk t).view.set := by
  have hi0 : (i 0).val < 65536 := idx2_lt0 i
  have hi1 : (i 1).val < 256 := idx2_lt1 i
  have hN : cfg1.N = 32 := N_1
  obtain ⟨-, -, -, -, -, -, e0, e1, ef⟩ := tile1_idx ⟨(i 0).val / 2048, by rw [hN]; omega⟩
  refine ⟨⟨(i 0).val / 2048, by rw [hN]; omega⟩, ef, ?_⟩
  rw [tile1_mem]
  intro a
  match a with
  | ⟨0, _⟩ =>
    show (cfg1.win 3).index _ (0 : Fin 2) * 2048 ≤ (i 0).val ∧ (i 0).val < (cfg1.win 3).index _ (0 : Fin 2) * 2048 + 2048
    rw [e0]; show (i 0).val / 2048 * 2048 ≤ (i 0).val ∧ (i 0).val < (i 0).val / 2048 * 2048 + 2048; omega
  | ⟨1, _⟩ =>
    show (cfg1.win 3).index _ (1 : Fin 2) * 256 ≤ (i 1).val ∧ (i 1).val < (cfg1.win 3).index _ (1 : Fin 2) * 256 + 256
    rw [e1]; omega

theorem arr1_eq (c : Dev nD) : (dat1 (F := Ideal) V c).arrAt 3 cfg1.N = val1 V c :=
  (dat1 V c).arrAt_eq_of_cover 3 (val1 V c) (fun t _ => flushed1_eq V c t) cover1

theorem final1 (c : Dev nD) (r : Fin 65536) (j : Fin 256) :
    ((dat1 (F := Ideal) V c).arrAt 3 cfg1.N : S65536x256.Idx → EReal) (ix2 r j)
      = Cert.Spec.step (V c main_v23 : S65536x256.Idx → EReal) (V c main_v13_1 : S65536x256.Idx → EReal)
          (V c main_v1 : S256x256.Idx → EReal) r j := by
  rw [arr1_eq]
  rfl

end Cert.KernelIdeal.Val

end
-- ==== Proof.ValR2.lean ====
import proofs.«431103_j25254407701135_3_alg».proof.Proof.FrR2
import proofs.«431103_j25254407701135_3_alg».proof.Proof.ValR1
import proofs.«431103_j25254407701135_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open scoped BigOperators

variable (V : (c : Dev nD) → (b : Ref sig .tc) → Buf (Elt Ideal) ((c : Thread nD τ).loc b))

theorem tile2_idx : ∀ t : Fin cfg2.N,
    (cfg2.win 0).index t (0 : Fin 2) = t.val ∧ (cfg2.win 0).index t (1 : Fin 2) = 0
    ∧ (cfg2.win 1).index t (0 : Fin 2) = t.val ∧ (cfg2.win 1).index t (1 : Fin 2) = 0
    ∧ (cfg2.win 2).index t (0 : Fin 2) = 0 ∧ (cfg2.win 2).index t (1 : Fin 2) = 0
    ∧ (cfg2.win 3).index t (0 : Fin 2) = t.val ∧ (cfg2.win 3).index t (1 : Fin 2) = 0
    ∧ (cfg2.win 3).flush t = true :=
  (by decide +kernel : ∀ t : Fin grid2.N, _)

set_option maxHeartbeats 400000 in

theorem blockRead2_a (c : Dev nD) (t : Fin cfg2.N) (y : S2048x256.Idx) (i : S65536x256.Idx)
    (h0 : (i 0).val = 2048 * t.val + (y 0).val) (h1 : (i 1).val = (y 1).val) :
    (iblk2 V c 0 t : S2048x256.Idx → EReal) y = (V c main_v34 : S65536x256.Idx → EReal) i := by
  obtain ⟨e0, e1, -⟩ := tile2_idx t
  unfold iblk2
  rw [View.read_apply]
  show V c main_v34 _ = V c main_v34 _
  congr 1
  funext a
  apply Fin.ext
  match a with
  | ⟨0, _⟩ => show (cfg2.win 0).index t (0 : Fin 2) * 2048 + 1 * (y 0).val = (i 0).val; rw [e0, h0]; omega
  | ⟨1, _⟩ => show (cfg2.win 0).index t (1 : Fin 2) * 256 + 1 * (y 1).val = (i 1).val; rw [e1, h1]; omega

set_option maxHeartbeats 400000 in

theorem blockRead2_b (c : Dev nD) (t : Fin cfg2.N) (y : S2048x256.Idx) (i : S65536x256.Idx)
    (h0 : (i 0).val = 2048 * t.val + (y 0).val) (h1 : (i 1).val = (y 1).val) :
    (iblk2 V c 1 t : S2048x256.Idx → EReal) y = (V c main_v13_1 : S65536x256.Idx → EReal) i := by
  obtain ⟨-, -, e0, e1, -⟩ := tile2_idx t
  unfold iblk2
  rw [View.read_apply]
  show V c main_v13_1 _ = V c main_v13_1 _
  congr 1
  funext a
  apply Fin.ext
  match a with
  | ⟨0, _⟩ => show (cfg2.win 1).index t (0 : Fin 2) * 2048 + 1 * (y 0).val = (i 0).val; rw [e0, h0]; omega
  | ⟨1, _⟩ => show (cfg2.win 1).index t (1 : Fin 2) * 256 + 1 * (y 1).val = (i 1).val; rw [e1, h1]; omega

set_option maxHeartbeats 400000 in

theorem blockRead2_w (c : Dev nD) (t : Fin cfg2.N) (y : S256x256.Idx) :
    (iblk2 V c 2 t : S256x256.Idx → EReal) y = (V c main_v1 : S256x256.Idx → EReal) y := by
  obtain ⟨-, -, -, -, e0, e1, -⟩ := tile2_idx t
  unfold iblk2
  rw [View.read_apply]
  show V c main_v1 _ = V c main_v1 _
  congr 1
  funext a
  apply Fin.ext
  match a with
  | ⟨0, _⟩ => show (cfg2.win 2).index t (0 : Fin 2) * 256 + 1 * (y 0).val = (y 0).val; rw [e0]; omega
  | ⟨1, _⟩ => show (cfg2.win 2).index t (1 : Fin 2) * 256 + 1 * (y 1).val = (y 1).val; rw [e1]; omega

def val2 (c : Dev nD) : S65536x256.Idx → EReal := fun i =>
  Cert.Spec.step (V c main_v34 : S65536x256.Idx → EReal) (V c main_v13_1 : S65536x256.Idx → EReal)
    (V c main_v1 : S256x256.Idx → EReal) (i 0) (i 1)

set_option maxHeartbeats 400000 in

theorem flushed2_eq (c : Dev nD) (t : Fin cfg2.N) :
    (dat2 (F := Ideal) V c).flushed 3 t = ((cfg2.win 3).blk t).view.read (Elt Ideal) (val2 V c) := by
  show (cfg2.win 3).cut (grid2.coords t) ((dat2 V c).after 3 t) = _
  rw [after2_3]
  obtain ⟨-, -, -, -, -, -, e0, e1, -⟩ := tile2_idx t
  funext y
  obtain ⟨p, q, rfl⟩ : ∃ (p : Fin 2048) (q : Fin 256), y = ix2 p q := ⟨y 0, y 1, eq_ix2 y⟩
  rw [View.read_apply]
  generalize hi : ((cfg2.win 3).blk t).view.emb (ix2 p q) = i
  have hi0 : (i 0).val = 2048 * t.val + p.val := by
    rw [← hi]
    show (cfg2.win 3).index t (0 : Fin 2) * 2048 + 1 * p.val = _
    rw [e0]; omega
  have hi1 : (i 1).val = q.val := by
    rw [← hi]
    show (cfg2.win 3).index t (1 : Fin 2) * 256 + 1 * q.val = _
    rw [e1]; omega
  show (out1_3 (iblk2 V c 0 t) (iblk2 V c 1 t) (iblk2 V c 2 t) : S2048x256.Idx → EReal) (ix2 p q) = val2 V c i
  rw [out1_apply]
  unfold val2 Cert.Spec.step Cert.Spec.rowDot
  rw [blockRead2_b V c t (ix2 p q) (ix2 (i 0) (i 1)) hi0 hi1]
  congr 2
  refine Finset.sum_congr rfl fun k _ => ?_
  rw [blockRead2_a V c t (ix2 p k) (ix2 (i 0) k) hi0 rfl, blockRead2_w V c t (ix2 k q)]
  congr 2
  exact congrArg (ix2 k) (Fin.ext hi1.symm)

theorem tile2_mem (t : Fin cfg2.N) (i : S65536x256.Idx) :
    i ∈ ((cfg2.win 3).blk t).view.set ↔ ∀ a : Fin 2, (cfg2.win 3).index t a * S2048x256.size a ≤ (i a).val ∧ (i a).val < (cfg2.win 3).index t a * S2048x256.size a + S2048x256.size a := by
  show i ∈ ((View.whole main_v35).slice ((cfg2.win 3).rect t)).set ↔ _
  rw [View.set_slice_whole, Rect.mem_set_unit]
  exact Iff.rfl

theorem cover2 (i : S65536x256.Idx) :
    ∃ t : Fin cfg2.N, (cfg2.win 3).flush t = true ∧ i ∈ ((cfg2.win 3).blk t).view.set := by
  have hi0 : (i 0).val < 65536 := idx2_lt0 i
  have hi1 : (i 1).val < 256 := idx2_lt1 i
  have hN : cfg2.N = 32 := N_2
  obtain ⟨-, -, -, -, -, -, e0, e1, ef⟩ := tile2_idx ⟨(i 0).val / 2048, by rw [hN]; omega⟩
  refine ⟨⟨(i 0).val / 2048, by rw [hN]; omega⟩, ef, ?_⟩
  rw [tile2_mem]
  intro a
  match a with
  | ⟨0, _⟩ =>
    show (cfg2.win 3).index _ (0 : Fin 2) * 2048 ≤ (i 0).val ∧ (i 0).val < (cfg2.win 3).index _ (0 : Fin 2) * 2048 + 2048
    rw [e0]; show (i 0).val / 2048 * 2048 ≤ (i 0).val ∧ (i 0).val < (i 0).val / 2048 * 2048 + 2048; omega
  | ⟨1, _⟩ =>
    show (cfg2.win 3).index _ (1 : Fin 2) * 256 ≤ (i 1).val ∧ (i 1).val < (cfg2.win 3).index _ (1 : Fin 2) * 256 + 256
    rw [e1]; omega

theorem arr2_eq (c : Dev nD) : (dat2 (F := Ideal) V c).arrAt 3 cfg2.N = val2 V c :=
  (dat2 V c).arrAt_eq_of_cover 3 (val2 V c) (fun t _ => flushed2_eq V c t) cover2

theorem final2 (c : Dev nD) (r : Fin 65536) (j : Fin 256) :
    ((dat2 (F := Ideal) V c).arrAt 3 cfg2.N : S65536x256.Idx → EReal) (ix2 r j)
      = Cert.Spec.step (V c main_v34 : S65536x256.Idx → EReal) (V c main_v13_1 : S65536x256.Idx → EReal)
          (V c main_v1 : S256x256.Idx → EReal) r j := by
  rw [arr2_eq]
  rfl

end Cert.KernelIdeal.Val

end
-- ==== Proof.Algebra.lean ====
import Idealize.ShloMosaic.PureOps.Ideal.Laws
import Idealize.ShloMosaic.Lib.ValueIdx
import Mathlib.Algebra.BigOperators.Fin
import Mathlib.Data.Fintype.BigOperators
import Mathlib.Logic.Equiv.Fin.Basic
import Mathlib.Data.EReal.Basic

open scoped BigOperators

namespace Cert.Alg

open Idealize.ShloMosaic

theorem sum_split {M : Type*} [AddCommMonoid M] (m n : ℕ) (f : Fin (m + n) → M) :
    ∑ k, f k = (∑ k : Fin m, f ⟨k.val, by omega⟩) + ∑ b : Fin n, f ⟨m + b.val, by omega⟩ :=
  Fin.sum_univ_add f

theorem sum_halves (f : Fin 65536 → EReal) :
    ∑ e, f e = (∑ p : Fin 32768, f ⟨p.val, by omega⟩) + ∑ p : Fin 32768, f ⟨32768 + p.val, by omega⟩ :=
  sum_split 32768 32768 f

theorem sum_tiles_gen {M : Type*} [AddCommMonoid M] (m n : ℕ) (f : Fin (m * n) → M)
    (hb : ∀ (jj : Fin m) (t : Fin n), jj.val * n + t.val < m * n) :
    ∑ p, f p = ∑ jj : Fin m, ∑ t : Fin n, f ⟨jj.val * n + t.val, hb jj t⟩ := by
  rw [← (finProdFinEquiv (m := m) (n := n)).sum_comp f, Fintype.sum_prod_type]
  refine Finset.sum_congr rfl fun jj _ => Finset.sum_congr rfl fun t _ => ?_
  congr 1
  apply Fin.ext
  simp only [finProdFinEquiv_apply_val]
  rw [Nat.add_comm, Nat.mul_comm]

theorem sum_tiles (f : Fin 32768 → EReal) :
    ∑ p, f p = ∑ jj : Fin 128, ∑ t : Fin 256, f ⟨jj.val * 256 + t.val, by omega⟩ :=
  sum_tiles_gen 128 256 f (fun jj t => by omega)

theorem add_rearrange (i a b h : EReal) : i + ((a + b) + h) = (i + (b + h)) + a := by
  simp only [add_comm, add_assoc, add_left_comm]

theorem toInt_eq_iff (x : BitVec 32) (s : Fin 2048) : x.toInt = (s.val : ℤ) ↔ x = BitVec.ofNat 32 s.val := by
  have hs := s.isLt
  have h1 : (BitVec.ofNat 32 s.val).toInt = (s.val : ℤ) := by
    have h2 : (BitVec.ofNat 32 s.val).toNat = s.val := by
      rw [BitVec.toNat_ofNat]; omega
    rw [BitVec.toInt_eq_toNat_of_lt (by rw [h2]; omega), h2]
  rw [← h1, BitVec.toInt_inj]

theorem filter_sum_eq_ite_mul {N : ℕ} (idx : Fin N → BitVec 32) (s : Fin 2048) (f : Fin N → EReal) :
    ∑ e ∈ Finset.univ.filter (fun e => (idx e).toInt = (s.val : ℤ)), f e
      = ∑ e, (if idx e = BitVec.ofNat 32 s.val then (1 : EReal) else 0) * f e := by
  rw [Finset.sum_filter]
  refine Finset.sum_congr rfl fun e _ => ?_
  by_cases h : idx e = BitVec.ofNat 32 s.val
  · rw [if_pos h, if_pos ((toInt_eq_iff _ _).2 h), one_mul]
  · rw [if_neg h, if_neg (mt (toInt_eq_iff _ _).1 h), zero_mul]

theorem div_eq_mul_one_div (x y : EReal) (hy : y ≠ 0) : Ideal.div x y = x * Ideal.div 1 y := by
  unfold Ideal.div
  rw [if_neg hy, if_neg hy, one_mul]

theorem max_one_ne_zero (c : EReal) : max c 1 ≠ 0 := by
  intro h
  have h1 : (1 : EReal) ≤ max c 1 := le_max_right _ _
  rw [h] at h1
  exact absurd h1 (not_le.2 zero_lt_one)

private theorem acc_congr (acc : (n : ℕ) → n < 256 → EReal) {n n' : ℕ} (e : n = n') (h : n < 256) (h' : n' < 256) :
    acc n h = acc n' h' := by
  subst e; rfl

theorem fold_tiles_upto (a : Fin 256 → EReal) (acc : (n : ℕ) → n < 256 → EReal)
    (hacc : ∀ n (h : n < 256), acc n h = (if n % 128 = 0 then 0 else acc (n - 1) (by omega)) + a ⟨n, h⟩)
    (half : ℕ) (hh : half < 2) : ∀ m (hm : m < 128),
    acc (half * 128 + m) (by omega) = ∑ jj : Fin (m + 1), a ⟨half * 128 + jj.val, by omega⟩ := by
  intro m
  induction m with
  | zero =>
    intro hm
    rw [hacc, if_pos (by omega), zero_add, Fin.sum_univ_one]
    rfl
  | succ m ih =>
    intro hm
    rw [hacc, if_neg (by omega), Fin.sum_univ_castSucc]
    congr 1
    exact (acc_congr acc (by omega) _ _).trans (ih (by omega))

theorem fold_tiles (a : Fin 256 → EReal) (acc : (n : ℕ) → n < 256 → EReal)
    (hacc : ∀ n (h : n < 256), acc n h = (if n % 128 = 0 then 0 else acc (n - 1) (by omega)) + a ⟨n, h⟩)
    (half : ℕ) (hh : half < 2) :
    acc (half * 128 + 127) (by omega) = ∑ jj : Fin 128, a ⟨half * 128 + jj.val, by omega⟩ :=
  fold_tiles_upto a acc hacc half hh 127 (by omega)

end Cert.Alg
-- ==== Proof.ValR3Pay.lean ====
import proofs.«431103_j25254407701135_3_alg».proof.Proof.Gen.KernelIdeal.Skeleton
import proofs.«431103_j25254407701135_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.ShloMosaic.ValueIdx
open scoped BigOperators

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem pay3_apply (s : Fin 2048) (j : Fin 256) : (k3_pay3 (F := Ideal) : S2048x256.Idx → EReal) (ix2 s j) = 0 := by
  unfold k3_pay3
  rw [shapeCast_self]
  exact Ideal.ofBits_zero_f32

theorem pay1_apply (v : Vec Ideal S2048x256 .f32) (s : Fin 2048) (j : Fin 256) :
    (k3_pay1 (F := Ideal) v : S2048x256.Idx → EReal) (ix2 s j) = v (ix2 s j) := by
  unfold k3_pay1
  rw [shapeCast_self]

theorem pay2_apply (v : Vec Ideal S2048x256 .f32) (s : Fin 2048) (j : Fin 256) :
    (k3_pay2 (F := Ideal) v : S1x2048x256.Idx → EReal) (ix3 (0 : Fin 1) s j) = v (ix2 s j) := by
  unfold k3_pay2
  exact shapeCast_ab_1ab_apply v _ (0 : Fin 1) s j

theorem lhs_mmA_0 (i : S256x256.Idx) (q : dot_S256x133_S133x256_S256x256_1_0_0_1_n_n.contr.Idx) :
    (dot_S256x133_S133x256_S256x256_1_0_0_1_n_n.lhsIdx i q 0).val = (i 0).val := by
  unfold DotDims.lhsIdx
  rw [dif_neg (show ¬(0 : Fin S256x133.rank) ∈ dot_S256x133_S133x256_S256x256_1_0_0_1_n_n.lhsBatch by decide), dif_pos (show (0 : Fin S256x133.rank) ∈ dot_S256x133_S133x256_S256x256_1_0_0_1_n_n.lhsNonContracting by decide)]
  rfl
theorem lhs_mmA_1 (i : S256x256.Idx) (q : dot_S256x133_S133x256_S256x256_1_0_0_1_n_n.contr.Idx) :
    (dot_S256x133_S133x256_S256x256_1_0_0_1_n_n.lhsIdx i q 1).val = (q ⟨0, by decide⟩).val :=
  dot_S256x133_S133x256_S256x256_1_0_0_1_n_n.lhsIdx_val_of_single rfl i q
theorem rhs_mmA_0 (i : S256x256.Idx) (q : dot_S256x133_S133x256_S256x256_1_0_0_1_n_n.contr.Idx) :
    (dot_S256x133_S133x256_S256x256_1_0_0_1_n_n.rhsIdx i q 0).val = (q ⟨0, by decide⟩).val :=
  dot_S256x133_S133x256_S256x256_1_0_0_1_n_n.rhsIdx_val_of_single rfl i q
theorem rhs_mmA_1 (i : S256x256.Idx) (q : dot_S256x133_S133x256_S256x256_1_0_0_1_n_n.contr.Idx) :
    (dot_S256x133_S133x256_S256x256_1_0_0_1_n_n.rhsIdx i q 1).val = (i 1).val := by
  unfold DotDims.rhsIdx
  rw [dif_neg (show ¬(1 : Fin S133x256.rank) ∈ dot_S256x133_S133x256_S256x256_1_0_0_1_n_n.rhsBatch by decide), dif_pos (show (1 : Fin S133x256.rank) ∈ dot_S256x133_S133x256_S256x256_1_0_0_1_n_n.rhsNonContracting by decide)]
  rfl

theorem mmA_apply {φ₁ φ₂ : FTy} (prec : Option ContractPrecision) (lhs : FVec Ideal S256x133 φ₁) (rhs : FVec Ideal S133x256 φ₂) (t : Fin 256) (j : Fin 256) :
    matmul dot_S256x133_S133x256_S256x256_1_0_0_1_n_n prec lhs rhs (constant (F := Ideal) S256x256 .f32 0x00000000#32) (ix2 t j)
      = ∑ k : Fin 133, lhs (ix2 t k) * rhs (ix2 k j) := by
  simp only [matmul]
  rw [Ideal.matmul_constant_zero_apply, ← Equiv.sum_comp (contrEquiv1 dot_S256x133_S133x256_S256x256_1_0_0_1_n_n 133 rfl rfl).symm]
  refine Finset.sum_congr rfl fun k _ => ?_
  have hk := contrEquiv1_symm_val dot_S256x133_S133x256_S256x256_1_0_0_1_n_n 133 rfl rfl k
  have el : dot_S256x133_S133x256_S256x256_1_0_0_1_n_n.lhsIdx (ix2 t j) ((contrEquiv1 dot_S256x133_S133x256_S256x256_1_0_0_1_n_n 133 rfl rfl).symm k) = ix2 t k := funext fun a => Fin.ext (by
    match a with
    | ⟨0, _⟩ => exact lhs_mmA_0 _ _
    | ⟨1, _⟩ => exact (lhs_mmA_1 _ _).trans hk)
  have er : dot_S256x133_S133x256_S256x256_1_0_0_1_n_n.rhsIdx (ix2 t j) ((contrEquiv1 dot_S256x133_S133x256_S256x256_1_0_0_1_n_n 133 rfl rfl).symm k) = ix2 k j := funext fun a => Fin.ext (by
    match a with
    | ⟨0, _⟩ => exact (rhs_mmA_0 _ _).trans hk
    | ⟨1, _⟩ => exact rhs_mmA_1 _ _)
  rw [el, er]

theorem lhs_mmB_0 (i : S256x256.Idx) (q : dot_S256x256_S256x256_S256x256_1_0_0_1_n_n.contr.Idx) :
    (dot_S256x256_S256x256_S256x256_1_0_0_1_n_n.lhsIdx i q 0).val = (i 0).val := by
  unfold DotDims.lhsIdx
  rw [dif_neg (show ¬(0 : Fin S256x256.rank) ∈ dot_S256x256_S256x256_S256x256_1_0_0_1_n_n.lhsBatch by decide), dif_pos (show (0 : Fin S256x256.rank) ∈ dot_S256x256_S256x256_S256x256_1_0_0_1_n_n.lhsNonContracting by decide)]
  rfl
theorem lhs_mmB_1 (i : S256x256.Idx) (q : dot_S256x256_S256x256_S256x256_1_0_0_1_n_n.contr.Idx) :
    (dot_S256x256_S256x256_S256x256_1_0_0_1_n_n.lhsIdx i q 1).val = (q ⟨0, by decide⟩).val :=
  dot_S256x256_S256x256_S256x256_1_0_0_1_n_n.lhsIdx_val_of_single rfl i q
theorem rhs_mmB_0 (i : S256x256.Idx) (q : dot_S256x256_S256x256_S256x256_1_0_0_1_n_n.contr.Idx) :
    (dot_S256x256_S256x256_S256x256_1_0_0_1_n_n.rhsIdx i q 0).val = (q ⟨0, by decide⟩).val :=
  dot_S256x256_S256x256_S256x256_1_0_0_1_n_n.rhsIdx_val_of_single rfl i q
theorem rhs_mmB_1 (i : S256x256.Idx) (q : dot_S256x256_S256x256_S256x256_1_0_0_1_n_n.contr.Idx) :
    (dot_S256x256_S256x256_S256x256_1_0_0_1_n_n.rhsIdx i q 1).val = (i 1).val := by
  unfold DotDims.rhsIdx
  rw [dif_neg (show ¬(1 : Fin S256x256.rank) ∈ dot_S256x256_S256x256_S256x256_1_0_0_1_n_n.rhsBatch by decide), dif_pos (show (1 : Fin S256x256.rank) ∈ dot_S256x256_S256x256_S256x256_1_0_0_1_n_n.rhsNonContracting by decide)]
  rfl

theorem mmB_apply {φ₁ φ₂ : FTy} (prec : Option ContractPrecision) (lhs : FVec Ideal S256x256 φ₁) (rhs : FVec Ideal S256x256 φ₂) (t : Fin 256) (j : Fin 256) :
    matmul dot_S256x256_S256x256_S256x256_1_0_0_1_n_n prec lhs rhs (constant (F := Ideal) S256x256 .f32 0x00000000#32) (ix2 t j)
      = ∑ k : Fin 256, lhs (ix2 t k) * rhs (ix2 k j) := by
  simp only [matmul]
  rw [Ideal.matmul_constant_zero_apply, ← Equiv.sum_comp (contrEquiv1 dot_S256x256_S256x256_S256x256_1_0_0_1_n_n 256 rfl rfl).symm]
  refine Finset.sum_congr rfl fun k _ => ?_
  have hk := contrEquiv1_symm_val dot_S256x256_S256x256_S256x256_1_0_0_1_n_n 256 rfl rfl k
  have el : dot_S256x256_S256x256_S256x256_1_0_0_1_n_n.lhsIdx (ix2 t j) ((contrEquiv1 dot_S256x256_S256x256_S256x256_1_0_0_1_n_n 256 rfl rfl).symm k) = ix2 t k := funext fun a => Fin.ext (by
    match a with
    | ⟨0, _⟩ => exact lhs_mmB_0 _ _
    | ⟨1, _⟩ => exact (lhs_mmB_1 _ _).trans hk)
  have er : dot_S256x256_S256x256_S256x256_1_0_0_1_n_n.rhsIdx (ix2 t j) ((contrEquiv1 dot_S256x256_S256x256_S256x256_1_0_0_1_n_n 256 rfl rfl).symm k) = ix2 k j := funext fun a => Fin.ext (by
    match a with
    | ⟨0, _⟩ => exact (rhs_mmB_0 _ _).trans hk
    | ⟨1, _⟩ => exact rhs_mmB_1 _ _)
  rw [el, er]

theorem lhs_mmP_0 (i : S2048x256.Idx) (q : dot_S256x2048_S256x256_S2048x256_0_0_1_1_n_n.contr.Idx) :
    (dot_S256x2048_S256x256_S2048x256_0_0_1_1_n_n.lhsIdx i q 0).val = (q ⟨0, by decide⟩).val :=
  dot_S256x2048_S256x256_S2048x256_0_0_1_1_n_n.lhsIdx_val_of_single rfl i q
theorem lhs_mmP_1 (i : S2048x256.Idx) (q : dot_S256x2048_S256x256_S2048x256_0_0_1_1_n_n.contr.Idx) :
    (dot_S256x2048_S256x256_S2048x256_0_0_1_1_n_n.lhsIdx i q 1).val = (i 0).val := by
  unfold DotDims.lhsIdx
  rw [dif_neg (show ¬(1 : Fin S256x2048.rank) ∈ dot_S256x2048_S256x256_S2048x256_0_0_1_1_n_n.lhsBatch by decide), dif_pos (show (1 : Fin S256x2048.rank) ∈ dot_S256x2048_S256x256_S2048x256_0_0_1_1_n_n.lhsNonContracting by decide)]
  rfl
theorem rhs_mmP_0 (i : S2048x256.Idx) (q : dot_S256x2048_S256x256_S2048x256_0_0_1_1_n_n.contr.Idx) :
    (dot_S256x2048_S256x256_S2048x256_0_0_1_1_n_n.rhsIdx i q 0).val = (q ⟨0, by decide⟩).val :=
  dot_S256x2048_S256x256_S2048x256_0_0_1_1_n_n.rhsIdx_val_of_single rfl i q
theorem rhs_mmP_1 (i : S2048x256.Idx) (q : dot_S256x2048_S256x256_S2048x256_0_0_1_1_n_n.contr.Idx) :
    (dot_S256x2048_S256x256_S2048x256_0_0_1_1_n_n.rhsIdx i q 1).val = (i 1).val := by
  unfold DotDims.rhsIdx
  rw [dif_neg (show ¬(1 : Fin S256x256.rank) ∈ dot_S256x2048_S256x256_S2048x256_0_0_1_1_n_n.rhsBatch by decide), dif_pos (show (1 : Fin S256x256.rank) ∈ dot_S256x2048_S256x256_S2048x256_0_0_1_1_n_n.rhsNonContracting by decide)]
  rfl

theorem mmP_apply {φ₁ φ₂ : FTy} (prec : Option ContractPrecision) (lhs : FVec Ideal S256x2048 φ₁) (rhs : FVec Ideal S256x256 φ₂) (s : Fin 2048) (j : Fin 256) :
    matmul dot_S256x2048_S256x256_S2048x256_0_0_1_1_n_n prec lhs rhs (constant (F := Ideal) S2048x256 .f32 0x00000000#32) (ix2 s j)
      = ∑ t : Fin 256, lhs (ix2 t s) * rhs (ix2 t j) := by
  simp only [matmul]
  rw [Ideal.matmul_constant_zero_apply, ← Equiv.sum_comp (contrEquiv1 dot_S256x2048_S256x256_S2048x256_0_0_1_1_n_n 256 rfl rfl).symm]
  refine Finset.sum_congr rfl fun k _ => ?_
  have hk := contrEquiv1_symm_val dot_S256x2048_S256x256_S2048x256_0_0_1_1_n_n 256 rfl rfl k
  have el : dot_S256x2048_S256x256_S2048x256_0_0_1_1_n_n.lhsIdx (ix2 s j) ((contrEquiv1 dot_S256x2048_S256x256_S2048x256_0_0_1_1_n_n 256 rfl rfl).symm k) = ix2 k s := funext fun a => Fin.ext (by
    match a with
    | ⟨0, _⟩ => exact (lhs_mmP_0 _ _).trans hk
    | ⟨1, _⟩ => exact lhs_mmP_1 _ _)
  have er : dot_S256x2048_S256x256_S2048x256_0_0_1_1_n_n.rhsIdx (ix2 s j) ((contrEquiv1 dot_S256x2048_S256x256_S2048x256_0_0_1_1_n_n 256 rfl rfl).symm k) = ix2 k j := funext fun a => Fin.ext (by
    match a with
    | ⟨0, _⟩ => exact (rhs_mmP_0 _ _).trans hk
    | ⟨1, _⟩ => exact rhs_mmP_1 _ _)
  rw [el, er]

theorem cmpi_apply {sh : Shape} {w : ℕ} (p : CmpIPredicate) (a b : IVec sh w) (i : sh.Idx) : cmpi p a b i = IntOp.cmpi p (a i) (b i) := rfl

theorem onehot_entry (x : BitVec 32) (s : Fin 2048) :
    (FloatOps.sitofp (F := Ideal) .f32 ((IntOp.cmpi .eq x (BitVec.ofNat 32 s.val)).setWidth 32) : EReal) = Cert.Spec.oneHot x s := by
  unfold Cert.Spec.oneHot
  by_cases h : x = BitVec.ofNat 32 s.val
  · have hc : IntOp.cmpi .eq x (BitVec.ofNat 32 s.val) = 1#1 := by simp [IntOp.cmpi, h]
    rw [if_pos h, hc]
    show (((((1#1 : BitVec 1).setWidth 32).toInt : ℤ) : ℝ) : EReal) = 1
    have : ((1#1 : BitVec 1).setWidth 32).toInt = 1 := by decide
    rw [this]; norm_num
  · have hb : (x == BitVec.ofNat 32 s.val) = false := beq_eq_false_iff_ne.2 h
    have hc : IntOp.cmpi .eq x (BitVec.ofNat 32 s.val) = 0#1 := by
      unfold IntOp.cmpi; rw [hb]; rfl
    rw [if_neg h, hc]
    show (((((0#1 : BitVec 1).setWidth 32).toInt : ℤ) : ℝ) : EReal) = 0
    have : ((0#1 : BitVec 1).setWidth 32).toInt = 0 := by decide
    rw [this]; norm_num

set_option maxHeartbeats 400000 in
theorem pay4_apply (v3 : Vec Ideal S1x256x133 .f32) (v6 : Vec Ideal S133x256 .f32) (v10 : Vec Ideal S1x256x256 .bf16)
    (v12 : Vec Ideal S256x256 .f32) (v17 : Vec Ideal S1x256 .f32) (v23 : Vec Ideal S1x256x1 .i32) (v31 : Vec Ideal S2048x256 .f32)
    (s : Fin 2048) (j : Fin 256) :
    (k3_pay4 (F := Ideal) v3 v6 v10 v12 v17 v23 v31 : S2048x256.Idx → EReal) (ix2 s j)
      = v31 (ix2 s j) + ∑ t : Fin 256, Cert.Spec.oneHot (v23 (ix3 (0 : Fin 1) t (0 : Fin 1))) s
          * max ((∑ k : Fin 133, v3 (ix3 (0 : Fin 1) t k) * v6 (ix2 k j)) + (∑ k : Fin 256, v10 (ix3 (0 : Fin 1) t k) * v12 (ix2 k j))
              + v17 (ix2 (0 : Fin 1) j)) 0 := by
  unfold k3_pay4
  dsimp only
  rw [addf_apply, mmP_apply]
  congr 1
  refine Finset.sum_congr rfl fun t _ => ?_
  congr 1
  · rw [sitofp_apply, extui_apply, cmpi_apply, broadcastTo_a1_ab_apply, shapeCast_1ab_ab_apply, iota_single_apply]
    exact onehot_entry _ _
  · rw [maximumf_apply, addf_apply, addf_apply, mmA_apply, mmB_apply, broadcastTo_1b_ab_apply]
    simp only [truncf_apply, shapeCast_1ab_ab_apply, shapeCast_self, broadcast_apply, Ideal.ofBits_def, Ideal.ofBits_zero_f32]

end Cert.KernelIdeal.Val

end
-- ==== Proof.ValR3.lean ====
import proofs.«431103_j25254407701135_3_alg».proof.Proof.FrR3
import proofs.«431103_j25254407701135_3_alg».proof.Proof.Spec
import proofs.«431103_j25254407701135_3_alg».proof.Proof.Algebra
import proofs.«431103_j25254407701135_3_alg».proof.Proof.ValR3Pay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open scoped BigOperators

namespace R3

def contrib (af : Cert.Spec.Arr3 2 32768 133) (am : Cert.Spec.Arr3 2 32768 256) (seg : (⟨3, ![2, 32768, 1]⟩ : Shape).Idx → BitVec 32)
    (woaf : Cert.Spec.Arr2 133 256) (woam : Cert.Spec.Arr2 256 256) (bo : Cert.Spec.Arr2 1 256)
    (s : Fin 2048) (j : Fin 256) (hf : Fin 2) (p : Fin 32768) : EReal :=
  Cert.Spec.oneHot (seg (ix3 hf p (0 : Fin 1))) s * Cert.Spec.hidden af am woaf woam bo hf p j

theorem contrib_congr (af : Cert.Spec.Arr3 2 32768 133) (am : Cert.Spec.Arr3 2 32768 256) (seg : (⟨3, ![2, 32768, 1]⟩ : Shape).Idx → BitVec 32)
    (woaf : Cert.Spec.Arr2 133 256) (woam : Cert.Spec.Arr2 256 256) (bo : Cert.Spec.Arr2 1 256)
    (s : Fin 2048) (j : Fin 256) {hf hf' : Fin 2} {p p' : Fin 32768} (e0 : hf.val = hf'.val) (e1 : p.val = p'.val) :
    contrib af am seg woaf woam bo s j hf p = contrib af am seg woaf woam bo s j hf' p' := by
  obtain rfl : hf = hf' := Fin.ext e0
  obtain rfl : p = p' := Fin.ext e1
  rfl

theorem tile_step (af : Cert.Spec.Arr3 2 32768 133) (am : Cert.Spec.Arr3 2 32768 256) (seg : (⟨3, ![2, 32768, 1]⟩ : Shape).Idx → BitVec 32)
    (woaf : Cert.Spec.Arr2 133 256) (woam : Cert.Spec.Arr2 256 256) (bo : Cert.Spec.Arr2 1 256)
    (x0 : Vec Ideal S1x256x133 .f32) (x3 : Vec Ideal S133x256 .f32) (x1 : Vec Ideal S1x256x256 .bf16)
    (x4 : Vec Ideal S256x256 .f32) (x5 : Vec Ideal S1x256 .f32) (x2 : Vec Ideal S1x256x1 .i32) (acc : Vec Ideal S2048x256 .f32)
    (hf : Fin 2) (row : Fin 256 → Fin 32768) (s : Fin 2048) (j : Fin 256)
    (h0 : ∀ (t : Fin 256) (k : Fin 133), x0 (ix3 (0 : Fin 1) t k) = af (ix3 hf (row t) k))
    (h3 : ∀ k : Fin 133, x3 (ix2 k j) = woaf (ix2 k j))
    (h1 : ∀ (t : Fin 256) (k : Fin 256), x1 (ix3 (0 : Fin 1) t k) = am (ix3 hf (row t) k))
    (h4 : ∀ k : Fin 256, x4 (ix2 k j) = woam (ix2 k j))
    (h5 : x5 (ix2 (0 : Fin 1) j) = bo (ix2 (0 : Fin 1) j))
    (h2 : ∀ t : Fin 256, x2 (ix3 (0 : Fin 1) t (0 : Fin 1)) = seg (ix3 hf (row t) (0 : Fin 1))) :
    (k3_pay1 (F := Ideal) (k3_pay4 x0 x3 x1 x4 x5 x2 acc) : S2048x256.Idx → EReal) (ix2 s j)
      = acc (ix2 s j) + ∑ t : Fin 256, contrib af am seg woaf woam bo s j hf (row t) := by
  rw [pay1_apply, pay4_apply]
  congr 1
  refine Finset.sum_congr rfl fun t _ => ?_
  unfold contrib Cert.Spec.hidden
  simp only [h0, h1, h2, h3, h4, h5]

variable (V : (c : Dev nD) → (b : Ref sig .tc) → Buf (Elt Ideal) ((c : Thread nD τ).loc b))

theorem idx_facts : ∀ t : Fin cfg3.N,
    (win3_0.index t (0 : Fin 3) = t.val / 128 ∧ win3_0.index t (1 : Fin 3) = t.val % 128 ∧ win3_0.index t (2 : Fin 3) = 0)
    ∧ (win3_1.index t (0 : Fin 3) = t.val / 128 ∧ win3_1.index t (1 : Fin 3) = t.val % 128 ∧ win3_1.index t (2 : Fin 3) = 0)
    ∧ (win3_2.index t (0 : Fin 3) = t.val / 128 ∧ win3_2.index t (1 : Fin 3) = t.val % 128 ∧ win3_2.index t (2 : Fin 3) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 3) = t.val / 128 ∧ win3_6.index t (1 : Fin 3) = 0 ∧ win3_6.index t (2 : Fin 3) = 0) :=
  (by decide +kernel : ∀ t : Fin grid3.N, _)

theorem lt_N {n : ℕ} (h : n < 256) : n < cfg3.N := lt_of_lt_of_eq h N_3.symm

theorem af_blk (c : Dev nD) (t : Fin cfg3.N) (u : Fin 256) (k : Fin 133) (hf : Fin 2) (p : Fin 32768)
    (e0 : hf.val = t.val / 128) (e1 : p.val = (t.val % 128) * 256 + u.val) :
    (iblk3 V c 0 t : Vec Ideal S1x256x133 .f32) (ix3 (0 : Fin 1) u k) = (V c main_v59 : S2x32768x133.Idx → EReal) (ix3 hf p k) := by
  obtain ⟨⟨i0, i1, i2⟩, -⟩ := idx_facts t
  show V c main_v59 (((cfg3.win 0).blk t).view.emb (ix3 (0 : Fin 1) u k)) = V c main_v59 (ix3 hf p k)
  refine congrArg _ (funext fun a => Fin.ext ?_)
  match a with
  | ⟨0, _⟩ => show win3_0.index t (0 : Fin 3) * 1 + 1 * 0 = hf.val; omega
  | ⟨1, _⟩ => show win3_0.index t (1 : Fin 3) * 256 + 1 * u.val = p.val; omega
  | ⟨2, _⟩ => show win3_0.index t (2 : Fin 3) * 133 + 1 * k.val = k.val; omega

theorem am_blk (c : Dev nD) (t : Fin cfg3.N) (u : Fin 256) (k : Fin 256) (hf : Fin 2) (p : Fin 32768)
    (e0 : hf.val = t.val / 128) (e1 : p.val = (t.val % 128) * 256 + u.val) :
    (iblk3 V c 1 t : Vec Ideal S1x256x256 .bf16) (ix3 (0 : Fin 1) u k) = (V c main_v60 : S2x32768x256.Idx → EReal) (ix3 hf p k) := by
  obtain ⟨-, ⟨i0, i1, i2⟩, -⟩ := idx_facts t
  show V c main_v60 (((cfg3.win 1).blk t).view.emb (ix3 (0 : Fin 1) u k)) = V c main_v60 (ix3 hf p k)
  refine congrArg _ (funext fun a => Fin.ext ?_)
  match a with
  | ⟨0, _⟩ => show win3_1.index t (0 : Fin 3) * 1 + 1 * 0 = hf.val; omega
  | ⟨1, _⟩ => show win3_1.index t (1 : Fin 3) * 256 + 1 * u.val = p.val; omega
  | ⟨2, _⟩ => show win3_1.index t (2 : Fin 3) * 256 + 1 * k.val = k.val; omega

theorem seg_blk (c : Dev nD) (t : Fin cfg3.N) (u : Fin 256) (hf : Fin 2) (p : Fin 32768)
    (e0 : hf.val = t.val / 128) (e1 : p.val = (t.val % 128) * 256 + u.val) :
    (iblk3 V c 2 t : Vec Ideal S1x256x1 .i32) (ix3 (0 : Fin 1) u (0 : Fin 1))
      = (V c main_v61 : S2x32768x1.Idx → BitVec 32) (ix3 hf p (0 : Fin 1)) := by
  obtain ⟨-, -, ⟨i0, i1, i2⟩, -⟩ := idx_facts t
  show V c main_v61 (((cfg3.win 2).blk t).view.emb (ix3 (0 : Fin 1) u (0 : Fin 1))) = V c main_v61 (ix3 hf p (0 : Fin 1))
  refine congrArg _ (funext fun a => Fin.ext ?_)
  match a with
  | ⟨0, _⟩ => show win3_2.index t (0 : Fin 3) * 1 + 1 * 0 = hf.val; omega
  | ⟨1, _⟩ => show win3_2.index t (1 : Fin 3) * 256 + 1 * u.val = p.val; omega
  | ⟨2, _⟩ => show win3_2.index t (2 : Fin 3) * 1 + 1 * 0 = 0; omega

theorem woaf_blk (c : Dev nD) (t : Fin cfg3.N) (k : Fin 133) (q : Fin 256) :
    (iblk3 V c 3 t : Vec Ideal S133x256 .f32) (ix2 k q) = (V c main_v46 : S133x256.Idx → EReal) (ix2 k q) := by
  obtain ⟨-, -, -, ⟨i0, i1⟩, -⟩ := idx_facts t
  show V c main_v46 (((cfg3.win 3).blk t).view.emb (ix2 k q)) = V c main_v46 (ix2 k q)
  refine congrArg _ (funext fun a => Fin.ext ?_)
  match a with
  | ⟨0, _⟩ => show win3_3.index t (0 : Fin 2) * 133 + 1 * k.val = k.val; omega
  | ⟨1, _⟩ => show win3_3.index t (1 : Fin 2) * 256 + 1 * q.val = q.val; omega

theorem woam_blk (c : Dev nD) (t : Fin cfg3.N) (k : Fin 256) (q : Fin 256) :
    (iblk3 V c 4 t : Vec Ideal S256x256 .f32) (ix2 k q) = (V c main_v47 : S256x256.Idx → EReal) (ix2 k q) := by
  obtain ⟨-, -, -, -, ⟨i0, i1⟩, -⟩ := idx_facts t
  show V c main_v47 (((cfg3.win 4).blk t).view.emb (ix2 k q)) = V c main_v47 (ix2 k q)
  refine congrArg _ (funext fun a => Fin.ext ?_)
  match a with
  | ⟨0, _⟩ => show win3_4.index t (0 : Fin 2) * 256 + 1 * k.val = k.val; omega
  | ⟨1, _⟩ => show win3_4.index t (1 : Fin 2) * 256 + 1 * q.val = q.val; omega

theorem bo_blk (c : Dev nD) (t : Fin cfg3.N) (q : Fin 256) :
    (iblk3 V c 5 t : Vec Ideal S1x256 .f32) (ix2 (0 : Fin 1) q) = (V c main_v62 : S1x256.Idx → EReal) (ix2 (0 : Fin 1) q) := by
  obtain ⟨-, -, -, -, -, ⟨i0, i1⟩, -⟩ := idx_facts t
  show V c main_v62 (((cfg3.win 5).blk t).view.emb (ix2 (0 : Fin 1) q)) = V c main_v62 (ix2 (0 : Fin 1) q)
  refine congrArg _ (funext fun a => Fin.ext ?_)
  match a with
  | ⟨0, _⟩ => show win3_5.index t (0 : Fin 2) * 1 + 1 * 0 = 0; omega
  | ⟨1, _⟩ => show win3_5.index t (1 : Fin 2) * 256 + 1 * q.val = q.val; omega

abbrev contribV (c : Dev nD) (s : Fin 2048) (j : Fin 256) (hf : Fin 2) (p : Fin 32768) : EReal :=
  contrib (V c main_v59 : S2x32768x133.Idx → EReal) (V c main_v60 : S2x32768x256.Idx → EReal)
    (V c main_v61 : S2x32768x1.Idx → BitVec 32) (V c main_v46 : S133x256.Idx → EReal) (V c main_v47 : S256x256.Idx → EReal)
    (V c main_v62 : S1x256.Idx → EReal) s j hf p

def tileHalf (n : Fin 256) : Fin 2 := ⟨n.val / 128, by have := n.isLt; omega⟩
def tileRow (n : Fin 256) (u : Fin 256) : Fin 32768 := ⟨(n.val % 128) * 256 + u.val, by have := n.isLt; have := u.isLt; omega⟩

def tileSum (c : Dev nD) (s : Fin 2048) (j : Fin 256) (n : Fin 256) : EReal :=
  ∑ u : Fin 256, contribV V c s j (tileHalf n) (tileRow n u)

theorem sc3_step (c : Dev nD) (s : Fin 2048) (j : Fin 256) (n : ℕ) (h : n < 256) :
    (sc3 V c n (lt_N h) : S2048x256.Idx → EReal) (ix2 s j)
      = (if n % 128 = 0 then 0 else (sc3 V c (n - 1) (lt_N (by omega)) : S2048x256.Idx → EReal) (ix2 s j)) + tileSum V c s j ⟨n, h⟩ := by
  rw [sc3_eq]
  refine (tile_step (V c main_v59) (V c main_v60) (V c main_v61) (V c main_v46) (V c main_v47) (V c main_v62)
    (iblk3 V c 0 ⟨n, lt_N h⟩) (iblk3 V c 3 ⟨n, lt_N h⟩) (iblk3 V c 1 ⟨n, lt_N h⟩) (iblk3 V c 4 ⟨n, lt_N h⟩)
    (iblk3 V c 5 ⟨n, lt_N h⟩) (iblk3 V c 2 ⟨n, lt_N h⟩) _ (tileHalf ⟨n, h⟩) (tileRow ⟨n, h⟩) s j
    (fun u k => af_blk V c ⟨n, lt_N h⟩ u k _ _ rfl rfl) (fun k => woaf_blk V c ⟨n, lt_N h⟩ k j)
    (fun u k => am_blk V c ⟨n, lt_N h⟩ u k _ _ rfl rfl) (fun k => woam_blk V c ⟨n, lt_N h⟩ k j)
    (bo_blk V c ⟨n, lt_N h⟩ j) (fun u => seg_blk V c ⟨n, lt_N h⟩ u _ _ rfl rfl)).trans ?_
  congr 1
  split
  · exact pay3_apply s j
  · rfl

theorem sc3_congr (c : Dev nD) {n n' : ℕ} (e : n = n') (h : n < cfg3.N) (h' : n' < cfg3.N) : sc3 V c n h = sc3 V c n' h' := by
  subst e; rfl

theorem sc3_half (c : Dev nD) (s : Fin 2048) (j : Fin 256) (hf : Fin 2) :
    (sc3 V c (hf.val * 128 + 127) (lt_N (by have := hf.isLt; omega)) : S2048x256.Idx → EReal) (ix2 s j)
      = Cert.Spec.pool (V c main_v59 : S2x32768x133.Idx → EReal) (V c main_v60 : S2x32768x256.Idx → EReal)
          (V c main_v61 : S2x32768x1.Idx → BitVec 32) (V c main_v46 : S133x256.Idx → EReal) (V c main_v47 : S256x256.Idx → EReal)
          (V c main_v62 : S1x256.Idx → EReal) hf s j := by
  have hh := hf.isLt
  refine (Cert.Alg.fold_tiles (tileSum V c s j) (fun n h => (sc3 V c n (lt_N h) : S2048x256.Idx → EReal) (ix2 s j))
    (fun n h => sc3_step V c s j n h) hf.val hf.isLt).trans ?_
  unfold Cert.Spec.pool
  rw [Cert.Alg.sum_tiles]
  refine Finset.sum_congr rfl fun jj _ => Finset.sum_congr rfl fun u _ => ?_
  have hjj := jj.isLt
  exact contrib_congr _ _ _ _ _ _ s j (by show (hf.val * 128 + jj.val) / 128 = hf.val; omega)
    (by show ((hf.val * 128 + jj.val) % 128) * 256 + u.val = jj.val * 256 + u.val; omega)

abbrev poolArr (c : Dev nD) : S2x2048x256.Idx → EReal := fun i =>
  Cert.Spec.pool (V c main_v59 : S2x32768x133.Idx → EReal) (V c main_v60 : S2x32768x256.Idx → EReal)
    (V c main_v61 : S2x32768x1.Idx → BitVec 32) (V c main_v46 : S133x256.Idx → EReal) (V c main_v47 : S256x256.Idx → EReal)
    (V c main_v62 : S1x256.Idx → EReal) (i 0) (i 1) (i 2)

set_option maxRecDepth 65536 in

theorem flushed_pool (c : Dev nD) (t : Fin cfg3.N) (hfl : (cfg3.win 6).flush t = true) :
    (dat3 V c).flushed 6 t = ((cfg3.win 6).blk t).view.read (Elt Ideal) (poolArr V c) := by
  have h127 : t.val % 128 = 127 := (flush3_6 t).mp hfl
  have ht : t.val < 256 := lt_of_lt_of_eq t.isLt N_3
  obtain ⟨-, -, -, -, -, -, ⟨i0, i1, i2⟩⟩ := idx_facts t
  show (cfg3.win 6).cut (grid3.coords t) ((dat3 V c).after 6 t) = _
  rw [after3_6, out3_6_eq]
  funext y
  obtain ⟨z, s, j, rfl⟩ : ∃ (z : Fin 1) (s : Fin 2048) (j : Fin 256), y = ix3 z s j := ⟨y 0, y 1, y 2, eq_ix3 y⟩
  obtain rfl : z = 0 := Subsingleton.elim _ _
  show (k3_pay2 (F := Ideal) (sc3 V c t.val t.isLt) : S1x2048x256.Idx → EReal) (ix3 (0 : Fin 1) s j)
    = poolArr V c (((cfg3.win 6).blk t).view.emb (ix3 (0 : Fin 1) s j))
  rw [pay2_apply, sc3_congr V c (show t.val = (⟨t.val / 128, by omega⟩ : Fin 2).val * 128 + 127 by show t.val = t.val / 128 * 128 + 127; omega)
    t.isLt (lt_N (by show t.val / 128 * 128 + 127 < 256; omega)), sc3_half]
  show Cert.Spec.pool _ _ _ _ _ _ _ _ _ = Cert.Spec.pool _ _ _ _ _ _ _ _ _
  congr 1 <;> apply Fin.ext
  · show t.val / 128 = win3_6.index t (0 : Fin 3) * 1 + 1 * 0; omega
  · show s.val = win3_6.index t (1 : Fin 3) * 2048 + 1 * s.val; omega
  · show j.val = win3_6.index t (2 : Fin 3) * 256 + 1 * j.val; omega

theorem mem_blk (t : Fin cfg3.N) (i : S2x2048x256.Idx) :
    i ∈ ((cfg3.win 6).blk t).view.set ↔ ∀ a : Fin 3, win3_6.index t a * S1x2048x256.size a ≤ (i a).val ∧ (i a).val < win3_6.index t a * S1x2048x256.size a + S1x2048x256.size a := by
  show i ∈ ((View.whole main_v63).slice (win3_6.rect t)).set ↔ _
  rw [View.set_slice_whole, Rect.mem_set_unit]
  exact Iff.rfl

theorem cover (i : S2x2048x256.Idx) : ∃ t : Fin cfg3.N, (cfg3.win 6).flush t = true ∧ i ∈ ((cfg3.win 6).blk t).view.set := by
  have hi0 : (i 0).val < 2 := (i 0).isLt
  have hi1 : (i 1).val < 2048 := (i 1).isLt
  have hi2 : (i 2).val < 256 := (i 2).isLt
  obtain ⟨t, ht⟩ : ∃ t : Fin cfg3.N, t.val = (i 0).val * 128 + 127 := ⟨⟨(i 0).val * 128 + 127, lt_N (by omega)⟩, rfl⟩
  obtain ⟨-, -, -, -, -, -, ⟨i0, i1, i2⟩⟩ := idx_facts t
  refine ⟨t, (flush3_6 t).mpr (by omega), ?_⟩
  rw [mem_blk]
  intro a
  match a with
  | ⟨0, _⟩ => show win3_6.index t (0 : Fin 3) * 1 ≤ (i 0).val ∧ (i 0).val < win3_6.index t (0 : Fin 3) * 1 + 1; omega
  | ⟨1, _⟩ => show win3_6.index t (1 : Fin 3) * 2048 ≤ (i 1).val ∧ (i 1).val < win3_6.index t (1 : Fin 3) * 2048 + 2048; omega
  | ⟨2, _⟩ => show win3_6.index t (2 : Fin 3) * 256 ≤ (i 2).val ∧ (i 2).val < win3_6.index t (2 : Fin 3) * 256 + 256; omega

end R3

open R3

variable (V : (c : Dev nD) → (b : Ref sig .tc) → Buf (Elt Ideal) ((c : Thread nD τ).loc b))

theorem final3 (c : Dev nD) (h : Fin 2) (s : Fin 2048) (j : Fin 256) :
    ((dat3 (F := Ideal) V c).arrAt 6 cfg3.N : S2x2048x256.Idx → EReal) (ix3 h s j)
      = Cert.Spec.pool (V c main_v59 : S2x32768x133.Idx → EReal) (V c main_v60 : S2x32768x256.Idx → EReal)
          (V c main_v61 : S2x32768x1.Idx → BitVec 32) (V c main_v46 : S133x256.Idx → EReal) (V c main_v47 : S256x256.Idx → EReal)
          (V c main_v62 : S1x256.Idx → EReal) h s j :=
  congrFun ((dat3 (F := Ideal) V c).arrAt_eq_of_cover 6 (poolArr V c) (fun t hfl => flushed_pool V c t hfl) cover) (ix3 h s j)

end Cert.KernelIdeal.Val

end
-- ==== Proof.KStages.lean ====
import proofs.«431103_j25254407701135_3_alg».proof.Proof.FrW
import proofs.«431103_j25254407701135_3_alg».proof.Proof.HostK
import proofs.«431103_j25254407701135_3_alg».proof.Proof.ValR0
import proofs.«431103_j25254407701135_3_alg».proof.Proof.ValR1
import proofs.«431103_j25254407701135_3_alg».proof.Proof.ValR2
import proofs.«431103_j25254407701135_3_alg».proof.Proof.ValR3
import proofs.«431103_j25254407701135_3_alg».proof.Proof.Spec

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

theorem W1_keep (r : Ref sig .tc) (h : r ∉ hostOps0_W) : W1 m ρ c (Proc.devRef .tc r) = m ((c : Thread nD τ).loc r) :=
  host0_keep (W0 m ρ c) r h

theorem W2_keep (r : Ref sig .tc) (hr : ∀ w, Pipeline.arrRef spec0 w ≠ r) (h : r ∉ hostOps0_W) : W2 m ρ c (Proc.devRef .tc r) = m ((c : Thread nD τ).loc r) :=
  (W2_of_ne m ρ c r hr).trans (W1_keep m ρ c r h)

theorem W4_of_W2 (r : Ref sig .tc) (hr : ∀ w, Pipeline.arrRef spec1 w ≠ r) (h : r ∉ hostOps1_W) : W4 m ρ c (Proc.devRef .tc r) = W2 m ρ c (Proc.devRef .tc r) :=
  (W4_of_ne m ρ c r hr).trans (host1_keep (W2 m ρ c) r h)

theorem W6_of_W4 (r : Ref sig .tc) (hr : ∀ w, Pipeline.arrRef spec2 w ≠ r) (h : r ∉ hostOps2_W) : W6 m ρ c (Proc.devRef .tc r) = W4 m ρ c (Proc.devRef .tc r) :=
  (W6_of_ne m ρ c r hr).trans (host2_keep (W4 m ρ c) r h)

theorem W8_of_W6 (r : Ref sig .tc) (h31 : r ∉ hostOps3_1_W) (h3 : r ∉ hostOps3_W) : W8 m ρ c (Proc.devRef .tc r) = W6 m ρ c (Proc.devRef .tc r) :=
  (host31_keep (W7 m ρ c) r h31).trans (host3_keep (W6 m ρ c) r h3)

theorem W10_of_W8 (r : Ref sig .tc) (hr : ∀ w, Pipeline.arrRef spec3 w ≠ r) (h : r ∉ hostOps3_2_W) : W10 m ρ c (Proc.devRef .tc r) = W8 m ρ c (Proc.devRef .tc r) :=
  (W10_of_ne m ρ c r hr).trans (host32_keep (W8 m ρ c) r h)

theorem W2_arg0 : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (W1_keep m ρ c main_arg0 (by decide))
theorem W8_arg0 : W8 m ρ c (Proc.devRef .tc main_arg0) = m ((c : Thread nD τ).loc main_arg0) :=
  (W8_of_W6 m ρ c main_arg0 (by decide) (by decide)).trans ((W6_of_W4 m ρ c main_arg0 (by decide) (by decide)).trans
    ((W4_of_W2 m ρ c main_arg0 (by decide) (by decide)).trans (W2_arg0 m ρ c)))

theorem W2_arg2 : W2 m ρ c (Proc.devRef .tc main_arg2) = m ((c : Thread nD τ).loc main_arg2) := W2_keep m ρ c main_arg2 (by decide) (by decide)
theorem W4_arg2 : W4 m ρ c (Proc.devRef .tc main_arg2) = m ((c : Thread nD τ).loc main_arg2) :=
  (W4_of_W2 m ρ c main_arg2 (by decide) (by decide)).trans (W2_arg2 m ρ c)
theorem W6_arg2 : W6 m ρ c (Proc.devRef .tc main_arg2) = m ((c : Thread nD τ).loc main_arg2) :=
  (W6_of_W4 m ρ c main_arg2 (by decide) (by decide)).trans (W4_arg2 m ρ c)

theorem W6_arg4 : W6 m ρ c (Proc.devRef .tc main_arg4) = m ((c : Thread nD τ).loc main_arg4) :=
  (W6_of_W4 m ρ c main_arg4 (by decide) (by decide)).trans ((W4_of_W2 m ρ c main_arg4 (by decide) (by decide)).trans
    (W2_keep m ρ c main_arg4 (by decide) (by decide)))
theorem W8_arg4 : W8 m ρ c (Proc.devRef .tc main_arg4) = m ((c : Thread nD τ).loc main_arg4) :=
  (W8_of_W6 m ρ c main_arg4 (by decide) (by decide)).trans (W6_arg4 m ρ c)

theorem W6_arg9 : W6 m ρ c (Proc.devRef .tc main_arg9) = m ((c : Thread nD τ).loc main_arg9) :=
  (W6_of_W4 m ρ c main_arg9 (by decide) (by decide)).trans ((W4_of_W2 m ρ c main_arg9 (by decide) (by decide)).trans
    (W2_keep m ρ c main_arg9 (by decide) (by decide)))

theorem W8_arg10 : W8 m ρ c (Proc.devRef .tc main_arg10) = m ((c : Thread nD τ).loc main_arg10) :=
  (W8_of_W6 m ρ c main_arg10 (by decide) (by decide)).trans ((W6_of_W4 m ρ c main_arg10 (by decide) (by decide)).trans
    ((W4_of_W2 m ρ c main_arg10 (by decide) (by decide)).trans (W2_keep m ρ c main_arg10 (by decide) (by decide))))

theorem W2_v1 : W2 m ρ c (Proc.devRef .tc main_v1) = extractStridedSlice S256x256 ![0, 0] (m ((c : Thread nD τ).loc main_arg7) : S270x256.Idx → EReal) slices_S270x256_S256x256_0_0 :=
  (W2_of_ne m ρ c main_v1 (by decide)).trans (host0_v1 (W0 m ρ c))

theorem W4_v1 : W4 m ρ c (Proc.devRef .tc main_v1) = W2 m ρ c (Proc.devRef .tc main_v1) :=
  ((W4_arr m ρ c 2).trans (((dat1 (V3 m ρ) c).arrAt_in 2 rfl _).trans (A_eq1 (V3 m ρ) c 2))).trans (host1_keep (W2 m ρ c) main_v1 (by decide))

theorem W4_v13_1 : W4 m ρ c (Proc.devRef .tc main_v13_1) = W2 m ρ c (Proc.devRef .tc main_v13_1) :=
  ((W4_arr m ρ c 1).trans (((dat1 (V3 m ρ) c).arrAt_in 1 rfl _).trans (A_eq1 (V3 m ρ) c 1))).trans (host1_keep (W2 m ρ c) main_v13_1 (by decide))

theorem k_msg0 (r : Fin 65536) (j : Fin 256) :
    (W2 m ρ c (Proc.devRef .tc main_v13_0) : S65536x256.Idx → EReal) (ix2 r j)
      = Cert.Spec.msg0 (m ((c : Thread nD τ).loc main_arg0) : S65536x133.Idx → EReal) (m ((c : Thread nD τ).loc main_arg5) : S133x256.Idx → EReal)
          (shapeCast S1x256 (m ((c : Thread nD τ).loc main_arg6) : S256.Idx → EReal) shapeCasts_S256_S1x256) r j := by
  refine (congrFun (W2_arr m ρ c 6) (ix2 r j)).trans ((final0_6 (V1 m ρ) c r j).trans ?_)
  rw [show V1 m ρ c main_arg0 = m ((c : Thread nD τ).loc main_arg0) from W1_keep m ρ c main_arg0 (by decide),
    show V1 m ρ c main_arg5 = m ((c : Thread nD τ).loc main_arg5) from W1_keep m ρ c main_arg5 (by decide),
    show V1 m ρ c main_v11 = _ from host0_v11 (W0 m ρ c)]

theorem k_base (r : Fin 65536) (j : Fin 256) :
    (W2 m ρ c (Proc.devRef .tc main_v13_1) : S65536x256.Idx → EReal) (ix2 r j)
      = Cert.Spec.base (m ((c : Thread nD τ).loc main_arg0) : S65536x133.Idx → EReal) (m ((c : Thread nD τ).loc main_arg5) : S133x256.Idx → EReal)
          (shapeCast S1x256 (m ((c : Thread nD τ).loc main_arg6) : S256.Idx → EReal) shapeCasts_S256_S1x256)
          (nbsOf (F := Ideal) (m ((c : Thread nD τ).loc main_arg1) : S131072x147.Idx → EReal) (m ((c : Thread nD τ).loc main_arg3) : S65536x6.Idx → BitVec 32))
          (extractStridedSlice S14x256 ![256, 0] (m ((c : Thread nD τ).loc main_arg7) : S270x256.Idx → EReal) slices_S270x256_S14x256_256_0)
          (shapeCast S1x256 (m ((c : Thread nD τ).loc main_arg8) : S256.Idx → EReal) shapeCasts_S256_S1x256) r j := by
  refine (congrFun (W2_arr m ρ c 7) (ix2 r j)).trans ((final0_7 (V1 m ρ) c r j).trans ?_)
  rw [show V1 m ρ c main_arg0 = m ((c : Thread nD τ).loc main_arg0) from W1_keep m ρ c main_arg0 (by decide),
    show V1 m ρ c main_arg5 = m ((c : Thread nD τ).loc main_arg5) from W1_keep m ρ c main_arg5 (by decide),
    show V1 m ρ c main_v11 = _ from host0_v11 (W0 m ρ c),
    show V1 m ρ c main_v10 = _ from host0_v10 (W0 m ρ c),
    show V1 m ρ c main_v2 = _ from host0_v2 (W0 m ρ c),
    show V1 m ρ c main_v12 = _ from host0_v12 (W0 m ρ c)]

theorem k_msg1 (r : Fin 65536) (j : Fin 256) :
    (W4 m ρ c (Proc.devRef .tc main_v24) : S65536x256.Idx → EReal) (ix2 r j)
      = Cert.Spec.step (nasOf (F := Ideal) (W2 m ρ c (Proc.devRef .tc main_v13_0)) (m ((c : Thread nD τ).loc main_arg2) : S65536x6.Idx → BitVec 32))
          (W2 m ρ c (Proc.devRef .tc main_v13_1) : S65536x256.Idx → EReal)
          (extractStridedSlice S256x256 ![0, 0] (m ((c : Thread nD τ).loc main_arg7) : S270x256.Idx → EReal) slices_S270x256_S256x256_0_0) r j := by
  refine (congrFun (W4_arr m ρ c 3) (ix2 r j)).trans ((final1 (V3 m ρ) c r j).trans ?_)
  rw [show V3 m ρ c main_v23 = _ from host1_v23 (W2 m ρ c), W2_arg2 m ρ c,
    show V3 m ρ c main_v13_1 = _ from host1_keep (W2 m ρ c) main_v13_1 (by decide),
    show V3 m ρ c main_v1 = _ from (host1_keep (W2 m ρ c) main_v1 (by decide)).trans (W2_v1 m ρ c)]

theorem k_msg2 (r : Fin 65536) (j : Fin 256) :
    (W6 m ρ c (Proc.devRef .tc main_v35) : S65536x256.Idx → EReal) (ix2 r j)
      = Cert.Spec.step (nasOf (F := Ideal) (W4 m ρ c (Proc.devRef .tc main_v24)) (m ((c : Thread nD τ).loc main_arg2) : S65536x6.Idx → BitVec 32))
          (W2 m ρ c (Proc.devRef .tc main_v13_1) : S65536x256.Idx → EReal)
          (extractStridedSlice S256x256 ![0, 0] (m ((c : Thread nD τ).loc main_arg7) : S270x256.Idx → EReal) slices_S270x256_S256x256_0_0) r j := by
  refine (congrFun (W6_arr m ρ c 3) (ix2 r j)).trans ((final2 (V5 m ρ) c r j).trans ?_)
  rw [show V5 m ρ c main_v34 = _ from host2_v34 (W4 m ρ c), W4_arg2 m ρ c,
    show V5 m ρ c main_v13_1 = _ from (host2_keep (W4 m ρ c) main_v13_1 (by decide)).trans (W4_v13_1 m ρ c),
    show V5 m ρ c main_v1 = _ from (host2_keep (W4 m ρ c) main_v1 (by decide)).trans ((W4_v1 m ρ c).trans (W2_v1 m ρ c))]

theorem k_part (h : Fin 2) (s : Fin 2048) (j : Fin 256) :
    (W10 m ρ c (Proc.devRef .tc main_v63) : S2x2048x256.Idx → EReal) (ix3 h s j)
      = Cert.Spec.pool (shapeCast S2x32768x133 (m ((c : Thread nD τ).loc main_arg0) : S65536x133.Idx → EReal) shapeCasts_S65536x133_S2x32768x133)
          (shapeCast S2x32768x256 (nasOf (F := Ideal) (W6 m ρ c (Proc.devRef .tc main_v35)) (m ((c : Thread nD τ).loc main_arg2) : S65536x6.Idx → BitVec 32)) shapeCasts_S65536x256_S2x32768x256)
          (shapeCast S2x32768x1 (m ((c : Thread nD τ).loc main_arg4) : S65536.Idx → BitVec 32) shapeCasts_S65536_S2x32768x1)
          (extractStridedSlice S133x256 ![0, 0] (m ((c : Thread nD τ).loc main_arg9) : S389x256.Idx → EReal) slices_S389x256_S133x256_0_0)
          (extractStridedSlice S256x256 ![133, 0] (m ((c : Thread nD τ).loc main_arg9) : S389x256.Idx → EReal) slices_S389x256_S256x256_133_0)
          (shapeCast S1x256 (m ((c : Thread nD τ).loc main_arg10) : S256.Idx → EReal) shapeCasts_S256_S1x256) h s j := by
  refine (congrFun (W10_arr m ρ c 6) (ix3 h s j)).trans ((final3 (V9 m ρ) c h s j).trans ?_)
  rw [show V9 m ρ c main_v59 = _ from host32_v59 (W8 m ρ c), W8_arg0 m ρ c,
    show V9 m ρ c main_v60 = _ from host32_v60 (W8 m ρ c),
    show W8 m ρ c (Proc.devRef .tc main_v45) = _ from (host31_keep (W7 m ρ c) main_v45 (by decide)).trans (host3_v45 (W6 m ρ c)), W6_arg2 m ρ c,
    show V9 m ρ c main_v61 = _ from host32_v61 (W8 m ρ c), W8_arg4 m ρ c,
    show V9 m ρ c main_v46 = _ from (host32_keep (W8 m ρ c) main_v46 (by decide)).trans ((host31_keep (W7 m ρ c) main_v46 (by decide)).trans (host3_v46 (W6 m ρ c))),
    show V9 m ρ c main_v47 = _ from (host32_keep (W8 m ρ c) main_v47 (by decide)).trans ((host31_keep (W7 m ρ c) main_v47 (by decide)).trans (host3_v47 (W6 m ρ c))),
    W6_arg9 m ρ c,
    show V9 m ρ c main_v62 = _ from host32_v62 (W8 m ρ c), W8_arg10 m ρ c]

theorem W10_v58 : W10 m ρ c (Proc.devRef .tc main_v58) = invOf (F := Ideal) (m ((c : Thread nD τ).loc main_arg4) : S65536.Idx → BitVec 32) :=
  (W10_of_W8 m ρ c main_v58 (by decide) (by decide)).trans ((host31_v58 (W6 m ρ c)).trans (congrArg (invOf (F := Ideal)) (W6_arg4 m ρ c)))

theorem k_res :
    W11 m ρ c (Proc.devRef .tc main_v71)
      = mulf (F := Ideal) (φ := .f32)
          (addf (F := Ideal) (φ := .f32)
            (shapeCast S2048x256 (extractStridedSlice S1x2048x256 ![0, 0, 0] (W10 m ρ c (Proc.devRef .tc main_v63)) slices_S2x2048x256_S1x2048x256_0_0_0) shapeCasts_S1x2048x256_S2048x256)
            (shapeCast S2048x256 (extractStridedSlice S1x2048x256 ![1, 0, 0] (W10 m ρ c (Proc.devRef .tc main_v63)) slices_S2x2048x256_S1x2048x256_1_0_0) shapeCasts_S1x2048x256_S2048x256))
          (broadcastInDim S2048x256 ![0, 1] bcast_S2048x1_S2048x256_0_1 (shapeCast S2048x1 (invOf (F := Ideal) (m ((c : Thread nD τ).loc main_arg4) : S65536.Idx → BitVec 32)) shapeCasts_S2048_S2048x1)) :=
  (host4_v71 (W10 m ρ c)).trans (by rw [W10_v58 m ρ c])

end Cert.KernelIdeal.Val

end
-- ==== Proof.KLayout.lean ====
import proofs.«431103_j25254407701135_3_alg».proof.Proof.HostK
import proofs.«431103_j25254407701135_3_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.ShloMosaic.ValueIdx
open scoped BigOperators

theorem rs_row (x : (⟨S256, .f32⟩ : BufTy).Contents (Elt Ideal)) (j : Fin 256) :
    (shapeCast S1x256 x shapeCasts_S256_S1x256 : S1x256.Idx → EReal) (ix2 (0 : Fin 1) j) = x (ix1 j) :=
  shapeCast_a_1a_apply x shapeCasts_S256_S1x256 (0 : Fin 1) j

theorem sl_wha (x : (⟨S270x256, .f32⟩ : BufTy).Contents (Elt Ideal)) (k : Fin 256) (j : Fin 256) :
    (extractStridedSlice S256x256 ![0, 0] x slices_S270x256_S256x256_0_0 : S256x256.Idx → EReal) (ix2 k j)
      = x (ix2 (⟨k.val, by omega⟩ : Fin 270) j) :=
  slice2_axis0_apply 0 x slices_S270x256_S256x256_0_0 k j ⟨k.val, by omega⟩ (Nat.zero_add _).symm

theorem sl_whb (x : (⟨S270x256, .f32⟩ : BufTy).Contents (Elt Ideal)) (q : Fin 14) (j : Fin 256) :
    (extractStridedSlice S14x256 ![256, 0] x slices_S270x256_S14x256_256_0 : S14x256.Idx → EReal) (ix2 q j)
      = x (ix2 (⟨256 + q.val, by omega⟩ : Fin 270) j) :=
  slice2_axis0_apply 256 x slices_S270x256_S14x256_256_0 q j ⟨256 + q.val, by omega⟩ rfl

theorem sl_woaf (x : (⟨S389x256, .f32⟩ : BufTy).Contents (Elt Ideal)) (k : Fin 133) (j : Fin 256) :
    (extractStridedSlice S133x256 ![0, 0] x slices_S389x256_S133x256_0_0 : S133x256.Idx → EReal) (ix2 k j)
      = x (ix2 (⟨k.val, by omega⟩ : Fin 389) j) :=
  slice2_axis0_apply 0 x slices_S389x256_S133x256_0_0 k j ⟨k.val, by omega⟩ (Nat.zero_add _).symm

theorem sl_woam (x : (⟨S389x256, .f32⟩ : BufTy).Contents (Elt Ideal)) (q : Fin 256) (j : Fin 256) :
    (extractStridedSlice S256x256 ![133, 0] x slices_S389x256_S256x256_133_0 : S256x256.Idx → EReal) (ix2 q j)
      = x (ix2 (⟨133 + q.val, by omega⟩ : Fin 389) j) :=
  slice2_axis0_apply 133 x slices_S389x256_S256x256_133_0 q j ⟨133 + q.val, by omega⟩ rfl

theorem rs_af3 (x : (⟨S65536x133, .f32⟩ : BufTy).Contents (Elt Ideal)) (h : Fin 2) (p : Fin 32768) (k : Fin 133) :
    (shapeCast S2x32768x133 x shapeCasts_S65536x133_S2x32768x133 : S2x32768x133.Idx → EReal) (ix3 h p k)
      = x (ix2 (⟨h.val * 32768 + p.val, by omega⟩ : Fin 65536) k) :=
  shapeCast_apply x shapeCasts_S65536x133_S2x32768x133 _ _ (by
    rw [Shape.rowMajor_val_three, Shape.rowMajor_val_two]
    rfl)

theorem rs_am3 (x : (⟨S65536x256, .bf16⟩ : BufTy).Contents (Elt Ideal)) (h : Fin 2) (p : Fin 32768) (k : Fin 256) :
    (shapeCast S2x32768x256 x shapeCasts_S65536x256_S2x32768x256 : S2x32768x256.Idx → EReal) (ix3 h p k)
      = x (ix2 (⟨h.val * 32768 + p.val, by omega⟩ : Fin 65536) k) :=
  shapeCast_apply x shapeCasts_S65536x256_S2x32768x256 _ _ (by
    rw [Shape.rowMajor_val_three, Shape.rowMajor_val_two]
    rfl)

theorem rs_seg3 (x : (⟨S65536, .i32⟩ : BufTy).Contents (Elt Ideal)) (h : Fin 2) (p : Fin 32768) :
    (shapeCast S2x32768x1 x shapeCasts_S65536_S2x32768x1 : S2x32768x1.Idx → BitVec 32) (ix3 h p (0 : Fin 1))
      = x (ix1 (⟨h.val * 32768 + p.val, by omega⟩ : Fin 65536)) :=
  shapeCast_apply x shapeCasts_S65536_S2x32768x1 _ _ (by
    rw [Shape.rowMajor_val_three, Shape.rowMajor_val_one]
    show h.val * 32768 + p.val = (h.val * 32768 + p.val) * 1 + 0
    omega)

theorem slice3_axis0_apply {α : Type} {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (u : Fin m) (a : Fin n1) (e : Fin n2) (k : Fin n0) (hk : k.val = o + u.val) :
    extractStridedSlice ⟨3, ![m, n1, n2]⟩ ![o, 0, 0] X h (ix3 u a e) = X (ix3 k a e) :=
  extractStridedSlice_apply _ _ _ _ _ (fun ax => by
    match ax with
    | ⟨0, _⟩ => exact hk
    | ⟨1, _⟩ => exact (Nat.zero_add _).symm
    | ⟨2, _⟩ => exact (Nat.zero_add _).symm)

theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastInDim_a1_ab_apply {α : Type} {a b : ℕ} (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

theorem res_apply (P : (⟨S2x2048x256, .f32⟩ : BufTy).Contents (Elt Ideal)) (v : (⟨S2048, .f32⟩ : BufTy).Contents (Elt Ideal))
    (s : Fin 2048) (j : Fin 256) :
    (mulf (F := Ideal) (φ := .f32)
        (addf (F := Ideal) (φ := .f32)
          (shapeCast S2048x256 (extractStridedSlice S1x2048x256 ![0, 0, 0] P slices_S2x2048x256_S1x2048x256_0_0_0) shapeCasts_S1x2048x256_S2048x256)
          (shapeCast S2048x256 (extractStridedSlice S1x2048x256 ![1, 0, 0] P slices_S2x2048x256_S1x2048x256_1_0_0) shapeCasts_S1x2048x256_S2048x256))
        (broadcastInDim S2048x256 ![0, 1] bcast_S2048x1_S2048x256_0_1 (shapeCast S2048x1 v shapeCasts_S2048_S2048x1))
      : S2048x256.Idx → EReal) (ix2 s j)
      = (P (ix3 (0 : Fin 2) s j) + P (ix3 (1 : Fin 2) s j)) * v (ix1 s) := by
  rw [mulf_apply, addf_apply, shapeCast_1ab_ab_apply, shapeCast_1ab_ab_apply,
    slice3_axis0_apply 0 P slices_S2x2048x256_S1x2048x256_0_0_0 (0 : Fin 1) s j (0 : Fin 2) rfl,
    slice3_axis0_apply 1 P slices_S2x2048x256_S1x2048x256_1_0_0 (0 : Fin 1) s j (1 : Fin 2) rfl,
    broadcastInDim_a1_ab_apply, shapeCast_a_a1_apply]

theorem inv_apply (seg : (⟨S65536, .i32⟩ : BufTy).Contents (Elt Ideal)) (s : Fin 2048) :
    (invOf (F := Ideal) seg : S2048.Idx → EReal) (ix1 s)
      = if Ideal.cmp .ogt ((cntOf (F := Ideal) seg : S2048.Idx → EReal) (ix1 s)) 0 = 1#1
        then Ideal.div 1 (max ((cntOf (F := Ideal) seg : S2048.Idx → EReal) (ix1 s)) 1) else 0 := by
  unfold invOf
  generalize cntOf (F := Ideal) seg = c
  have hb : ∀ b : BitVec 32, broadcastInDim S2048 ![] bcast_S_S2048 (constant (F := Ideal) S_ .f32 b) (ix1 s) = Ideal.ofBits .f32 b :=
    fun b => broadcastInDim_scalar_apply (T := S2048) bcast_S_S2048 (constant (F := Ideal) S_ .f32 b) (ix1 s)
  rw [select_apply, cmpf_apply, hostDivf_apply, maximumf_apply, hb, hb, Ideal.ofBits_zero_f32, Ideal.ofBits_one_f32]
  rfl

end Cert.KernelIdeal.Val

end
-- ==== Proof.RefReadP.lean ====
import proofs.«431103_j25254407701135_3_alg».proof.Proof.RefRunP
import Idealize.ShloMosaic.Lib.Pipeline.Value
import Idealize.ShloMosaic.Lib.ValueIdx
import Idealize.ShloMosaic.PureOps.Ideal.Laws

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]

def val_main_v0 (x0 : (⟨S65536x133, .f32⟩ : BufTy).Contents (Elt F)) (x5 : (⟨S133x256, .f32⟩ : BufTy).Contents (Elt F)) : (⟨S65536x256, .f32⟩ : BufTy).Contents (Elt F) :=
  Host.dotGeneral dot_S65536x133_S133x256_S65536x256_1_0_0_1_n_n none (x0) (x5)
theorem lhs_main_v0_0 (i : S65536x256.Idx) (q : dot_S65536x133_S133x256_S65536x256_1_0_0_1_n_n.contr.Idx) :
    (dot_S65536x133_S133x256_S65536x256_1_0_0_1_n_n.lhsIdx i q 0).val = (i 0).val := by
  unfold DotDims.lhsIdx
  rw [dif_neg (show ¬(0 : Fin S65536x133.rank) ∈ dot_S65536x133_S133x256_S65536x256_1_0_0_1_n_n.lhsBatch by decide), dif_pos (show (0 : Fin S65536x133.rank) ∈ dot_S65536x133_S133x256_S65536x256_1_0_0_1_n_n.lhsNonContracting by decide)]
  rfl
theorem lhs_main_v0_1 (i : S65536x256.Idx) (q : dot_S65536x133_S133x256_S65536x256_1_0_0_1_n_n.contr.Idx) :
    (dot_S65536x133_S133x256_S65536x256_1_0_0_1_n_n.lhsIdx i q 1).val = (q ⟨0, by decide⟩).val :=
  dot_S65536x133_S133x256_S65536x256_1_0_0_1_n_n.lhsIdx_val_of_single rfl i q
theorem rhs_main_v0_0 (i : S65536x256.Idx) (q : dot_S65536x133_S133x256_S65536x256_1_0_0_1_n_n.contr.Idx) :
    (dot_S65536x133_S133x256_S65536x256_1_0_0_1_n_n.rhsIdx i q 0).val = (q ⟨0, by decide⟩).val :=
  dot_S65536x133_S133x256_S65536x256_1_0_0_1_n_n.rhsIdx_val_of_single rfl i q
theorem rhs_main_v0_1 (i : S65536x256.Idx) (q : dot_S65536x133_S133x256_S65536x256_1_0_0_1_n_n.contr.Idx) :
    (dot_S65536x133_S133x256_S65536x256_1_0_0_1_n_n.rhsIdx i q 1).val = (i 1).val := by
  unfold DotDims.rhsIdx
  rw [dif_neg (show ¬(1 : Fin S133x256.rank) ∈ dot_S65536x133_S133x256_S65536x256_1_0_0_1_n_n.rhsBatch by decide), dif_pos (show (1 : Fin S133x256.rank) ∈ dot_S65536x133_S133x256_S65536x256_1_0_0_1_n_n.rhsNonContracting by decide)]
  rfl
abbrev lidx_main_v0 (i : S65536x256.Idx) (k : Fin 133) : S65536x133.Idx := fun a => match a with
  | ⟨0, _⟩ => ⟨(i 0).val, (i 0).isLt⟩
  | ⟨1, _⟩ => ⟨k.val, k.isLt⟩
abbrev ridx_main_v0 (i : S65536x256.Idx) (k : Fin 133) : S133x256.Idx := fun a => match a with
  | ⟨0, _⟩ => ⟨k.val, k.isLt⟩
  | ⟨1, _⟩ => ⟨(i 1).val, (i 1).isLt⟩

theorem val_main_v0_apply (x0 : (⟨S65536x133, .f32⟩ : BufTy).Contents (Elt Ideal)) (x5 : (⟨S133x256, .f32⟩ : BufTy).Contents (Elt Ideal)) (i : S65536x256.Idx) :
    val_main_v0 (F := Ideal) x0 x5 i = ∑ k : Fin 133, x0 (lidx_main_v0 i k) * x5 (ridx_main_v0 i k) := by
  unfold val_main_v0
  simp only [Host.dotGeneral]
  rw [Ideal.dotGeneral_apply, ← Equiv.sum_comp (ValueIdx.contrEquiv1 dot_S65536x133_S133x256_S65536x256_1_0_0_1_n_n 133 rfl rfl).symm]
  refine Finset.sum_congr rfl fun k _ => ?_
  have hk := ValueIdx.contrEquiv1_symm_val dot_S65536x133_S133x256_S65536x256_1_0_0_1_n_n 133 rfl rfl k
  have el : dot_S65536x133_S133x256_S65536x256_1_0_0_1_n_n.lhsIdx i ((ValueIdx.contrEquiv1 dot_S65536x133_S133x256_S65536x256_1_0_0_1_n_n 133 rfl rfl).symm k) = lidx_main_v0 i k := funext fun a => Fin.ext (by
    match a with
    | ⟨0, _⟩ => exact lhs_main_v0_0 _ _
    | ⟨1, _⟩ => exact (lhs_main_v0_1 _ _).trans hk)
  have er : dot_S65536x133_S133x256_S65536x256_1_0_0_1_n_n.rhsIdx i ((ValueIdx.contrEquiv1 dot_S65536x133_S133x256_S65536x256_1_0_0_1_n_n 133 rfl rfl).symm k) = ridx_main_v0 i k := funext fun a => Fin.ext (by
    match a with
    | ⟨0, _⟩ => exact (rhs_main_v0_0 _ _).trans hk
    | ⟨1, _⟩ => exact rhs_main_v0_1 _ _)
  rw [el, er]

def val_main_v1 (x6 : (⟨S256, .f32⟩ : BufTy).Contents (Elt F)) : (⟨S1x256, .f32⟩ : BufTy).Contents (Elt F) :=
  broadcastInDim S1x256 ![1] bcast_S256_S1x256_1 (x6)
abbrev idx_main_v1 (i : S1x256.Idx) : S256.Idx := fun a => match a with
  | ⟨0, _⟩ => ⟨(i 1).val, (i 1).isLt⟩
theorem val_main_v1_apply (x6 : (⟨S256, .f32⟩ : BufTy).Contents (Elt F)) (i : S1x256.Idx) :
    val_main_v1 (F := F) x6 i = x6 (idx_main_v1 i) := by
  unfold val_main_v1
  exact broadcastInDim_apply _ bcast_S256_S1x256_1 x6 i (idx_main_v1 i) (fun a => match a with
    | ⟨0, _⟩ => by show (i 1).val = if (256 : Nat) = 1 then 0 else (i 1).val; rw [if_neg (by decide)])

def val_main_v2 (x6 : (⟨S256, .f32⟩ : BufTy).Contents (Elt F)) : (⟨S65536x256, .f32⟩ : BufTy).Contents (Elt F) :=
  broadcastInDim S65536x256 ![0, 1] bcast_S1x256_S65536x256_0_1 (val_main_v1 (F := F) x6)
abbrev idx_main_v2 (i : S65536x256.Idx) : S1x256.Idx := fun a => match a with
  | ⟨0, _⟩ => ⟨0, Nat.one_pos⟩
  | ⟨1, _⟩ => ⟨(i 1).val, (i 1).isLt⟩
theorem val_main_v2_apply (x6 : (⟨S256, .f32⟩ : BufTy).Contents (Elt F)) (i : S65536x256.Idx) :
    val_main_v2 (F := F) x6 i = val_main_v1 (F := F) x6 (idx_main_v2 i) := by
  unfold val_main_v2
  generalize val_main_v1 (F := F) x6 = y
  exact broadcastInDim_apply _ bcast_S1x256_S65536x256_0_1 y i (idx_main_v2 i) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)])

def val_main_v3 (x0 : (⟨S65536x133, .f32⟩ : BufTy).Contents (Elt F)) (x5 : (⟨S133x256, .f32⟩ : BufTy).Contents (Elt F)) (x6 : (⟨S256, .f32⟩ : BufTy).Contents (Elt F)) : (⟨S65536x256, .f32⟩ : BufTy).Contents (Elt F) :=
  addf (val_main_v0 (F := F) x0 x5) (val_main_v2 (F := F) x6)
theorem val_main_v3_apply (x0 : (⟨S65536x133, .f32⟩ : BufTy).Contents (Elt F)) (x5 : (⟨S133x256, .f32⟩ : BufTy).Contents (Elt F)) (x6 : (⟨S256, .f32⟩ : BufTy).Contents (Elt F)) (i : S65536x256.Idx) :
    val_main_v3 (F := F) x0 x5 x6 i = FloatOps.addf (val_main_v0 (F := F) x0 x5 i) (val_main_v2 (F := F) x6 i) := rfl

def val_main_call0_cst : (⟨S_, .f32⟩ : BufTy).Contents (Elt F) :=
  constant S_ .f32 0x00000000#32
def val_main_call0_v0 : (⟨S65536x256, .f32⟩ : BufTy).Contents (Elt F) :=
  broadcastInDim S65536x256 ![] bcast_S_S65536x256 (val_main_call0_cst (F := F))
def val_main_v4 (x0 : (⟨S65536x133, .f32⟩ : BufTy).Contents (Elt F)) (x5 : (⟨S133x256, .f32⟩ : BufTy).Contents (Elt F)) (x6 : (⟨S256, .f32⟩ : BufTy).Contents (Elt F)) : (⟨S65536x256, .f32⟩ : BufTy).Contents (Elt F) :=
  maximumf (val_main_v3 (F := F) x0 x5 x6) (val_main_call0_v0 (F := F))
def val_main_v5 (x1 : (⟨S131072x147, .f32⟩ : BufTy).Contents (Elt F)) : (⟨S131072x14, .f32⟩ : BufTy).Contents (Elt F) :=
  extractStridedSlice S131072x14 ![0, 133] (x1) slices_S131072x147_S131072x14_0_133
def val_main_c : (⟨S_, .i32⟩ : BufTy).Contents (Elt F) :=
  constantI S_ 32 0#32
def val_main_v6 : (⟨S65536x6, .i32⟩ : BufTy).Contents (Elt F) :=
  broadcastInDim S65536x6 ![] bcast_S_S65536x6 (val_main_c (F := F))
def val_main_v7 (x2 : (⟨S65536x6, .i32⟩ : BufTy).Contents (Elt F)) : (⟨S65536x6, .i1⟩ : BufTy).Contents (Elt F) :=
  cmpi .slt (x2) (val_main_v6 (F := F))
def val_main_c_0 : (⟨S_, .i32⟩ : BufTy).Contents (Elt F) :=
  constantI S_ 32 65536#32
def val_main_v8 : (⟨S65536x6, .i32⟩ : BufTy).Contents (Elt F) :=
  broadcastInDim S65536x6 ![] bcast_S_S65536x6 (val_main_c_0 (F := F))
def val_main_v9 (x2 : (⟨S65536x6, .i32⟩ : BufTy).Contents (Elt F)) : (⟨S65536x6, .i32⟩ : BufTy).Contents (Elt F) :=
  addi (x2) (val_main_v8 (F := F))
def val_main_v10 (x2 : (⟨S65536x6, .i32⟩ : BufTy).Contents (Elt F)) : (⟨S65536x6, .i32⟩ : BufTy).Contents (Elt F) :=
  select (val_main_v7 (F := F) x2) (val_main_v9 (F := F) x2) (x2)
def val_main_v11 (x2 : (⟨S65536x6, .i32⟩ : BufTy).Contents (Elt F)) : (⟨S65536x6x1, .i32⟩ : BufTy).Contents (Elt F) :=
  broadcastInDim S65536x6x1 ![0, 1] bcast_S65536x6_S65536x6x1_0_1 (val_main_v10 (F := F) x2)
def val_main_v12 (x0 : (⟨S65536x133, .f32⟩ : BufTy).Contents (Elt F)) (x2 : (⟨S65536x6, .i32⟩ : BufTy).Contents (Elt F)) (x5 : (⟨S133x256, .f32⟩ : BufTy).Contents (Elt F)) (x6 : (⟨S256, .f32⟩ : BufTy).Contents (Elt F)) : (⟨S65536x6x256, .f32⟩ : BufTy).Contents (Elt F) :=
  Host.gather gather_S65536x256_S65536x6x1_S65536x6x256_2_0_n_n_0_2_1256 (val_main_v4 (F := F) x0 x5 x6) (val_main_v11 (F := F) x2)

def val_main_cst : (⟨S_, .f32⟩ : BufTy).Contents (Elt F) :=
  constant S_ .f32 0x00000000#32
def val_main_v13 (x0 : (⟨S65536x133, .f32⟩ : BufTy).Contents (Elt F)) (x2 : (⟨S65536x6, .i32⟩ : BufTy).Contents (Elt F)) (x5 : (⟨S133x256, .f32⟩ : BufTy).Contents (Elt F)) (x6 : (⟨S256, .f32⟩ : BufTy).Contents (Elt F)) : (⟨S65536x256, .f32⟩ : BufTy).Contents (Elt F) :=
  Host.reduceAdd (val_main_v12 (F := F) x0 x2 x5 x6) (val_main_cst (F := F)) reducesTo_S65536x6x256_S65536x256_d1 h_S_
def val_main_c_1 : (⟨S_, .i32⟩ : BufTy).Contents (Elt F) :=
  constantI S_ 32 0#32
def val_main_v14 : (⟨S65536x6, .i32⟩ : BufTy).Contents (Elt F) :=
  broadcastInDim S65536x6 ![] bcast_S_S65536x6 (val_main_c_1 (F := F))
def val_main_v15 (x3 : (⟨S65536x6, .i32⟩ : BufTy).Contents (Elt F)) : (⟨S65536x6, .i1⟩ : BufTy).Contents (Elt F) :=
  cmpi .slt (x3) (val_main_v14 (F := F))
def val_main_c_2 : (⟨S_, .i32⟩ : BufTy).Contents (Elt F) :=
  constantI S_ 32 131072#32
def val_main_v16 : (⟨S65536x6, .i32⟩ : BufTy).Contents (Elt F) :=
  broadcastInDim S65536x6 ![] bcast_S_S65536x6 (val_main_c_2 (F := F))
def val_main_v17 (x3 : (⟨S65536x6, .i32⟩ : BufTy).Contents (Elt F)) : (⟨S65536x6, .i32⟩ : BufTy).Contents (Elt F) :=
  addi (x3) (val_main_v16 (F := F))
def val_main_v18 (x3 : (⟨S65536x6, .i32⟩ : BufTy).Contents (Elt F)) : (⟨S65536x6, .i32⟩ : BufTy).Contents (Elt F) :=
  select (val_main_v15 (F := F) x3) (val_main_v17 (F := F) x3) (x3)
def val_main_v19 (x3 : (⟨S65536x6, .i32⟩ : BufTy).Contents (Elt F)) : (⟨S65536x6x1, .i32⟩ : BufTy).Contents (Elt F) :=
  broadcastInDim S65536x6x1 ![0, 1] bcast_S65536x6_S65536x6x1_0_1 (val_main_v18 (F := F) x3)
def val_main_v20 (x1 : (⟨S131072x147, .f32⟩ : BufTy).Contents (Elt F)) (x3 : (⟨S65536x6, .i32⟩ : BufTy).Contents (Elt F)) : (⟨S65536x6x14, .f32⟩ : BufTy).Contents (Elt F) :=
  Host.gather gather_S131072x14_S65536x6x1_S65536x6x14_2_0_n_n_0_2_114 (val_main_v5 (F := F) x1) (val_main_v19 (F := F) x3)

def val_main_cst_3 : (⟨S_, .f32⟩ : BufTy).Contents (Elt F) :=
  constant S_ .f32 0x00000000#32
def val_main_v21 (x1 : (⟨S131072x147, .f32⟩ : BufTy).Contents (Elt F)) (x3 : (⟨S65536x6, .i32⟩ : BufTy).Contents (Elt F)) : (⟨S65536x14, .f32⟩ : BufTy).Contents (Elt F) :=
  Host.reduceAdd (val_main_v20 (F := F) x1 x3) (val_main_cst_3 (F := F)) reducesTo_S65536x6x14_S65536x14_d1 h_S_
def val_main_v22 (x0 : (⟨S65536x133, .f32⟩ : BufTy).Contents (Elt F)) (x1 : (⟨S131072x147, .f32⟩ : BufTy).Contents (Elt F)) (x2 x3 : (⟨S65536x6, .i32⟩ : BufTy).Contents (Elt F)) (x5 : (⟨S133x256, .f32⟩ : BufTy).Contents (Elt F)) (x6 : (⟨S256, .f32⟩ : BufTy).Contents (Elt F)) : (⟨S65536x270, .f32⟩ : BufTy).Contents (Elt F) :=
  concatenate S65536x270 1 [⟨S65536x256, (val_main_v13 (F := F) x0 x2 x5 x6)⟩, ⟨S65536x14, (val_main_v21 (F := F) x1 x3)⟩] concatenates_S65536x256_S65536x14_S65536x270_d1

def val_main_v23 (x0 : (⟨S65536x133, .f32⟩ : BufTy).Contents (Elt F)) (x1 : (⟨S131072x147, .f32⟩ : BufTy).Contents (Elt F)) (x2 x3 : (⟨S65536x6, .i32⟩ : BufTy).Contents (Elt F)) (x5 : (⟨S133x256, .f32⟩ : BufTy).Contents (Elt F)) (x6 : (⟨S256, .f32⟩ : BufTy).Contents (Elt F)) (x7 : (⟨S270x256, .f32⟩ : BufTy).Contents (Elt F)) : (⟨S65536x256, .f32⟩ : BufTy).Contents (Elt F) :=
  Host.dotGeneral dot_S65536x270_S270x256_S65536x256_1_0_0_1_n_n none (val_main_v22 (F := F) x0 x1 x2 x3 x5 x6) (x7)
theorem lhs_main_v23_0 (i : S65536x256.Idx) (q : dot_S65536x270_S270x256_S65536x256_1_0_0_1_n_n.contr.Idx) :
    (dot_S65536x270_S270x256_S65536x256_1_0_0_1_n_n.lhsIdx i q 0).val = (i 0).val := by
  unfold DotDims.lhsIdx
  rw [dif_neg (show ¬(0 : Fin S65536x270.rank) ∈ dot_S65536x270_S270x256_S65536x256_1_0_0_1_n_n.lhsBatch by decide), dif_pos (show (0 : Fin S65536x270.rank) ∈ dot_S65536x270_S270x256_S65536x256_1_0_0_1_n_n.lhsNonContracting by decide)]
  rfl
theorem lhs_main_v23_1 (i : S65536x256.Idx) (q : dot_S65536x270_S270x256_S65536x256_1_0_0_1_n_n.contr.Idx) :
    (dot_S65536x270_S270x256_S65536x256_1_0_0_1_n_n.lhsIdx i q 1).val = (q ⟨0, by decide⟩).val :=
  dot_S65536x270_S270x256_S65536x256_1_0_0_1_n_n.lhsIdx_val_of_single rfl i q
theorem rhs_main_v23_0 (i : S65536x256.Idx) (q : dot_S65536x270_S270x256_S65536x256_1_0_0_1_n_n.contr.Idx) :
    (dot_S65536x270_S270x256_S65536x256_1_0_0_1_n_n.rhsIdx i q 0).val = (q ⟨0, by decide⟩).val :=
  dot_S65536x270_S270x256_S65536x256_1_0_0_1_n_n.rhsIdx_val_of_single rfl i q
theorem rhs_main_v23_1 (i : S65536x256.Idx) (q : dot_S65536x270_S270x256_S65536x256_1_0_0_1_n_n.contr.Idx) :
    (dot_S65536x270_S270x256_S65536x256_1_0_0_1_n_n.rhsIdx i q 1).val = (i 1).val := by
  unfold DotDims.rhsIdx
  rw [dif_neg (show ¬(1 : Fin S270x256.rank) ∈ dot_S65536x270_S270x256_S65536x256_1_0_0_1_n_n.rhsBatch by decide), dif_pos (show (1 : Fin S270x256.rank) ∈ dot_S65536x270_S270x256_S65536x256_1_0_0_1_n_n.rhsNonContracting by decide)]
  rfl
def val_main_v24 (x8 : (⟨S256, .f32⟩ : BufTy).Contents (Elt F)) : (⟨S1x256, .f32⟩ : BufTy).Contents (Elt F) :=
  broadcastInDim S1x256 ![1] bcast_S256_S1x256_1 (x8)
def val_main_v25 (x8 : (⟨S256, .f32⟩ : BufTy).Contents (Elt F)) : (⟨S65536x256, .f32⟩ : BufTy).Contents (Elt F) :=
  broadcastInDim S65536x256 ![0, 1] bcast_S1x256_S65536x256_0_1 (val_main_v24 (F := F) x8)
def val_main_v26 (x0 : (⟨S65536x133, .f32⟩ : BufTy).Contents (Elt F)) (x1 : (⟨S131072x147, .f32⟩ : BufTy).Contents (Elt F)) (x2 x3 : (⟨S65536x6, .i32⟩ : BufTy).Contents (Elt F)) (x5 : (⟨S133x256, .f32⟩ : BufTy).Contents (Elt F)) (x6 : (⟨S256, .f32⟩ : BufTy).Contents (Elt F)) (x7 : (⟨S270x256, .f32⟩ : BufTy).Contents (Elt F)) (x8 : (⟨S256, .f32⟩ : BufTy).Contents (Elt F)) : (⟨S65536x256, .f32⟩ : BufTy).Contents (Elt F) :=
  addf (val_main_v23 (F := F) x0 x1 x2 x3 x5 x6 x7) (val_main_v25 (F := F) x8)
def val_main_v27 (x0 : (⟨S65536x133, .f32⟩ : BufTy).Contents (Elt F)) (x1 : (⟨S131072x147, .f32⟩ : BufTy).Contents (Elt F)) (x2 x3 : (⟨S65536x6, .i32⟩ : BufTy).Contents (Elt F)) (x5 : (⟨S133x256, .f32⟩ : BufTy).Contents (Elt F)) (x6 : (⟨S256, .f32⟩ : BufTy).Contents (Elt F)) (x7 : (⟨S270x256, .f32⟩ : BufTy).Contents (Elt F)) (x8 : (⟨S256, .f32⟩ : BufTy).Contents (Elt F)) : (⟨S65536x256, .f32⟩ : BufTy).Contents (Elt F) :=
  addf (val_main_v3 (F := F) x0 x5 x6) (val_main_v26 (F := F) x0 x1 x2 x3 x5 x6 x7 x8)
def val_main_call1_cst : (⟨S_, .f32⟩ : BufTy).Contents (Elt F) :=
  constant S_ .f32 0x00000000#32
def val_main_call1_v0 : (⟨S65536x256, .f32⟩ : BufTy).Contents (Elt F) :=
  broadcastInDim S65536x256 ![] bcast_S_S65536x256 (val_main_call1_cst (F := F))
def val_main_v28 (x0 : (⟨S65536x133, .f32⟩ : BufTy).Contents (Elt F)) (x1 : (⟨S131072x147, .f32⟩ : BufTy).Contents (Elt F)) (x2 x3 : (⟨S65536x6, .i32⟩ : BufTy).Contents (Elt F)) (x5 : (⟨S133x256, .f32⟩ : BufTy).Contents (Elt F)) (x6 : (⟨S256, .f32⟩ : BufTy).Contents (Elt F)) (x7 : (⟨S270x256, .f32⟩ : BufTy).Contents (Elt F)) (x8 : (⟨S256, .f32⟩ : BufTy).Contents (Elt F)) : (⟨S65536x256, .f32⟩ : BufTy).Contents (Elt F) :=
  maximumf (val_main_v27 (F := F) x0 x1 x2 x3 x5 x6 x7 x8) (val_main_call1_v0 (F := F))
def val_main_c_4 : (⟨S_, .i32⟩ : BufTy).Contents (Elt F) :=
  constantI S_ 32 0#32
def val_main_v29 : (⟨S65536x6, .i32⟩ : BufTy).Contents (Elt F) :=
  broadcastInDim S65536x6 ![] bcast_S_S65536x6 (val_main_c_4 (F := F))
def val_main_v30 (x2 : (⟨S65536x6, .i32⟩ : BufTy).Contents (Elt F)) : (⟨S65536x6, .i1⟩ : BufTy).Contents (Elt F) :=
  cmpi .slt (x2) (val_main_v29 (F := F))
def val_main_c_5 : (⟨S_, .i32⟩ : BufTy).Contents (Elt F) :=
  constantI S_ 32 65536#32
def val_main_v31 : (⟨S65536x6, .i32⟩ : BufTy).Contents (Elt F) :=
  broadcastInDim S65536x6 ![] bcast_S_S65536x6 (val_main_c_5 (F := F))
def val_main_v32 (x2 : (⟨S65536x6, .i32⟩ : BufTy).Contents (Elt F)) : (⟨S65536x6, .i32⟩ : BufTy).Contents (Elt F) :=
  addi (x2) (val_main_v31 (F := F))
def val_main_v33 (x2 : (⟨S65536x6, .i32⟩ : BufTy).Contents (Elt F)) : (⟨S65536x6, .i32⟩ : BufTy).Contents (Elt F) :=
  select (val_main_v30 (F := F) x2) (val_main_v32 (F := F) x2) (x2)
def val_main_v34 (x2 : (⟨S65536x6, .i32⟩ : BufTy).Contents (Elt F)) : (⟨S65536x6x1, .i32⟩ : BufTy).Contents (Elt F) :=
  broadcastInDim S65536x6x1 ![0, 1] bcast_S65536x6_S65536x6x1_0_1 (val_main_v33 (F := F) x2)
def val_main_v35 (x0 : (⟨S65536x133, .f32⟩ : BufTy).Contents (Elt F)) (x1 : (⟨S131072x147, .f32⟩ : BufTy).Contents (Elt F)) (x2 x3 : (⟨S65536x6, .i32⟩ : BufTy).Contents (Elt F)) (x5 : (⟨S133x256, .f32⟩ : BufTy).Contents (Elt F)) (x6 : (⟨S256, .f32⟩ : BufTy).Contents (Elt F)) (x7 : (⟨S270x256, .f32⟩ : BufTy).Contents (Elt F)) (x8 : (⟨S256, .f32⟩ : BufTy).Contents (Elt F)) : (⟨S65536x6x256, .f32⟩ : BufTy).Contents (Elt F) :=
  Host.gather gather_S65536x256_S65536x6x1_S65536x6x256_2_0_n_n_0_2_1256 (val_main_v28 (F := F) x0 x1 x2 x3 x5 x6 x7 x8) (val_main_v34 (F := F) x2)

def val_main_cst_6 : (⟨S_, .f32⟩ : BufTy).Contents (Elt F) :=
  constant S_ .f32 0x00000000#32
def val_main_v36 (x0 : (⟨S65536x133, .f32⟩ : BufTy).Contents (Elt F)) (x1 : (⟨S131072x147, .f32⟩ : BufTy).Contents (Elt F)) (x2 x3 : (⟨S65536x6, .i32⟩ : BufTy).Contents (Elt F)) (x5 : (⟨S133x256, .f32⟩ : BufTy).Contents (Elt F)) (x6 : (⟨S256, .f32⟩ : BufTy).Contents (Elt F)) (x7 : (⟨S270x256, .f32⟩ : BufTy).Contents (Elt F)) (x8 : (⟨S256, .f32⟩ : BufTy).Contents (Elt F)) : (⟨S65536x256, .f32⟩ : BufTy).Contents (Elt F) :=
  Host.reduceAdd (val_main_v35 (F := F) x0 x1 x2 x3 x5 x6 x7 x8) (val_main_cst_6 (F := F)) reducesTo_S65536x6x256_S65536x256_d1 h_S_
def val_main_c_7 : (⟨S_, .i32⟩ : BufTy).Contents (Elt F) :=
  constantI S_ 32 0#32
def val_main_v37 : (⟨S65536x6, .i32⟩ : BufTy).Contents (Elt F) :=
  broadcastInDim S65536x6 ![] bcast_S_S65536x6 (val_main_c_7 (F := F))
def val_main_v38 (x3 : (⟨S65536x6, .i32⟩ : BufTy).Contents (Elt F)) : (⟨S65536x6, .i1⟩ : BufTy).Contents (Elt F) :=
  cmpi .slt (x3) (val_main_v37 (F := F))
def val_main_c_8 : (⟨S_, .i32⟩ : BufTy).Contents (Elt F) :=
  constantI S_ 32 131072#32
def val_main_v39 : (⟨S65536x6, .i32⟩ : BufTy).Contents (Elt F) :=
  broadcastInDim S65536x6 ![] bcast_S_S65536x6 (val_main_c_8 (F := F))
def val_main_v40 (x3 : (⟨S65536x6, .i32⟩ : BufTy).Contents (Elt F)) : (⟨S65536x6, .i32⟩ : BufTy).Contents (Elt F) :=
  addi (x3) (val_main_v39 (F := F))
def val_main_v41 (x3 : (⟨S65536x6, .i32⟩ : BufTy).Contents (Elt F)) : (⟨S65536x6, .i32⟩ : BufTy).Contents (Elt F) :=
  select (val_main_v38 (F := F) x3) (val_main_v40 (F := F) x3) (x3)
def val_main_v42 (x3 : (⟨S65536x6, .i32⟩ : BufTy).Contents (Elt F)) : (⟨S65536x6x1, .i32⟩ : BufTy).Contents (Elt F) :=
  broadcastInDim S65536x6x1 ![0, 1] bcast_S65536x6_S65536x6x1_0_1 (val_main_v41 (F := F) x3)
def val_main_v43 (x1 : (⟨S131072x147, .f32⟩ : BufTy).Contents (Elt F)) (x3 : (⟨S65536x6, .i32⟩ : BufTy).Contents (Elt F)) : (⟨S65536x6x14, .f32⟩ : BufTy).Contents (Elt F) :=
  Host.gather gather_S131072x14_S65536x6x1_S65536x6x14_2_0_n_n_0_2_114 (val_main_v5 (F := F) x1) (val_main_v42 (F := F) x3)

def val_main_cst_9 : (⟨S_, .f32⟩ : BufTy).Contents (Elt F) :=
  constant S_ .f32 0x00000000#32
def val_main_v44 (x1 : (⟨S131072x147, .f32⟩ : BufTy).Contents (Elt F)) (x3 : (⟨S65536x6, .i32⟩ : BufTy).Contents (Elt F)) : (⟨S65536x14, .f32⟩ : BufTy).Contents (Elt F) :=
  Host.reduceAdd (val_main_v43 (F := F) x1 x3) (val_main_cst_9 (F := F)) reducesTo_S65536x6x14_S65536x14_d1 h_S_
def val_main_v45 (x0 : (⟨S65536x133, .f32⟩ : BufTy).Contents (Elt F)) (x1 : (⟨S131072x147, .f32⟩ : BufTy).Contents (Elt F)) (x2 x3 : (⟨S65536x6, .i32⟩ : BufTy).Contents (Elt F)) (x5 : (⟨S133x256, .f32⟩ : BufTy).Contents (Elt F)) (x6 : (⟨S256, .f32⟩ : BufTy).Contents (Elt F)) (x7 : (⟨S270x256, .f32⟩ : BufTy).Contents (Elt F)) (x8 : (⟨S256, .f32⟩ : BufTy).Contents (Elt F)) : (⟨S65536x270, .f32⟩ : BufTy).Contents (Elt F) :=
  concatenate S65536x270 1 [⟨S65536x256, (val_main_v36 (F := F) x0 x1 x2 x3 x5 x6 x7 x8)⟩, ⟨S65536x14, (val_main_v44 (F := F) x1 x3)⟩] concatenates_S65536x256_S65536x14_S65536x270_d1

def val_main_v46 (x0 : (⟨S65536x133, .f32⟩ : BufTy).Contents (Elt F)) (x1 : (⟨S131072x147, .f32⟩ : BufTy).Contents (Elt F)) (x2 x3 : (⟨S65536x6, .i32⟩ : BufTy).Contents (Elt F)) (x5 : (⟨S133x256, .f32⟩ : BufTy).Contents (Elt F)) (x6 : (⟨S256, .f32⟩ : BufTy).Contents (Elt F)) (x7 : (⟨S270x256, .f32⟩ : BufTy).Contents (Elt F)) (x8 : (⟨S256, .f32⟩ : BufTy).Contents (Elt F)) : (⟨S65536x256, .f32⟩ : BufTy).Contents (Elt F) :=
  Host.dotGeneral dot_S65536x270_S270x256_S65536x256_1_0_0_1_n_n none (val_main_v45 (F := F) x0 x1 x2 x3 x5 x6 x7 x8) (x7)
def val_main_v47 (x8 : (⟨S256, .f32⟩ : BufTy).Contents (Elt F)) : (⟨S1x256, .f32⟩ : BufTy).Contents (Elt F) :=
  broadcastInDim S1x256 ![1] bcast_S256_S1x256_1 (x8)
def val_main_v48 (x8 : (⟨S256, .f32⟩ : BufTy).Contents (Elt F)) : (⟨S65536x256, .f32⟩ : BufTy).Contents (Elt F) :=
  broadcastInDim S65536x256 ![0, 1] bcast_S1x256_S65536x256_0_1 (val_main_v47 (F := F) x8)
def val_main_v49 (x0 : (⟨S65536x133, .f32⟩ : BufTy).Contents (Elt F)) (x1 : (⟨S131072x147, .f32⟩ : BufTy).Contents (Elt F)) (x2 x3 : (⟨S65536x6, .i32⟩ : BufTy).Contents (Elt F)) (x5 : (⟨S133x256, .f32⟩ : BufTy).Contents (Elt F)) (x6 : (⟨S256, .f32⟩ : BufTy).Contents (Elt F)) (x7 : (⟨S270x256, .f32⟩ : BufTy).Contents (Elt F)) (x8 : (⟨S256, .f32⟩ : BufTy).Contents (Elt F)) : (⟨S65536x256, .f32⟩ : BufTy).Contents (Elt F) :=
  addf (val_main_v46 (F := F) x0 x1 x2 x3 x5 x6 x7 x8) (val_main_v48 (F := F) x8)
def val_main_v50 (x0 : (⟨S65536x133, .f32⟩ : BufTy).Contents (Elt F)) (x1 : (⟨S131072x147, .f32⟩ : BufTy).Contents (Elt F)) (x2 x3 : (⟨S65536x6, .i32⟩ : BufTy).Contents (Elt F)) (x5 : (⟨S133x256, .f32⟩ : BufTy).Contents (Elt F)) (x6 : (⟨S256, .f32⟩ : BufTy).Contents (Elt F)) (x7 : (⟨S270x256, .f32⟩ : BufTy).Contents (Elt F)) (x8 : (⟨S256, .f32⟩ : BufTy).Contents (Elt F)) : (⟨S65536x256, .f32⟩ : BufTy).Contents (Elt F) :=
  addf (val_main_v3 (F := F) x0 x5 x6) (val_main_v49 (F := F) x0 x1 x2 x3 x5 x6 x7 x8)
def val_main_call2_cst : (⟨S_, .f32⟩ : BufTy).Contents (Elt F) :=
  constant S_ .f32 0x00000000#32
def val_main_call2_v0 : (⟨S65536x256, .f32⟩ : BufTy).Contents (Elt F) :=
  broadcastInDim S65536x256 ![] bcast_S_S65536x256 (val_main_call2_cst (F := F))
def val_main_v51 (x0 : (⟨S65536x133, .f32⟩ : BufTy).Contents (Elt F)) (x1 : (⟨S131072x147, .f32⟩ : BufTy).Contents (Elt F)) (x2 x3 : (⟨S65536x6, .i32⟩ : BufTy).Contents (Elt F)) (x5 : (⟨S133x256, .f32⟩ : BufTy).Contents (Elt F)) (x6 : (⟨S256, .f32⟩ : BufTy).Contents (Elt F)) (x7 : (⟨S270x256, .f32⟩ : BufTy).Contents (Elt F)) (x8 : (⟨S256, .f32⟩ : BufTy).Contents (Elt F)) : (⟨S65536x256, .f32⟩ : BufTy).Contents (Elt F) :=
  maximumf (val_main_v50 (F := F) x0 x1 x2 x3 x5 x6 x7 x8) (val_main_call2_v0 (F := F))
def val_main_c_10 : (⟨S_, .i32⟩ : BufTy).Contents (Elt F) :=
  constantI S_ 32 0#32
def val_main_v52 : (⟨S65536x6, .i32⟩ : BufTy).Contents (Elt F) :=
  broadcastInDim S65536x6 ![] bcast_S_S65536x6 (val_main_c_10 (F := F))
def val_main_v53 (x2 : (⟨S65536x6, .i32⟩ : BufTy).Contents (Elt F)) : (⟨S65536x6, .i1⟩ : BufTy).Contents (Elt F) :=
  cmpi .slt (x2) (val_main_v52 (F := F))
def val_main_c_11 : (⟨S_, .i32⟩ : BufTy).Contents (Elt F) :=
  constantI S_ 32 65536#32
def val_main_v54 : (⟨S65536x6, .i32⟩ : BufTy).Contents (Elt F) :=
  broadcastInDim S65536x6 ![] bcast_S_S65536x6 (val_main_c_11 (F := F))
def val_main_v55 (x2 : (⟨S65536x6, .i32⟩ : BufTy).Contents (Elt F)) : (⟨S65536x6, .i32⟩ : BufTy).Contents (Elt F) :=
  addi (x2) (val_main_v54 (F := F))
def val_main_v56 (x2 : (⟨S65536x6, .i32⟩ : BufTy).Contents (Elt F)) : (⟨S65536x6, .i32⟩ : BufTy).Contents (Elt F) :=
  select (val_main_v53 (F := F) x2) (val_main_v55 (F := F) x2) (x2)
def val_main_v57 (x2 : (⟨S65536x6, .i32⟩ : BufTy).Contents (Elt F)) : (⟨S65536x6x1, .i32⟩ : BufTy).Contents (Elt F) :=
  broadcastInDim S65536x6x1 ![0, 1] bcast_S65536x6_S65536x6x1_0_1 (val_main_v56 (F := F) x2)
def val_main_v58 (x0 : (⟨S65536x133, .f32⟩ : BufTy).Contents (Elt F)) (x1 : (⟨S131072x147, .f32⟩ : BufTy).Contents (Elt F)) (x2 x3 : (⟨S65536x6, .i32⟩ : BufTy).Contents (Elt F)) (x5 : (⟨S133x256, .f32⟩ : BufTy).Contents (Elt F)) (x6 : (⟨S256, .f32⟩ : BufTy).Contents (Elt F)) (x7 : (⟨S270x256, .f32⟩ : BufTy).Contents (Elt F)) (x8 : (⟨S256, .f32⟩ : BufTy).Contents (Elt F)) : (⟨S65536x6x256, .f32⟩ : BufTy).Contents (Elt F) :=
  Host.gather gather_S65536x256_S65536x6x1_S65536x6x256_2_0_n_n_0_2_1256 (val_main_v51 (F := F) x0 x1 x2 x3 x5 x6 x7 x8) (val_main_v57 (F := F) x2)

def val_main_cst_12 : (⟨S_, .f32⟩ : BufTy).Contents (Elt F) :=
  constant S_ .f32 0x00000000#32
def val_main_v59 (x0 : (⟨S65536x133, .f32⟩ : BufTy).Contents (Elt F)) (x1 : (⟨S131072x147, .f32⟩ : BufTy).Contents (Elt F)) (x2 x3 : (⟨S65536x6, .i32⟩ : BufTy).Contents (Elt F)) (x5 : (⟨S133x256, .f32⟩ : BufTy).Contents (Elt F)) (x6 : (⟨S256, .f32⟩ : BufTy).Contents (Elt F)) (x7 : (⟨S270x256, .f32⟩ : BufTy).Contents (Elt F)) (x8 : (⟨S256, .f32⟩ : BufTy).Contents (Elt F)) : (⟨S65536x256, .f32⟩ : BufTy).Contents (Elt F) :=
  Host.reduceAdd (val_main_v58 (F := F) x0 x1 x2 x3 x5 x6 x7 x8) (val_main_cst_12 (F := F)) reducesTo_S65536x6x256_S65536x256_d1 h_S_
def val_main_v60 (x0 : (⟨S65536x133, .f32⟩ : BufTy).Contents (Elt F)) (x1 : (⟨S131072x147, .f32⟩ : BufTy).Contents (Elt F)) (x2 x3 : (⟨S65536x6, .i32⟩ : BufTy).Contents (Elt F)) (x5 : (⟨S133x256, .f32⟩ : BufTy).Contents (Elt F)) (x6 : (⟨S256, .f32⟩ : BufTy).Contents (Elt F)) (x7 : (⟨S270x256, .f32⟩ : BufTy).Contents (Elt F)) (x8 : (⟨S256, .f32⟩ : BufTy).Contents (Elt F)) : (⟨S65536x389, .f32⟩ : BufTy).Contents (Elt F) :=
  concatenate S65536x389 1 [⟨S65536x133, (x0)⟩, ⟨S65536x256, (val_main_v59 (F := F) x0 x1 x2 x3 x5 x6 x7 x8)⟩] concatenates_S65536x133_S65536x256_S65536x389_d1

def val_main_v61 (x0 : (⟨S65536x133, .f32⟩ : BufTy).Contents (Elt F)) (x1 : (⟨S131072x147, .f32⟩ : BufTy).Contents (Elt F)) (x2 x3 : (⟨S65536x6, .i32⟩ : BufTy).Contents (Elt F)) (x5 : (⟨S133x256, .f32⟩ : BufTy).Contents (Elt F)) (x6 : (⟨S256, .f32⟩ : BufTy).Contents (Elt F)) (x7 : (⟨S270x256, .f32⟩ : BufTy).Contents (Elt F)) (x8 : (⟨S256, .f32⟩ : BufTy).Contents (Elt F)) (x9 : (⟨S389x256, .f32⟩ : BufTy).Contents (Elt F)) : (⟨S65536x256, .f32⟩ : BufTy).Contents (Elt F) :=
  Host.dotGeneral dot_S65536x389_S389x256_S65536x256_1_0_0_1_n_n none (val_main_v60 (F := F) x0 x1 x2 x3 x5 x6 x7 x8) (x9)
theorem lhs_main_v61_0 (i : S65536x256.Idx) (q : dot_S65536x389_S389x256_S65536x256_1_0_0_1_n_n.contr.Idx) :
    (dot_S65536x389_S389x256_S65536x256_1_0_0_1_n_n.lhsIdx i q 0).val = (i 0).val := by
  unfold DotDims.lhsIdx
  rw [dif_neg (show ¬(0 : Fin S65536x389.rank) ∈ dot_S65536x389_S389x256_S65536x256_1_0_0_1_n_n.lhsBatch by decide), dif_pos (show (0 : Fin S65536x389.rank) ∈ dot_S65536x389_S389x256_S65536x256_1_0_0_1_n_n.lhsNonContracting by decide)]
  rfl
theorem lhs_main_v61_1 (i : S65536x256.Idx) (q : dot_S65536x389_S389x256_S65536x256_1_0_0_1_n_n.contr.Idx) :
    (dot_S65536x389_S389x256_S65536x256_1_0_0_1_n_n.lhsIdx i q 1).val = (q ⟨0, by decide⟩).val :=
  dot_S65536x389_S389x256_S65536x256_1_0_0_1_n_n.lhsIdx_val_of_single rfl i q
theorem rhs_main_v61_0 (i : S65536x256.Idx) (q : dot_S65536x389_S389x256_S65536x256_1_0_0_1_n_n.contr.Idx) :
    (dot_S65536x389_S389x256_S65536x256_1_0_0_1_n_n.rhsIdx i q 0).val = (q ⟨0, by decide⟩).val :=
  dot_S65536x389_S389x256_S65536x256_1_0_0_1_n_n.rhsIdx_val_of_single rfl i q
theorem rhs_main_v61_1 (i : S65536x256.Idx) (q : dot_S65536x389_S389x256_S65536x256_1_0_0_1_n_n.contr.Idx) :
    (dot_S65536x389_S389x256_S65536x256_1_0_0_1_n_n.rhsIdx i q 1).val = (i 1).val := by
  unfold DotDims.rhsIdx
  rw [dif_neg (show ¬(1 : Fin S389x256.rank) ∈ dot_S65536x389_S389x256_S65536x256_1_0_0_1_n_n.rhsBatch by decide), dif_pos (show (1 : Fin S389x256.rank) ∈ dot_S65536x389_S389x256_S65536x256_1_0_0_1_n_n.rhsNonContracting by decide)]
  rfl
def val_main_v62 (x10 : (⟨S256, .f32⟩ : BufTy).Contents (Elt F)) : (⟨S1x256, .f32⟩ : BufTy).Contents (Elt F) :=
  broadcastInDim S1x256 ![1] bcast_S256_S1x256_1 (x10)
def val_main_v63 (x10 : (⟨S256, .f32⟩ : BufTy).Contents (Elt F)) : (⟨S65536x256, .f32⟩ : BufTy).Contents (Elt F) :=
  broadcastInDim S65536x256 ![0, 1] bcast_S1x256_S65536x256_0_1 (val_main_v62 (F := F) x10)
def val_main_v64 (x0 : (⟨S65536x133, .f32⟩ : BufTy).Contents (Elt F)) (x1 : (⟨S131072x147, .f32⟩ : BufTy).Contents (Elt F)) (x2 x3 : (⟨S65536x6, .i32⟩ : BufTy).Contents (Elt F)) (x5 : (⟨S133x256, .f32⟩ : BufTy).Contents (Elt F)) (x6 : (⟨S256, .f32⟩ : BufTy).Contents (Elt F)) (x7 : (⟨S270x256, .f32⟩ : BufTy).Contents (Elt F)) (x8 : (⟨S256, .f32⟩ : BufTy).Contents (Elt F)) (x9 : (⟨S389x256, .f32⟩ : BufTy).Contents (Elt F)) (x10 : (⟨S256, .f32⟩ : BufTy).Contents (Elt F)) : (⟨S65536x256, .f32⟩ : BufTy).Contents (Elt F) :=
  addf (val_main_v61 (F := F) x0 x1 x2 x3 x5 x6 x7 x8 x9) (val_main_v63 (F := F) x10)
def val_main_call3_cst : (⟨S_, .f32⟩ : BufTy).Contents (Elt F) :=
  constant S_ .f32 0x00000000#32
def val_main_call3_v0 : (⟨S65536x256, .f32⟩ : BufTy).Contents (Elt F) :=
  broadcastInDim S65536x256 ![] bcast_S_S65536x256 (val_main_call3_cst (F := F))
def val_main_v65 (x0 : (⟨S65536x133, .f32⟩ : BufTy).Contents (Elt F)) (x1 : (⟨S131072x147, .f32⟩ : BufTy).Contents (Elt F)) (x2 x3 : (⟨S65536x6, .i32⟩ : BufTy).Contents (Elt F)) (x5 : (⟨S133x256, .f32⟩ : BufTy).Contents (Elt F)) (x6 : (⟨S256, .f32⟩ : BufTy).Contents (Elt F)) (x7 : (⟨S270x256, .f32⟩ : BufTy).Contents (Elt F)) (x8 : (⟨S256, .f32⟩ : BufTy).Contents (Elt F)) (x9 : (⟨S389x256, .f32⟩ : BufTy).Contents (Elt F)) (x10 : (⟨S256, .f32⟩ : BufTy).Contents (Elt F)) : (⟨S65536x256, .f32⟩ : BufTy).Contents (Elt F) :=
  maximumf (val_main_v64 (F := F) x0 x1 x2 x3 x5 x6 x7 x8 x9 x10) (val_main_call3_v0 (F := F))
def val_main_cst_13 : (⟨S_, .f32⟩ : BufTy).Contents (Elt F) :=
  constant S_ .f32 0x00000000#32
def val_main_v66 : (⟨S2048x256, .f32⟩ : BufTy).Contents (Elt F) :=
  broadcastInDim S2048x256 ![] bcast_S_S2048x256 (val_main_cst_13 (F := F))
def val_main_v67 (x4 : (⟨S65536, .i32⟩ : BufTy).Contents (Elt F)) : (⟨S65536x1, .i32⟩ : BufTy).Contents (Elt F) :=
  broadcastInDim S65536x1 ![0] bcast_S65536_S65536x1_0 (x4)
def val_main_v68 (x0 : (⟨S65536x133, .f32⟩ : BufTy).Contents (Elt F)) (x1 : (⟨S131072x147, .f32⟩ : BufTy).Contents (Elt F)) (x2 x3 : (⟨S65536x6, .i32⟩ : BufTy).Contents (Elt F)) (x4 : (⟨S65536, .i32⟩ : BufTy).Contents (Elt F)) (x5 : (⟨S133x256, .f32⟩ : BufTy).Contents (Elt F)) (x6 : (⟨S256, .f32⟩ : BufTy).Contents (Elt F)) (x7 : (⟨S270x256, .f32⟩ : BufTy).Contents (Elt F)) (x8 : (⟨S256, .f32⟩ : BufTy).Contents (Elt F)) (x9 : (⟨S389x256, .f32⟩ : BufTy).Contents (Elt F)) (x10 : (⟨S256, .f32⟩ : BufTy).Contents (Elt F)) : (⟨S2048x256, .f32⟩ : BufTy).Contents (Elt F) :=
  Host.scatterAdd scatter_S2048x256_S65536x1_S65536x256_1_0_0_1 (val_main_v66 (F := F)) (val_main_v67 (F := F) x4) (val_main_v65 (F := F) x0 x1 x2 x3 x5 x6 x7 x8 x9 x10)

def val_main_cst_14 : (⟨S_, .f32⟩ : BufTy).Contents (Elt F) :=
  constant S_ .f32 0x3F800000#32
def val_main_v69 : (⟨S65536, .f32⟩ : BufTy).Contents (Elt F) :=
  broadcastInDim S65536 ![] bcast_S_S65536 (val_main_cst_14 (F := F))
def val_main_cst_15 : (⟨S_, .f32⟩ : BufTy).Contents (Elt F) :=
  constant S_ .f32 0x00000000#32
def val_main_v70 : (⟨S2048, .f32⟩ : BufTy).Contents (Elt F) :=
  broadcastInDim S2048 ![] bcast_S_S2048 (val_main_cst_15 (F := F))
def val_main_v71 (x4 : (⟨S65536, .i32⟩ : BufTy).Contents (Elt F)) : (⟨S65536x1, .i32⟩ : BufTy).Contents (Elt F) :=
  broadcastInDim S65536x1 ![0] bcast_S65536_S65536x1_0 (x4)
def val_main_v72 (x4 : (⟨S65536, .i32⟩ : BufTy).Contents (Elt F)) : (⟨S2048, .f32⟩ : BufTy).Contents (Elt F) :=
  Host.scatterAdd scatter_S2048_S65536x1_S65536_n_0_0_1 (val_main_v70 (F := F)) (val_main_v71 (F := F) x4) (val_main_v69 (F := F))

def val_main_v73 (x4 : (⟨S65536, .i32⟩ : BufTy).Contents (Elt F)) : (⟨S2048x1, .f32⟩ : BufTy).Contents (Elt F) :=
  broadcastInDim S2048x1 ![0] bcast_S2048_S2048x1_0 (val_main_v72 (F := F) x4)
def val_main_cst_16 : (⟨S_, .f32⟩ : BufTy).Contents (Elt F) :=
  constant S_ .f32 0x00000000#32
def val_main_v74 : (⟨S2048x1, .f32⟩ : BufTy).Contents (Elt F) :=
  broadcastInDim S2048x1 ![] bcast_S_S2048x1 (val_main_cst_16 (F := F))
def val_main_v75 (x4 : (⟨S65536, .i32⟩ : BufTy).Contents (Elt F)) : (⟨S2048x1, .i1⟩ : BufTy).Contents (Elt F) :=
  cmpf .ogt (val_main_v73 (F := F) x4) (val_main_v74 (F := F))
def val_main_cst_17 : (⟨S_, .f32⟩ : BufTy).Contents (Elt F) :=
  constant S_ .f32 0x3F800000#32
def val_main_v76 : (⟨S2048, .f32⟩ : BufTy).Contents (Elt F) :=
  broadcastInDim S2048 ![] bcast_S_S2048 (val_main_cst_17 (F := F))
def val_main_v77 (x4 : (⟨S65536, .i32⟩ : BufTy).Contents (Elt F)) : (⟨S2048, .f32⟩ : BufTy).Contents (Elt F) :=
  maximumf (val_main_v72 (F := F) x4) (val_main_v76 (F := F))
def val_main_v78 (x4 : (⟨S65536, .i32⟩ : BufTy).Contents (Elt F)) : (⟨S2048x1, .f32⟩ : BufTy).Contents (Elt F) :=
  broadcastInDim S2048x1 ![0] bcast_S2048_S2048x1_0 (val_main_v77 (F := F) x4)
def val_main_v79 (x4 : (⟨S65536, .i32⟩ : BufTy).Contents (Elt F)) : (⟨S2048x256, .f32⟩ : BufTy).Contents (Elt F) :=
  broadcastInDim S2048x256 ![0, 1] bcast_S2048x1_S2048x256_0_1 (val_main_v78 (F := F) x4)
def val_main_v80 (x0 : (⟨S65536x133, .f32⟩ : BufTy).Contents (Elt F)) (x1 : (⟨S131072x147, .f32⟩ : BufTy).Contents (Elt F)) (x2 x3 : (⟨S65536x6, .i32⟩ : BufTy).Contents (Elt F)) (x4 : (⟨S65536, .i32⟩ : BufTy).Contents (Elt F)) (x5 : (⟨S133x256, .f32⟩ : BufTy).Contents (Elt F)) (x6 : (⟨S256, .f32⟩ : BufTy).Contents (Elt F)) (x7 : (⟨S270x256, .f32⟩ : BufTy).Contents (Elt F)) (x8 : (⟨S256, .f32⟩ : BufTy).Contents (Elt F)) (x9 : (⟨S389x256, .f32⟩ : BufTy).Contents (Elt F)) (x10 : (⟨S256, .f32⟩ : BufTy).Contents (Elt F)) : (⟨S2048x256, .f32⟩ : BufTy).Contents (Elt F) :=
  Host.divf (val_main_v68 (F := F) x0 x1 x2 x3 x4 x5 x6 x7 x8 x9 x10) (val_main_v79 (F := F) x4)
def val_main_cst_18 : (⟨S_, .f32⟩ : BufTy).Contents (Elt F) :=
  constant S_ .f32 0x00000000#32
def val_main_call4_v0 : (⟨S_, .f32⟩ : BufTy).Contents (Elt F) :=
  id (val_main_cst_18 (F := F))
def val_main_call4_v1 (x4 : (⟨S65536, .i32⟩ : BufTy).Contents (Elt F)) : (⟨S2048x256, .i1⟩ : BufTy).Contents (Elt F) :=
  broadcastInDim S2048x256 ![0, 1] bcast_S2048x1_S2048x256_0_1 (val_main_v75 (F := F) x4)
def val_main_call4_v2 : (⟨S2048x256, .f32⟩ : BufTy).Contents (Elt F) :=
  broadcastInDim S2048x256 ![] bcast_S_S2048x256 (val_main_call4_v0 (F := F))
def val_main_v81 (x0 : (⟨S65536x133, .f32⟩ : BufTy).Contents (Elt F)) (x1 : (⟨S131072x147, .f32⟩ : BufTy).Contents (Elt F)) (x2 x3 : (⟨S65536x6, .i32⟩ : BufTy).Contents (Elt F)) (x4 : (⟨S65536, .i32⟩ : BufTy).Contents (Elt F)) (x5 : (⟨S133x256, .f32⟩ : BufTy).Contents (Elt F)) (x6 : (⟨S256, .f32⟩ : BufTy).Contents (Elt F)) (x7 : (⟨S270x256, .f32⟩ : BufTy).Contents (Elt F)) (x8 : (⟨S256, .f32⟩ : BufTy).Contents (Elt F)) (x9 : (⟨S389x256, .f32⟩ : BufTy).Contents (Elt F)) (x10 : (⟨S256, .f32⟩ : BufTy).Contents (Elt F)) : (⟨S2048x256, .f32⟩ : BufTy).Contents (Elt F) :=
  select (val_main_call4_v1 (F := F) x4) (val_main_v80 (F := F) x0 x1 x2 x3 x4 x5 x6 x7 x8 x9 x10) (val_main_call4_v2 (F := F))

theorem val_main_v81_eq (m : (ℓ : Loc nD τ sig) → Buf (Elt F) ℓ) (c : Dev nD) :
    Cert.ReferenceIdeal.ValueP.res_main_v81 m c = val_main_v81 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold Cert.ReferenceIdeal.ValueP.res_main_v81; rfl

end Cert.ReferenceIdeal.ReadP

end
-- ==== Proof.LibRows.lean ====
import Idealize.ShloMosaic.Lib.ValueIdx
import Idealize.ShloMosaic.Lib.Pipeline.Value
import Idealize.ShloMosaic.PureOps.Ideal.Laws

noncomputable section

open scoped BigOperators

namespace Idealize.ShloMosaic.ValueIdx

open Idealize.ShloMosaic

abbrev rowScatterDims (N E C : ℕ)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

private theorem rowScatter_resultIdx {N E C w : ℕ}
    (wf : ScatterDims.WF ⟨2, ![N, C]⟩ ⟨2, ![E, 1]⟩ ⟨2, ![E, C]⟩ [1] [0] [0] 1)
    (idx : IVec ⟨2, ![E, 1]⟩ w) (e : Fin E) (c' : Fin C) (n : Fin N) (c : Fin C) :
    (rowScatterDims N E C wf).resultIdx? (ix2 e c') idx = some (ix2 n c)
      ↔ (idx (ix2 e (0 : Fin 1))).toInt = (n.val : ℤ) ∧ c' = c := by
  have hs0 : (rowScatterDims N E C wf).start (ix2 e c') idx (0 : Fin 2) = (idx (ix2 e (0 : Fin 1))).toInt := by
    unfold ScatterDims.start
    rw [dif_pos (show (0 : Fin 2) ∈ (rowScatterDims N E C wf).scatterDimsToOperandDims from List.mem_singleton.mpr rfl)]
    have hsi : (rowScatterDims N E C wf).siIdx (ix2 e c') ⟨List.idxOf (0 : Fin 2) (rowScatterDims N E C wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (rowScatterDims N E C wf).start (ix2 e c') idx (1 : Fin 2) = 0 := by
    unfold ScatterDims.start
    rw [dif_neg (show (1 : Fin 2) ∉ (rowScatterDims N E C wf).scatterDimsToOperandDims by simp)]
  have hk : (rowScatterDims N E C wf).sKept = [(1 : Fin 2)] := rfl
  have hw0 : (rowScatterDims N E C wf).window (ix2 e c') (0 : Fin 2) = 0 := by
    unfold ScatterDims.window
    rw [dif_neg (show (0 : Fin 2) ∉ (rowScatterDims N E C wf).sKept by rw [hk]; simp)]
  have hw1 : (rowScatterDims N E C wf).window (ix2 e c') (1 : Fin 2) = c'.val := by
    unfold ScatterDims.window
    rw [dif_pos (show (1 : Fin 2) ∈ (rowScatterDims N E C wf).sKept from by rw [hk]; exact List.mem_singleton.mpr rfl)]
    have hi : List.idxOf (1 : Fin 2) (rowScatterDims N E C wf).sKept = 0 := by rw [hk]; exact List.idxOf_cons_self
    simp only [hi]
    rfl
  constructor
  · intro h
    unfold ScatterDims.resultIdx? at h
    split at h
    · rename_i hb
      have h' := Option.some.inj h
      have h0 : ((rowScatterDims N E C wf).start (ix2 e c') idx (0 : Fin 2) + ((rowScatterDims N E C wf).window (ix2 e c') (0 : Fin 2) : ℤ)).toNat = n.val :=
        congrArg (fun f : (⟨2, ![N, C]⟩ : Shape).Idx => (f 0).val) h'
      have h1 : ((rowScatterDims N E C wf).start (ix2 e c') idx (1 : Fin 2) + ((rowScatterDims N E C wf).window (ix2 e c') (1 : Fin 2) : ℤ)).toNat = c.val :=
        congrArg (fun f : (⟨2, ![N, C]⟩ : Shape).Idx => (f 1).val) h'
      have hb0 := (hb 0).1
      have hb1 := (hb 1).1
      rw [hs0, hw0] at h0 hb0
      rw [hs1, hw1] at h1 hb1
      exact ⟨by omega, Fin.ext (by omega)⟩
    · exact absurd h (by simp)
  · rintro ⟨hrow, rfl⟩
    unfold ScatterDims.resultIdx?
    have hb : ∀ a : Fin 2, 0 ≤ (rowScatterDims N E C wf).start (ix2 e c') idx a + ((rowScatterDims N E C wf).window (ix2 e c') a : ℤ)
        ∧ (rowScatterDims N E C wf).start (ix2 e c') idx a + ((rowScatterDims N E C wf).window (ix2 e c') a : ℤ) < ((⟨2, ![N, C]⟩ : Shape).size a : ℤ) := by
      intro a
      match a with
      | ⟨0, _⟩ =>
        show 0 ≤ (rowScatterDims N E C wf).start (ix2 e c') idx (0 : Fin 2) + ((rowScatterDims N E C wf).window (ix2 e c') (0 : Fin 2) : ℤ)
          ∧ (rowScatterDims N E C wf).start (ix2 e c') idx (0 : Fin 2) + ((rowScatterDims N E C wf).window (ix2 e c') (0 : Fin 2) : ℤ) < (N : ℤ)
        rw [hs0, hw0, hrow]
        have := n.isLt
        omega
      | ⟨1, _⟩ =>
        show 0 ≤ (rowScatterDims N E C wf).start (ix2 e c') idx (1 : Fin 2) + ((rowScatterDims N E C wf).window (ix2 e c') (1 : Fin 2) : ℤ)
          ∧ (rowScatterDims N E C wf).start (ix2 e c') idx (1 : Fin 2) + ((rowScatterDims N E C wf).window (ix2 e c') (1 : Fin 2) : ℤ) < (C : ℤ)
        rw [hs1, hw1]
        have := c'.isLt
        omega
    rw [dif_pos hb]
    congr 1
    funext a
    refine Fin.ext ?_
    match a with
    | ⟨0, _⟩ =>
      show ((rowScatterDims N E C wf).start (ix2 e c') idx (0 : Fin 2) + ((rowScatterDims N E C wf).window (ix2 e c') (0 : Fin 2) : ℤ)).toNat = n.val
      rw [hs0, hw0, hrow]
      omega
    | ⟨1, _⟩ =>
      show ((rowScatterDims N E C wf).start (ix2 e c') idx (1 : Fin 2) + ((rowScatterDims N E C wf).window (ix2 e c') (1 : Fin 2) : ℤ)).toNat = c'.val
      rw [hs1, hw1]
      omega

theorem rowScatterAdd_apply {N E C w : ℕ}
    (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w) (upd : FVec Ideal ⟨2, ![E, C]⟩ .f32)
    (n : Fin N) (c : Fin C) :
    Host.scatterAdd (F := Ideal) (rowScatterDims N E C wf) x idx upd (ix2 n c)
      = x (ix2 n c) + ∑ e ∈ Finset.univ.filter (fun e : Fin E => (idx (ix2 e (0 : Fin 1))).toInt = (n.val : ℤ)),
          upd (ix2 e c) := by
  show Ideal.hostScatterAdd (rowScatterDims N E C wf) x idx upd (ix2 n c) = _
  unfold Ideal.hostScatterAdd
  congr 1
  rw [Finset.sum_filter, sum_idx2, Finset.sum_filter]
  refine Finset.sum_congr rfl fun e _ => ?_
  simp only [rowScatter_resultIdx]
  by_cases hrow : (idx (ix2 e (0 : Fin 1))).toInt = (n.val : ℤ)
  · simp only [hrow, true_and, if_true]
    rw [Finset.sum_ite_eq' Finset.univ c (fun c' => upd (ix2 e c'))]
    simp only [Finset.mem_univ, if_true]
  · simp only [hrow, false_and, if_false, Finset.sum_const_zero]

end Idealize.ShloMosaic.ValueIdx

end
-- ==== Proof.RefVal.lean ====
import proofs.«431103_j25254407701135_3_alg».proof.Proof.RefReadP
import proofs.«431103_j25254407701135_3_alg».proof.Proof.Spec
import proofs.«431103_j25254407701135_3_alg».proof.Proof.LibRows
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.ReferenceIdeal.RefVal

open Cert.ReferenceIdeal Cert.ReferenceIdeal.Gen Cert.ReferenceIdeal.ReadP Idealize.ShloMosaic Idealize.ShloMosaic.TcCoe Idealize.ShloMosaic.ValueIdx Idealize.ShloMosaic.StableHlo
open scoped BigOperators

variable {F : FTy → Type} [FloatOps F]

section Layout
variable {α : Type}

theorem bias_apply (x : S256.Idx → α) (r : Fin 65536) (j : Fin 256) :
    broadcastInDim S65536x256 ![0, 1] bcast_S1x256_S65536x256_0_1 (broadcastInDim S1x256 ![1] bcast_S256_S1x256_1 x) (ix2 r j)
      = x (ix1 j) := by
  rw [broadcastInDim_apply _ bcast_S1x256_S65536x256_0_1 _ (ix2 r j) (ix2 (0 : Fin 1) j) (fun a => match a with
    | ⟨0, _⟩ => by show 0 = if (1 : Nat) = 1 then 0 else r.val; rw [if_pos rfl]
    | ⟨1, _⟩ => by show j.val = if (256 : Nat) = 1 then 0 else j.val; rw [if_neg (by decide)])]
  exact broadcastInDim_apply _ bcast_S256_S1x256_1 x (ix2 (0 : Fin 1) j) (ix1 j) (fun a => match a with
    | ⟨0, _⟩ => by show j.val = if (256 : Nat) = 1 then 0 else j.val; rw [if_neg (by decide)])

theorem col_apply (y : S2048.Idx → α) (s : Fin 2048) :
    broadcastInDim S2048x1 ![0] bcast_S2048_S2048x1_0 y (ix2 s (0 : Fin 1)) = y (ix1 s) :=
  broadcastInDim_apply _ bcast_S2048_S2048x1_0 y (ix2 s (0 : Fin 1)) (ix1 s) (fun a => match a with
    | ⟨0, _⟩ => by show s.val = if (2048 : Nat) = 1 then 0 else s.val; rw [if_neg (by decide)])

theorem wide_apply (y : S2048x1.Idx → α) (s : Fin 2048) (j : Fin 256) :
    broadcastInDim S2048x256 ![0, 1] bcast_S2048x1_S2048x256_0_1 y (ix2 s j) = y (ix2 s (0 : Fin 1)) :=
  broadcastInDim_apply _ bcast_S2048x1_S2048x256_0_1 y (ix2 s j) (ix2 s (0 : Fin 1)) (fun a => match a with
    | ⟨0, _⟩ => by show s.val = if (2048 : Nat) = 1 then 0 else s.val; rw [if_neg (by decide)]
    | ⟨1, _⟩ => by show 0 = if (1 : Nat) = 1 then 0 else j.val; rw [if_pos rfl])

theorem segcol_apply (y : S65536.Idx → α) (e : Fin 65536) :
    broadcastInDim S65536x1 ![0] bcast_S65536_S65536x1_0 y (ix2 e (0 : Fin 1)) = y (ix1 e) :=
  broadcastInDim_apply _ bcast_S65536_S65536x1_0 y (ix2 e (0 : Fin 1)) (ix1 e) (fun a => match a with
    | ⟨0, _⟩ => by show e.val = if (65536 : Nat) = 1 then 0 else e.val; rw [if_neg (by decide)])

end Layout

set_option maxHeartbeats 400000 in

theorem ref_inp (x0 : (⟨S65536x133, .f32⟩ : BufTy).Contents (Elt Ideal)) (x5 : (⟨S133x256, .f32⟩ : BufTy).Contents (Elt Ideal)) (x6 : (⟨S256, .f32⟩ : BufTy).Contents (Elt Ideal))
    (r : Fin 65536) (j : Fin 256) :
    val_main_v3 (F := Ideal) x0 x5 x6 (ix2 r j) = Cert.Spec.rowDot x0 x5 r j + x6 (ix1 j) := by
  rw [val_main_v3_apply, val_main_v0_apply, val_main_v2_apply, val_main_v1_apply]
  have el : ∀ k : Fin 133, lidx_main_v0 (ix2 r j) k = ix2 r k := fun k => funext fun a => Fin.ext (by
    match a with
    | ⟨0, _⟩ => rfl
    | ⟨1, _⟩ => rfl)
  have er : ∀ k : Fin 133, ridx_main_v0 (ix2 r j) k = ix2 k j := fun k => funext fun a => Fin.ext (by
    match a with
    | ⟨0, _⟩ => rfl
    | ⟨1, _⟩ => rfl)
  have eb : idx_main_v1 (idx_main_v2 (ix2 r j)) = ix1 j := funext fun a => Fin.ext (by
    match a with
    | ⟨0, _⟩ => rfl)
  simp only [el, er, eb, Ideal.addf_def]
  rfl

def stRelu (x : (⟨S65536x256, .f32⟩ : BufTy).Contents (Elt F)) : (⟨S65536x256, .f32⟩ : BufTy).Contents (Elt F) :=
  maximumf x (broadcastInDim S65536x256 ![] bcast_S_S65536x256 (constant S_ .f32 0x00000000#32))

set_option maxHeartbeats 400000 in
theorem ref_relu (x : (⟨S65536x256, .f32⟩ : BufTy).Contents (Elt Ideal)) (r : Fin 65536) (j : Fin 256) :
    stRelu (F := Ideal) x (ix2 r j) = max (x (ix2 r j)) 0 := by
  have h0 : broadcastInDim S65536x256 ![] bcast_S_S65536x256 (constant (F := Ideal) S_ .f32 0x00000000#32) (ix2 r j) = (0 : EReal) := by
    rw [broadcastInDim_scalar_apply]; exact Ideal.ofBits_zero_f32
  exact congrArg (max (x (ix2 r j))) h0

theorem cat270_left (a : (⟨S65536x256, .f32⟩ : BufTy).Contents (Elt Ideal)) (b : (⟨S65536x14, .f32⟩ : BufTy).Contents (Elt Ideal))
    (r : Fin 65536) (k : Fin 256) (k' : Fin 270) (hk : k'.val = k.val) :
    concatenate S65536x270 1 [⟨S65536x256, a⟩, ⟨S65536x14, b⟩] concatenates_S65536x256_S65536x14_S65536x270_d1 (ix2 r k') = a (ix2 r k) :=
  concatenate_pair_apply_left 1 a b _ (ix2 r k') rfl (ix2 r k) (fun c => match c with
    | ⟨0, _⟩ => rfl
    | ⟨1, _⟩ => hk.symm)

theorem cat270_right (a : (⟨S65536x256, .f32⟩ : BufTy).Contents (Elt Ideal)) (b : (⟨S65536x14, .f32⟩ : BufTy).Contents (Elt Ideal))
    (r : Fin 65536) (q : Fin 14) (k' : Fin 270) (hk : k'.val = 256 + q.val) :
    concatenate S65536x270 1 [⟨S65536x256, a⟩, ⟨S65536x14, b⟩] concatenates_S65536x256_S65536x14_S65536x270_d1 (ix2 r k') = b (ix2 r q) :=
  concatenate_pair_apply_right 1 a b _ (ix2 r k') rfl rfl (ix2 r q) (fun c => match c with
    | ⟨0, _⟩ => fun _ => rfl
    | ⟨1, _⟩ => fun h => absurd rfl h) (by show q.val + 256 = k'.val; omega)

set_option maxHeartbeats 400000 in

theorem dot270_apply (y : (⟨S65536x270, .f32⟩ : BufTy).Contents (Elt Ideal)) (w : (⟨S270x256, .f32⟩ : BufTy).Contents (Elt Ideal))
    (r : Fin 65536) (j : Fin 256) :
    Host.dotGeneral (F := Ideal) (φ₁ := .f32) (φ₂ := .f32) dot_S65536x270_S270x256_S65536x256_1_0_0_1_n_n none y w (ix2 r j)
      = ∑ k : Fin 270, y (ix2 r k) * w (ix2 k j) := by
  simp only [Host.dotGeneral]
  rw [Ideal.dotGeneral_apply, ← Equiv.sum_comp (ValueIdx.contrEquiv1 dot_S65536x270_S270x256_S65536x256_1_0_0_1_n_n 270 rfl rfl).symm]
  refine Finset.sum_congr rfl fun k _ => ?_
  have hk := ValueIdx.contrEquiv1_symm_val dot_S65536x270_S270x256_S65536x256_1_0_0_1_n_n 270 rfl rfl k
  have el : dot_S65536x270_S270x256_S65536x256_1_0_0_1_n_n.lhsIdx (ix2 r j) ((ValueIdx.contrEquiv1 dot_S65536x270_S270x256_S65536x256_1_0_0_1_n_n 270 rfl rfl).symm k) = ix2 r k := funext fun a => Fin.ext (by
    match a with
    | ⟨0, _⟩ => exact lhs_main_v23_0 _ _
    | ⟨1, _⟩ => exact (lhs_main_v23_1 _ _).trans hk)
  have er : dot_S65536x270_S270x256_S65536x256_1_0_0_1_n_n.rhsIdx (ix2 r j) ((ValueIdx.contrEquiv1 dot_S65536x270_S270x256_S65536x256_1_0_0_1_n_n 270 rfl rfl).symm k) = ix2 k j := funext fun a => Fin.ext (by
    match a with
    | ⟨0, _⟩ => exact (rhs_main_v23_0 _ _).trans hk
    | ⟨1, _⟩ => exact rhs_main_v23_1 _ _)
  rw [el, er]

def stCat270 (a : (⟨S65536x256, .f32⟩ : BufTy).Contents (Elt F)) (b : (⟨S65536x14, .f32⟩ : BufTy).Contents (Elt F))
    (w : (⟨S270x256, .f32⟩ : BufTy).Contents (Elt F)) : (⟨S65536x256, .f32⟩ : BufTy).Contents (Elt F) :=
  Host.dotGeneral dot_S65536x270_S270x256_S65536x256_1_0_0_1_n_n none (concatenate S65536x270 1 [⟨S65536x256, a⟩, ⟨S65536x14, b⟩] concatenates_S65536x256_S65536x14_S65536x270_d1) w

set_option maxHeartbeats 400000 in

theorem ref_cat270 (a : (⟨S65536x256, .f32⟩ : BufTy).Contents (Elt Ideal)) (b : (⟨S65536x14, .f32⟩ : BufTy).Contents (Elt Ideal))
    (w : (⟨S270x256, .f32⟩ : BufTy).Contents (Elt Ideal)) (r : Fin 65536) (j : Fin 256) :
    stCat270 (F := Ideal) a b w (ix2 r j)
      = (∑ k : Fin 256, a (ix2 r k) * w (ix2 (⟨k.val, by have := k.isLt; omega⟩ : Fin 270) j))
        + ∑ q : Fin 14, b (ix2 r q) * w (ix2 (⟨256 + q.val, by have := q.isLt; omega⟩ : Fin 270) j) := by
  unfold stCat270
  rw [dot270_apply]
  refine (Fin.sum_univ_add (a := 256) (b := 14) _).trans ?_
  refine congrArg₂ (· + ·) (Finset.sum_congr rfl fun k _ => ?_) (Finset.sum_congr rfl fun q _ => ?_)
  · exact congrArg (· * _) (cat270_left a b r k _ rfl)
  · exact congrArg (· * _) (cat270_right a b r q _ rfl)

theorem cat389_left (a : (⟨S65536x133, .f32⟩ : BufTy).Contents (Elt Ideal)) (b : (⟨S65536x256, .f32⟩ : BufTy).Contents (Elt Ideal))
    (r : Fin 65536) (k : Fin 133) (k' : Fin 389) (hk : k'.val = k.val) :
    concatenate S65536x389 1 [⟨S65536x133, a⟩, ⟨S65536x256, b⟩] concatenates_S65536x133_S65536x256_S65536x389_d1 (ix2 r k') = a (ix2 r k) :=
  concatenate_pair_apply_left 1 a b _ (ix2 r k') rfl (ix2 r k) (fun c => match c with
    | ⟨0, _⟩ => rfl
    | ⟨1, _⟩ => hk.symm)

theorem cat389_right (a : (⟨S65536x133, .f32⟩ : BufTy).Contents (Elt Ideal)) (b : (⟨S65536x256, .f32⟩ : BufTy).Contents (Elt Ideal))
    (r : Fin 65536) (q : Fin 256) (k' : Fin 389) (hk : k'.val = 133 + q.val) :
    concatenate S65536x389 1 [⟨S65536x133, a⟩, ⟨S65536x256, b⟩] concatenates_S65536x133_S65536x256_S65536x389_d1 (ix2 r k') = b (ix2 r q) :=
  concatenate_pair_apply_right 1 a b _ (ix2 r k') rfl rfl (ix2 r q) (fun c => match c with
    | ⟨0, _⟩ => fun _ => rfl
    | ⟨1, _⟩ => fun h => absurd rfl h) (by show q.val + 133 = k'.val; omega)

set_option maxHeartbeats 400000 in

theorem dot389_apply (y : (⟨S65536x389, .f32⟩ : BufTy).Contents (Elt Ideal)) (w : (⟨S389x256, .f32⟩ : BufTy).Contents (Elt Ideal))
    (r : Fin 65536) (j : Fin 256) :
    Host.dotGeneral (F := Ideal) (φ₁ := .f32) (φ₂ := .f32) dot_S65536x389_S389x256_S65536x256_1_0_0_1_n_n none y w (ix2 r j)
      = ∑ k : Fin 389, y (ix2 r k) * w (ix2 k j) := by
  simp only [Host.dotGeneral]
  rw [Ideal.dotGeneral_apply, ← Equiv.sum_comp (ValueIdx.contrEquiv1 dot_S65536x389_S389x256_S65536x256_1_0_0_1_n_n 389 rfl rfl).symm]
  refine Finset.sum_congr rfl fun k _ => ?_
  have hk := ValueIdx.contrEquiv1_symm_val dot_S65536x389_S389x256_S65536x256_1_0_0_1_n_n 389 rfl rfl k
  have el : dot_S65536x389_S389x256_S65536x256_1_0_0_1_n_n.lhsIdx (ix2 r j) ((ValueIdx.contrEquiv1 dot_S65536x389_S389x256_S65536x256_1_0_0_1_n_n 389 rfl rfl).symm k) = ix2 r k := funext fun a => Fin.ext (by
    match a with
    | ⟨0, _⟩ => exact lhs_main_v61_0 _ _
    | ⟨1, _⟩ => exact (lhs_main_v61_1 _ _).trans hk)
  have er : dot_S65536x389_S389x256_S65536x256_1_0_0_1_n_n.rhsIdx (ix2 r j) ((ValueIdx.contrEquiv1 dot_S65536x389_S389x256_S65536x256_1_0_0_1_n_n 389 rfl rfl).symm k) = ix2 k j := funext fun a => Fin.ext (by
    match a with
    | ⟨0, _⟩ => exact (rhs_main_v61_0 _ _).trans hk
    | ⟨1, _⟩ => exact rhs_main_v61_1 _ _)
  rw [el, er]

def stCat389 (a : (⟨S65536x133, .f32⟩ : BufTy).Contents (Elt F)) (b : (⟨S65536x256, .f32⟩ : BufTy).Contents (Elt F))
    (w : (⟨S389x256, .f32⟩ : BufTy).Contents (Elt F)) : (⟨S65536x256, .f32⟩ : BufTy).Contents (Elt F) :=
  Host.dotGeneral dot_S65536x389_S389x256_S65536x256_1_0_0_1_n_n none (concatenate S65536x389 1 [⟨S65536x133, a⟩, ⟨S65536x256, b⟩] concatenates_S65536x133_S65536x256_S65536x389_d1) w

set_option maxHeartbeats 400000 in

theorem ref_cat389 (a : (⟨S65536x133, .f32⟩ : BufTy).Contents (Elt Ideal)) (b : (⟨S65536x256, .f32⟩ : BufTy).Contents (Elt Ideal))
    (w : (⟨S389x256, .f32⟩ : BufTy).Contents (Elt Ideal)) (r : Fin 65536) (j : Fin 256) :
    stCat389 (F := Ideal) a b w (ix2 r j)
      = (∑ k : Fin 133, a (ix2 r k) * w (ix2 (⟨k.val, by have := k.isLt; omega⟩ : Fin 389) j))
        + ∑ q : Fin 256, b (ix2 r q) * w (ix2 (⟨133 + q.val, by have := q.isLt; omega⟩ : Fin 389) j) := by
  unfold stCat389
  rw [dot389_apply]
  refine (Fin.sum_univ_add (a := 133) (b := 256) _).trans ?_
  refine congrArg₂ (· + ·) (Finset.sum_congr rfl fun k _ => ?_) (Finset.sum_congr rfl fun q _ => ?_)
  · exact congrArg (· * _) (cat389_left a b r k _ rfl)
  · exact congrArg (· * _) (cat389_right a b r q _ rfl)

def stStep (x3 x23 : (⟨S65536x256, .f32⟩ : BufTy).Contents (Elt F)) (x8 : (⟨S256, .f32⟩ : BufTy).Contents (Elt F)) : (⟨S65536x256, .f32⟩ : BufTy).Contents (Elt F) :=
  addf x3 (addf x23 (broadcastInDim S65536x256 ![0, 1] bcast_S1x256_S65536x256_0_1 (broadcastInDim S1x256 ![1] bcast_S256_S1x256_1 x8)))

theorem ref_step (x3 x23 : (⟨S65536x256, .f32⟩ : BufTy).Contents (Elt Ideal)) (x8 : (⟨S256, .f32⟩ : BufTy).Contents (Elt Ideal)) (r : Fin 65536) (j : Fin 256) :
    stStep (F := Ideal) x3 x23 x8 (ix2 r j) = x3 (ix2 r j) + (x23 (ix2 r j) + x8 (ix1 j)) :=
  congrArg (fun t => x3 (ix2 r j) + (x23 (ix2 r j) + t)) (bias_apply x8 r j)

def stBias (x61 : (⟨S65536x256, .f32⟩ : BufTy).Contents (Elt F)) (x10 : (⟨S256, .f32⟩ : BufTy).Contents (Elt F)) : (⟨S65536x256, .f32⟩ : BufTy).Contents (Elt F) :=
  addf x61 (broadcastInDim S65536x256 ![0, 1] bcast_S1x256_S65536x256_0_1 (broadcastInDim S1x256 ![1] bcast_S256_S1x256_1 x10))

theorem ref_bias (x61 : (⟨S65536x256, .f32⟩ : BufTy).Contents (Elt Ideal)) (x10 : (⟨S256, .f32⟩ : BufTy).Contents (Elt Ideal)) (r : Fin 65536) (j : Fin 256) :
    stBias (F := Ideal) x61 x10 (ix2 r j) = x61 (ix2 r j) + x10 (ix1 j) :=
  congrArg (fun t => x61 (ix2 r j) + t) (bias_apply x10 r j)

def stScatter (seg : (⟨S65536, .i32⟩ : BufTy).Contents (Elt F)) (u : (⟨S65536x256, .f32⟩ : BufTy).Contents (Elt F)) : (⟨S2048x256, .f32⟩ : BufTy).Contents (Elt F) :=
  Host.scatterAdd scatter_S2048x256_S65536x1_S65536x256_1_0_0_1
    (broadcastInDim S2048x256 ![] bcast_S_S2048x256 (constant S_ .f32 0x00000000#32))
    (broadcastInDim S65536x1 ![0] bcast_S65536_S65536x1_0 seg) u

set_option maxHeartbeats 400000 in

theorem ref_scatter (u : (⟨S65536x256, .f32⟩ : BufTy).Contents (Elt Ideal)) (seg : (⟨S65536, .i32⟩ : BufTy).Contents (Elt Ideal)) (s : Fin 2048) (j : Fin 256) :
    stScatter (F := Ideal) seg u (ix2 s j)
      = ∑ e ∈ Finset.univ.filter (fun e : Fin 65536 => (seg (ix1 e)).toInt = (s.val : ℤ)), u (ix2 e j) := by
  unfold stScatter
  refine (rowScatterAdd_apply scatter_S2048x256_S65536x1_S65536x256_1_0_0_1_wf _ _ u s j).trans ?_
  have hz : broadcastInDim S2048x256 ![] bcast_S_S2048x256 (constant (F := Ideal) S_ .f32 0x00000000#32) (ix2 s j) = (0 : EReal) := by
    rw [broadcastInDim_scalar_apply]; exact Ideal.ofBits_zero_f32
  rw [hz, zero_add]
  refine Finset.sum_congr (Finset.filter_congr fun e _ => ?_) fun _ _ => rfl
  exact iff_of_eq (congrArg (fun t : BitVec 32 => t.toInt = (s.val : ℤ)) (segcol_apply seg e))

def stFinal (sums : (⟨S2048x256, .f32⟩ : BufTy).Contents (Elt F)) (cnt : (⟨S2048, .f32⟩ : BufTy).Contents (Elt F)) : (⟨S2048x256, .f32⟩ : BufTy).Contents (Elt F) :=
  select (broadcastInDim S2048x256 ![0, 1] bcast_S2048x1_S2048x256_0_1
      (cmpf (F := F) .ogt (broadcastInDim S2048x1 ![0] bcast_S2048_S2048x1_0 cnt)
        (broadcastInDim S2048x1 ![] bcast_S_S2048x1 (constant S_ .f32 0x00000000#32))))
    (Host.divf sums (broadcastInDim S2048x256 ![0, 1] bcast_S2048x1_S2048x256_0_1
      (broadcastInDim S2048x1 ![0] bcast_S2048_S2048x1_0
        (maximumf cnt (broadcastInDim S2048 ![] bcast_S_S2048 (constant S_ .f32 0x3F800000#32))))))
    (broadcastInDim S2048x256 ![] bcast_S_S2048x256 (id (constant S_ .f32 0x00000000#32)))

set_option maxHeartbeats 400000 in
theorem ref_final (sums : (⟨S2048x256, .f32⟩ : BufTy).Contents (Elt Ideal)) (cnt : (⟨S2048, .f32⟩ : BufTy).Contents (Elt Ideal)) (s : Fin 2048) (j : Fin 256) :
    stFinal (F := Ideal) sums cnt (ix2 s j)
      = if Ideal.cmp .ogt (cnt (ix1 s)) 0 = 1#1 then Ideal.div (sums (ix2 s j)) (max (cnt (ix1 s)) 1) else 0 := by
  have hc : broadcastInDim S2048x256 ![0, 1] bcast_S2048x1_S2048x256_0_1
      (cmpf (F := Ideal) .ogt (broadcastInDim S2048x1 ![0] bcast_S2048_S2048x1_0 cnt)
        (broadcastInDim S2048x1 ![] bcast_S_S2048x1 (constant S_ .f32 0x00000000#32))) (ix2 s j)
      = Ideal.cmp .ogt (cnt (ix1 s)) 0 := by
    rw [wide_apply]
    show Ideal.cmp .ogt (broadcastInDim S2048x1 ![0] bcast_S2048_S2048x1_0 cnt (ix2 s (0 : Fin 1)))
      (broadcastInDim S2048x1 ![] bcast_S_S2048x1 (constant (F := Ideal) S_ .f32 0x00000000#32) (ix2 s (0 : Fin 1))) = _
    rw [col_apply, broadcastInDim_scalar_apply]
    exact congrArg (Ideal.cmp .ogt (cnt (ix1 s))) Ideal.ofBits_zero_f32
  have hd : broadcastInDim S2048x256 ![0, 1] bcast_S2048x1_S2048x256_0_1
      (broadcastInDim S2048x1 ![0] bcast_S2048_S2048x1_0
        (maximumf (F := Ideal) cnt (broadcastInDim S2048 ![] bcast_S_S2048 (constant S_ .f32 0x3F800000#32)))) (ix2 s j)
      = max (cnt (ix1 s)) 1 := by
    rw [wide_apply, col_apply]
    show max (cnt (ix1 s)) (broadcastInDim S2048 ![] bcast_S_S2048 (constant (F := Ideal) S_ .f32 0x3F800000#32) (ix1 s)) = _
    rw [broadcastInDim_scalar_apply]
    exact congrArg (max (cnt (ix1 s))) Ideal.ofBits_one_f32
  have hz : broadcastInDim S2048x256 ![] bcast_S_S2048x256 (id (constant (F := Ideal) S_ .f32 0x00000000#32)) (ix2 s j) = (0 : EReal) := by
    rw [broadcastInDim_scalar_apply]; exact Ideal.ofBits_zero_f32
  show Scalar.select _ (Ideal.div (sums (ix2 s j)) _) _ = _
  rw [hc, hd, hz]
  rfl

section Chain
variable (x0 : (⟨S65536x133, .f32⟩ : BufTy).Contents (Elt F)) (x1 : (⟨S131072x147, .f32⟩ : BufTy).Contents (Elt F)) (x2 x3 : (⟨S65536x6, .i32⟩ : BufTy).Contents (Elt F)) (x4 : (⟨S65536, .i32⟩ : BufTy).Contents (Elt F)) (x5 : (⟨S133x256, .f32⟩ : BufTy).Contents (Elt F)) (x6 : (⟨S256, .f32⟩ : BufTy).Contents (Elt F)) (x7 : (⟨S270x256, .f32⟩ : BufTy).Contents (Elt F)) (x8 : (⟨S256, .f32⟩ : BufTy).Contents (Elt F)) (x9 : (⟨S389x256, .f32⟩ : BufTy).Contents (Elt F)) (x10 : (⟨S256, .f32⟩ : BufTy).Contents (Elt F))

theorem chain_v4 : val_main_v4 (F := F) x0 x5 x6 = stRelu (val_main_v3 (F := F) x0 x5 x6) := rfl
theorem chain_v23 : val_main_v23 (F := F) x0 x1 x2 x3 x5 x6 x7
    = stCat270 (val_main_v13 (F := F) x0 x2 x5 x6) (val_main_v21 (F := F) x1 x3) x7 := rfl
theorem chain_v27 : val_main_v27 (F := F) x0 x1 x2 x3 x5 x6 x7 x8
    = stStep (val_main_v3 (F := F) x0 x5 x6) (val_main_v23 (F := F) x0 x1 x2 x3 x5 x6 x7) x8 := rfl
theorem chain_v28 : val_main_v28 (F := F) x0 x1 x2 x3 x5 x6 x7 x8 = stRelu (val_main_v27 (F := F) x0 x1 x2 x3 x5 x6 x7 x8) := rfl
theorem chain_v46 : val_main_v46 (F := F) x0 x1 x2 x3 x5 x6 x7 x8
    = stCat270 (val_main_v36 (F := F) x0 x1 x2 x3 x5 x6 x7 x8) (val_main_v21 (F := F) x1 x3) x7 := rfl
theorem chain_v50 : val_main_v50 (F := F) x0 x1 x2 x3 x5 x6 x7 x8
    = stStep (val_main_v3 (F := F) x0 x5 x6) (val_main_v46 (F := F) x0 x1 x2 x3 x5 x6 x7 x8) x8 := rfl
theorem chain_v51 : val_main_v51 (F := F) x0 x1 x2 x3 x5 x6 x7 x8 = stRelu (val_main_v50 (F := F) x0 x1 x2 x3 x5 x6 x7 x8) := rfl
theorem chain_v61 : val_main_v61 (F := F) x0 x1 x2 x3 x5 x6 x7 x8 x9
    = stCat389 x0 (val_main_v59 (F := F) x0 x1 x2 x3 x5 x6 x7 x8) x9 := rfl
theorem chain_v64 : val_main_v64 (F := F) x0 x1 x2 x3 x5 x6 x7 x8 x9 x10
    = stBias (val_main_v61 (F := F) x0 x1 x2 x3 x5 x6 x7 x8 x9) x10 := rfl
theorem chain_v65 : val_main_v65 (F := F) x0 x1 x2 x3 x5 x6 x7 x8 x9 x10
    = stRelu (val_main_v64 (F := F) x0 x1 x2 x3 x5 x6 x7 x8 x9 x10) := rfl
theorem chain_v68 : val_main_v68 (F := F) x0 x1 x2 x3 x4 x5 x6 x7 x8 x9 x10
    = stScatter x4 (val_main_v65 (F := F) x0 x1 x2 x3 x5 x6 x7 x8 x9 x10) := rfl
theorem chain_v81 : val_main_v81 (F := F) x0 x1 x2 x3 x4 x5 x6 x7 x8 x9 x10
    = stFinal (val_main_v68 (F := F) x0 x1 x2 x3 x4 x5 x6 x7 x8 x9 x10) (val_main_v72 (F := F) x4) := rfl

end Chain

end Cert.ReferenceIdeal.RefVal

end
-- ==== Proof.Chains.lean ====
import proofs.«431103_j25254407701135_3_alg».proof.Proof.HostK
import proofs.«431103_j25254407701135_3_alg».proof.Proof.RefReadP

set_option maxRecDepth 16384

noncomputable section

namespace Cert.Proof.Chains

open Idealize.ShloMosaic Idealize.ShloMosaic.TcCoe

section Ref

open Cert.ReferenceIdeal Cert.ReferenceIdeal.Gen Cert.ReferenceIdeal.ReadP

def nasR (msg : (⟨S65536x256, .f32⟩ : BufTy).Contents (Elt Ideal)) (a2a : (⟨S65536x6, .i32⟩ : BufTy).Contents (Elt Ideal)) : (⟨S65536x256, .f32⟩ : BufTy).Contents (Elt Ideal) :=
  Host.reduceAdd (F := Ideal)
    (Host.gather gather_S65536x256_S65536x6x1_S65536x6x256_2_0_n_n_0_2_1256 msg
      (broadcastInDim S65536x6x1 ![0, 1] bcast_S65536x6_S65536x6x1_0_1
        (select (cmpi .slt a2a (broadcastInDim S65536x6 ![] bcast_S_S65536x6 (constantI S_ 32 0#32)))
          (addi a2a (broadcastInDim S65536x6 ![] bcast_S_S65536x6 (constantI S_ 32 65536#32)))
          a2a)))
    (constant (F := Ideal) S_ .f32 0x00000000#32) reducesTo_S65536x6x256_S65536x256_d1 h_S_

set_option maxHeartbeats 400000 in

theorem v13_R (x0 : (⟨S65536x133, .f32⟩ : BufTy).Contents (Elt Ideal)) (x2 : (⟨S65536x6, .i32⟩ : BufTy).Contents (Elt Ideal)) (x5 : (⟨S133x256, .f32⟩ : BufTy).Contents (Elt Ideal)) (x6 : (⟨S256, .f32⟩ : BufTy).Contents (Elt Ideal)) :
    val_main_v13 (F := Ideal) x0 x2 x5 x6 = nasR (val_main_v4 (F := Ideal) x0 x5 x6) x2 := rfl

set_option maxHeartbeats 400000 in

theorem v36_R (x0 : (⟨S65536x133, .f32⟩ : BufTy).Contents (Elt Ideal)) (x1 : (⟨S131072x147, .f32⟩ : BufTy).Contents (Elt Ideal)) (x2 x3 : (⟨S65536x6, .i32⟩ : BufTy).Contents (Elt Ideal)) (x5 : (⟨S133x256, .f32⟩ : BufTy).Contents (Elt Ideal)) (x6 : (⟨S256, .f32⟩ : BufTy).Contents (Elt Ideal)) (x7 : (⟨S270x256, .f32⟩ : BufTy).Contents (Elt Ideal)) (x8 : (⟨S256, .f32⟩ : BufTy).Contents (Elt Ideal)) :
    val_main_v36 (F := Ideal) x0 x1 x2 x3 x5 x6 x7 x8 = nasR (val_main_v28 (F := Ideal) x0 x1 x2 x3 x5 x6 x7 x8) x2 := rfl

set_option maxHeartbeats 400000 in

theorem v59_R (x0 : (⟨S65536x133, .f32⟩ : BufTy).Contents (Elt Ideal)) (x1 : (⟨S131072x147, .f32⟩ : BufTy).Contents (Elt Ideal)) (x2 x3 : (⟨S65536x6, .i32⟩ : BufTy).Contents (Elt Ideal)) (x5 : (⟨S133x256, .f32⟩ : BufTy).Contents (Elt Ideal)) (x6 : (⟨S256, .f32⟩ : BufTy).Contents (Elt Ideal)) (x7 : (⟨S270x256, .f32⟩ : BufTy).Contents (Elt Ideal)) (x8 : (⟨S256, .f32⟩ : BufTy).Contents (Elt Ideal)) :
    val_main_v59 (F := Ideal) x0 x1 x2 x3 x5 x6 x7 x8 = nasR (val_main_v51 (F := Ideal) x0 x1 x2 x3 x5 x6 x7 x8) x2 := rfl

end Ref

set_option maxHeartbeats 400000 in

theorem nas_K_R (msg : Cert.KernelIdeal.S65536x256.Idx → EReal) (a2a : (⟨Cert.ReferenceIdeal.S65536x6, .i32⟩ : BufTy).Contents (Elt Ideal)) :
    (Cert.KernelIdeal.Val.nasOf (F := Ideal) msg a2a : Cert.KernelIdeal.S65536x256.Idx → EReal)
      = (nasR msg a2a : Cert.ReferenceIdeal.S65536x256.Idx → EReal) := rfl

set_option maxHeartbeats 400000 in

theorem nbs_K_R (x1 : (⟨Cert.ReferenceIdeal.S131072x147, .f32⟩ : BufTy).Contents (Elt Ideal)) (x3 : (⟨Cert.ReferenceIdeal.S65536x6, .i32⟩ : BufTy).Contents (Elt Ideal)) :
    (Cert.KernelIdeal.Val.nbsOf (F := Ideal) x1 x3 : Cert.KernelIdeal.S65536x14.Idx → EReal)
      = Cert.ReferenceIdeal.ReadP.val_main_v21 (F := Ideal) x1 x3 := rfl

set_option maxHeartbeats 400000 in

theorem cnt_K_R (x4 : (⟨Cert.ReferenceIdeal.S65536, .i32⟩ : BufTy).Contents (Elt Ideal)) :
    (Cert.KernelIdeal.Val.cntOf (F := Ideal) x4 : Cert.KernelIdeal.S2048.Idx → EReal)
      = Cert.ReferenceIdeal.ReadP.val_main_v72 (F := Ideal) x4 := rfl

end Cert.Proof.Chains

end
-- ==== Proof.BridgeAlg.lean ====
import proofs.«431103_j25254407701135_3_alg».proof.Proof.Spec
import proofs.«431103_j25254407701135_3_alg».proof.Proof.Algebra
import Idealize.ShloMosaic.Lib.ValueIdx
import Idealize.ShloMosaic.PureOps.Ideal.Laws

noncomputable section

open scoped BigOperators

namespace Cert.Alg

open Idealize.ShloMosaic Idealize.ShloMosaic.ValueIdx Cert.Spec

abbrev V1 (n : ℕ) : Type := (⟨1, ![n]⟩ : Shape).Idx → EReal

theorem msg0_bridge (af : Arr2 65536 133) (wi : Arr2 133 256) (bi2 : Arr2 1 256) (bi : V1 256)
    (hbi : ∀ j : Fin 256, bi2 (ix2 (0 : Fin 1) j) = bi (ix1 j)) (r : Fin 65536) (j : Fin 256) :
    msg0 af wi bi2 r j = max (rowDot af wi r j + bi (ix1 j)) 0 := by
  unfold msg0 inp
  rw [hbi]

theorem base_bridge (af : Arr2 65536 133) (wi : Arr2 133 256) (bi2 : Arr2 1 256) (bi : V1 256)
    (hbi : ∀ j : Fin 256, bi2 (ix2 (0 : Fin 1) j) = bi (ix1 j))
    (nbs : Arr2 65536 14) (whb : Arr2 14 256) (bh2 : Arr2 1 256) (wh : Arr2 270 256) (bh : V1 256)
    (hwhb : ∀ (q : Fin 14) (j : Fin 256), whb (ix2 q j) = wh (ix2 (⟨256 + q.val, by omega⟩ : Fin 270) j))
    (hbh : ∀ j : Fin 256, bh2 (ix2 (0 : Fin 1) j) = bh (ix1 j)) (r : Fin 65536) (j : Fin 256) :
    base af wi bi2 nbs whb bh2 r j
      = (rowDot af wi r j + bi (ix1 j))
        + ((∑ q : Fin 14, nbs (ix2 r q) * wh (ix2 (⟨256 + q.val, by omega⟩ : Fin 270) j)) + bh (ix1 j)) := by
  unfold base inp
  rw [hbi, hbh]
  congr 2
  unfold rowDot
  exact Finset.sum_congr rfl fun q _ => by rw [hwhb]

theorem step_bridge (a b : Arr2 65536 256) (wa : Arr2 256 256) (wh : Arr2 270 256) (nbs : Arr2 65536 14) (bh : V1 256)
    (inpv : Fin 65536 → Fin 256 → EReal)
    (hwa : ∀ (k j : Fin 256), wa (ix2 k j) = wh (ix2 (⟨k.val, by omega⟩ : Fin 270) j))
    (hb : ∀ (r : Fin 65536) (j : Fin 256), b (ix2 r j)
      = inpv r j + ((∑ q : Fin 14, nbs (ix2 r q) * wh (ix2 (⟨256 + q.val, by omega⟩ : Fin 270) j)) + bh (ix1 j)))
    (r : Fin 65536) (j : Fin 256) :
    step a b wa r j
      = max (inpv r j + (((∑ k : Fin 256, a (ix2 r k) * wh (ix2 (⟨k.val, by omega⟩ : Fin 270) j))
          + ∑ q : Fin 14, nbs (ix2 r q) * wh (ix2 (⟨256 + q.val, by omega⟩ : Fin 270) j)) + bh (ix1 j))) 0 := by
  unfold step rowDot
  rw [hb, add_rearrange]
  congr 2
  exact Finset.sum_congr rfl fun k _ => by rw [hwa]

def readoutRow (af : Arr2 65536 133) (am : Arr2 65536 256) (wo : Arr2 389 256) (bo : V1 256) (j : Fin 256)
    (e : Fin 65536) : EReal :=
  max (((∑ k : Fin 133, af (ix2 e k) * wo (ix2 (⟨k.val, by omega⟩ : Fin 389) j))
    + ∑ q : Fin 256, am (ix2 e q) * wo (ix2 (⟨133 + q.val, by omega⟩ : Fin 389) j)) + bo (ix1 j)) 0

theorem pool_half (af3 : Arr3 2 32768 133) (am3 : Arr3 2 32768 256)
    (seg3 : (⟨3, ![2, 32768, 1]⟩ : Shape).Idx → BitVec 32) (woaf : Arr2 133 256) (woam : Arr2 256 256) (bo2 : Arr2 1 256)
    (af : Arr2 65536 133) (am : Arr2 65536 256) (seg : (⟨1, ![65536]⟩ : Shape).Idx → BitVec 32) (wo : Arr2 389 256)
    (bo : V1 256)
    (haf : ∀ (h : Fin 2) (p : Fin 32768) (k : Fin 133),
      af3 (ix3 h p k) = af (ix2 (⟨h.val * 32768 + p.val, by omega⟩ : Fin 65536) k))
    (ham : ∀ (h : Fin 2) (p : Fin 32768) (k : Fin 256),
      am3 (ix3 h p k) = am (ix2 (⟨h.val * 32768 + p.val, by omega⟩ : Fin 65536) k))
    (hseg : ∀ (h : Fin 2) (p : Fin 32768),
      seg3 (ix3 h p (0 : Fin 1)) = seg (ix1 (⟨h.val * 32768 + p.val, by omega⟩ : Fin 65536)))
    (hwoaf : ∀ (k : Fin 133) (j : Fin 256), woaf (ix2 k j) = wo (ix2 (⟨k.val, by omega⟩ : Fin 389) j))
    (hwoam : ∀ (q j : Fin 256), woam (ix2 q j) = wo (ix2 (⟨133 + q.val, by omega⟩ : Fin 389) j))
    (hbo : ∀ j : Fin 256, bo2 (ix2 (0 : Fin 1) j) = bo (ix1 j)) (h : Fin 2) (s : Fin 2048) (j : Fin 256) :
    pool af3 am3 seg3 woaf woam bo2 h s j
      = ∑ p : Fin 32768, (if seg (ix1 (⟨h.val * 32768 + p.val, by omega⟩ : Fin 65536)) = BitVec.ofNat 32 s.val
          then (1 : EReal) else 0) * readoutRow af am wo bo j ⟨h.val * 32768 + p.val, by omega⟩ := by
  unfold pool
  refine Finset.sum_congr rfl fun p _ => ?_
  unfold Cert.Spec.oneHot Cert.Spec.hidden readoutRow
  rw [hseg, hbo]
  congr 4
  · exact Finset.sum_congr rfl fun k _ => by rw [haf, hwoaf]
  · exact Finset.sum_congr rfl fun k _ => by rw [ham, hwoam]

theorem pool_bridge (af3 : Arr3 2 32768 133) (am3 : Arr3 2 32768 256)
    (seg3 : (⟨3, ![2, 32768, 1]⟩ : Shape).Idx → BitVec 32) (woaf : Arr2 133 256) (woam : Arr2 256 256) (bo2 : Arr2 1 256)
    (af : Arr2 65536 133) (am : Arr2 65536 256) (seg : (⟨1, ![65536]⟩ : Shape).Idx → BitVec 32) (wo : Arr2 389 256)
    (bo : V1 256)
    (haf : ∀ (h : Fin 2) (p : Fin 32768) (k : Fin 133),
      af3 (ix3 h p k) = af (ix2 (⟨h.val * 32768 + p.val, by omega⟩ : Fin 65536) k))
    (ham : ∀ (h : Fin 2) (p : Fin 32768) (k : Fin 256),
      am3 (ix3 h p k) = am (ix2 (⟨h.val * 32768 + p.val, by omega⟩ : Fin 65536) k))
    (hseg : ∀ (h : Fin 2) (p : Fin 32768),
      seg3 (ix3 h p (0 : Fin 1)) = seg (ix1 (⟨h.val * 32768 + p.val, by omega⟩ : Fin 65536)))
    (hwoaf : ∀ (k : Fin 133) (j : Fin 256), woaf (ix2 k j) = wo (ix2 (⟨k.val, by omega⟩ : Fin 389) j))
    (hwoam : ∀ (q j : Fin 256), woam (ix2 q j) = wo (ix2 (⟨133 + q.val, by omega⟩ : Fin 389) j))
    (hbo : ∀ j : Fin 256, bo2 (ix2 (0 : Fin 1) j) = bo (ix1 j)) (s : Fin 2048) (j : Fin 256) :
    pool af3 am3 seg3 woaf woam bo2 (0 : Fin 2) s j + pool af3 am3 seg3 woaf woam bo2 (1 : Fin 2) s j
      = ∑ e ∈ Finset.univ.filter (fun e : Fin 65536 => (seg (ix1 e)).toInt = (s.val : ℤ)),
          max (((∑ k : Fin 133, af (ix2 e k) * wo (ix2 (⟨k.val, by omega⟩ : Fin 389) j))
            + ∑ q : Fin 256, am (ix2 e q) * wo (ix2 (⟨133 + q.val, by omega⟩ : Fin 389) j)) + bo (ix1 j)) 0 := by
  rw [pool_half af3 am3 seg3 woaf woam bo2 af am seg wo bo haf ham hseg hwoaf hwoam hbo 0 s j,
    pool_half af3 am3 seg3 woaf woam bo2 af am seg wo bo haf ham hseg hwoaf hwoam hbo 1 s j]
  show _ = ∑ e ∈ Finset.univ.filter (fun e : Fin 65536 => (seg (ix1 e)).toInt = (s.val : ℤ)), readoutRow af am wo bo j e
  rw [filter_sum_eq_ite_mul (fun e : Fin 65536 => seg (ix1 e)) s (readoutRow af am wo bo j), sum_halves]
  refine congrArg₂ (· + ·) ?_ ?_
  · refine Finset.sum_congr rfl fun p _ => ?_
    have e : (⟨(0 : Fin 2).val * 32768 + p.val, by omega⟩ : Fin 65536) = ⟨p.val, by omega⟩ :=
      Fin.ext (by show (0 : Fin 2).val * 32768 + p.val = p.val; simp)
    rw [e]
  · refine Finset.sum_congr rfl fun p _ => ?_
    have e : (⟨(1 : Fin 2).val * 32768 + p.val, by omega⟩ : Fin 65536) = ⟨32768 + p.val, by omega⟩ :=
      Fin.ext (by show (1 : Fin 2).val * 32768 + p.val = 32768 + p.val; simp)
    rw [e]

theorem final_bridge (sums cnt : EReal) :
    sums * (if Idealize.ShloMosaic.Ideal.cmp .ogt cnt 0 = 1#1 then Idealize.ShloMosaic.Ideal.div 1 (max cnt 1) else 0)
      = if Idealize.ShloMosaic.Ideal.cmp .ogt cnt 0 = 1#1 then Idealize.ShloMosaic.Ideal.div sums (max cnt 1) else 0 := by
  split_ifs
  · exact (div_eq_mul_one_div sums (max cnt 1) (max_one_ne_zero cnt)).symm
  · exact mul_zero sums

end Cert.Alg

end
-- ==== Proof.Bridge.lean ====
import proofs.«431103_j25254407701135_3_alg».proof.Defs
import proofs.«431103_j25254407701135_3_alg».proof.Proof.Gen.KernelIdeal
import proofs.«431103_j25254407701135_3_alg».proof.Proof.Gen.ReferenceIdeal
import proofs.«431103_j25254407701135_3_alg».proof.Proof.Gen.Pre_finite_inputs
import proofs.«431103_j25254407701135_3_alg».proof.Proof.FrRun
import proofs.«431103_j25254407701135_3_alg».proof.Proof.KStages
import proofs.«431103_j25254407701135_3_alg».proof.Proof.KLayout
import proofs.«431103_j25254407701135_3_alg».proof.Proof.RefVal
import proofs.«431103_j25254407701135_3_alg».proof.Proof.RefRunP
import proofs.«431103_j25254407701135_3_alg».proof.Proof.Chains
import proofs.«431103_j25254407701135_3_alg».proof.Proof.BridgeAlg
import proofs.«431103_j25254407701135_3_alg».proof.Proof.Algebra

set_option maxRecDepth 16384

noncomputable section

namespace Cert.Proof.Bridge

open Idealize.ShloMosaic Idealize.ShloMosaic.TcCoe Idealize.ShloMosaic.ValueIdx Idealize.SL.Sem
open scoped BigOperators

section Core

open Cert.KernelIdeal Cert.KernelIdeal.Gen Cert.KernelIdeal.Val
open Cert.ReferenceIdeal.ReadP Cert.ReferenceIdeal.RefVal Cert.Proof.Chains Cert.Alg

structure Stages (x0 : S65536x133.Idx → EReal) (x1 : S131072x147.Idx → EReal) (x2 x3 : S65536x6.Idx → BitVec 32)
    (x4 : S65536.Idx → BitVec 32) (x5 : S133x256.Idx → EReal) (x6 : S256.Idx → EReal) (x7 : S270x256.Idx → EReal)
    (x8 : S256.Idx → EReal) (x9 : S389x256.Idx → EReal) (x10 : S256.Idx → EReal)
    (M0 B M1 M2 : S65536x256.Idx → EReal) (P : S2x2048x256.Idx → EReal) : Prop where
  m0 : ∀ (r : Fin 65536) (j : Fin 256), M0 (ix2 r j)
    = Cert.Spec.msg0 x0 x5 (shapeCast S1x256 x6 shapeCasts_S256_S1x256) r j
  b : ∀ (r : Fin 65536) (j : Fin 256), B (ix2 r j)
    = Cert.Spec.base x0 x5 (shapeCast S1x256 x6 shapeCasts_S256_S1x256) (nbsOf (F := Ideal) x1 x3)
        (extractStridedSlice S14x256 ![256, 0] x7 slices_S270x256_S14x256_256_0)
        (shapeCast S1x256 x8 shapeCasts_S256_S1x256) r j
  m1 : ∀ (r : Fin 65536) (j : Fin 256), M1 (ix2 r j)
    = Cert.Spec.step (nasOf (F := Ideal) M0 x2) B
        (extractStridedSlice S256x256 ![0, 0] x7 slices_S270x256_S256x256_0_0) r j
  m2 : ∀ (r : Fin 65536) (j : Fin 256), M2 (ix2 r j)
    = Cert.Spec.step (nasOf (F := Ideal) M1 x2) B
        (extractStridedSlice S256x256 ![0, 0] x7 slices_S270x256_S256x256_0_0) r j
  p : ∀ (h : Fin 2) (s : Fin 2048) (j : Fin 256), P (ix3 h s j)
    = Cert.Spec.pool (shapeCast S2x32768x133 x0 shapeCasts_S65536x133_S2x32768x133)
        (shapeCast S2x32768x256 (nasOf (F := Ideal) M2 x2) shapeCasts_S65536x256_S2x32768x256)
        (shapeCast S2x32768x1 x4 shapeCasts_S65536_S2x32768x1)
        (extractStridedSlice S133x256 ![0, 0] x9 slices_S389x256_S133x256_0_0)
        (extractStridedSlice S256x256 ![133, 0] x9 slices_S389x256_S256x256_133_0)
        (shapeCast S1x256 x10 shapeCasts_S256_S1x256) h s j

variable {x0 : S65536x133.Idx → EReal} {x1 : S131072x147.Idx → EReal} {x2 x3 : S65536x6.Idx → BitVec 32}
  {x4 : S65536.Idx → BitVec 32} {x5 : S133x256.Idx → EReal} {x6 : S256.Idx → EReal} {x7 : S270x256.Idx → EReal}
  {x8 : S256.Idx → EReal} {x9 : S389x256.Idx → EReal} {x10 : S256.Idx → EReal}
  {M0 B M1 M2 : S65536x256.Idx → EReal} {P : S2x2048x256.Idx → EReal}

set_option maxHeartbeats 400000 in

theorem msg0_eq (S : Stages x0 x1 x2 x3 x4 x5 x6 x7 x8 x9 x10 M0 B M1 M2 P) :
    M0 = val_main_v4 (F := Ideal) x0 x5 x6 := by
  funext i
  obtain ⟨r, j, rfl⟩ : ∃ (r : Fin 65536) (j : Fin 256), i = ix2 r j := ⟨i 0, i 1, eq_ix2 i⟩
  rw [S.m0 r j, msg0_bridge x0 x5 (shapeCast S1x256 x6 shapeCasts_S256_S1x256) x6 (rs_row x6) r j,
    chain_v4 (F := Ideal) x0 x5 x6, ref_relu (val_main_v3 (F := Ideal) x0 x5 x6) r j, ref_inp x0 x5 x6 r j]

set_option maxHeartbeats 400000 in

theorem base_eq (S : Stages x0 x1 x2 x3 x4 x5 x6 x7 x8 x9 x10 M0 B M1 M2 P) (r : Fin 65536) (j : Fin 256) :
    B (ix2 r j) = val_main_v3 (F := Ideal) x0 x5 x6 (ix2 r j)
      + ((∑ q : Fin 14, val_main_v21 (F := Ideal) x1 x3 (ix2 r q) * x7 (ix2 (⟨256 + q.val, by omega⟩ : Fin 270) j))
        + x8 (ix1 j)) := by
  rw [S.b r j,
    base_bridge x0 x5 (shapeCast S1x256 x6 shapeCasts_S256_S1x256) x6 (rs_row x6) (nbsOf (F := Ideal) x1 x3)
      (extractStridedSlice S14x256 ![256, 0] x7 slices_S270x256_S14x256_256_0)
      (shapeCast S1x256 x8 shapeCasts_S256_S1x256) x7 x8 (sl_whb x7) (rs_row x8) r j,
    nbs_K_R x1 x3, ref_inp x0 x5 x6 r j]

set_option maxHeartbeats 400000 in

theorem nas0_eq (S : Stages x0 x1 x2 x3 x4 x5 x6 x7 x8 x9 x10 M0 B M1 M2 P) :
    nasOf (F := Ideal) M0 x2 = val_main_v13 (F := Ideal) x0 x2 x5 x6 := by
  rw [nas_K_R M0 x2, msg0_eq S]
  exact (v13_R x0 x2 x5 x6).symm

set_option maxHeartbeats 400000 in

theorem msg1_eq (S : Stages x0 x1 x2 x3 x4 x5 x6 x7 x8 x9 x10 M0 B M1 M2 P) :
    M1 = val_main_v28 (F := Ideal) x0 x1 x2 x3 x5 x6 x7 x8 := by
  funext i
  obtain ⟨r, j, rfl⟩ : ∃ (r : Fin 65536) (j : Fin 256), i = ix2 r j := ⟨i 0, i 1, eq_ix2 i⟩
  rw [S.m1 r j,
    step_bridge (nasOf (F := Ideal) M0 x2) B (extractStridedSlice S256x256 ![0, 0] x7 slices_S270x256_S256x256_0_0) x7
      (val_main_v21 (F := Ideal) x1 x3) x8 (fun r j => val_main_v3 (F := Ideal) x0 x5 x6 (ix2 r j))
      (sl_wha x7) (base_eq S) r j,
    nas0_eq S,
    chain_v28 (F := Ideal) x0 x1 x2 x3 x5 x6 x7 x8, ref_relu (val_main_v27 (F := Ideal) x0 x1 x2 x3 x5 x6 x7 x8) r j,
    chain_v27 (F := Ideal) x0 x1 x2 x3 x5 x6 x7 x8,
    ref_step (val_main_v3 (F := Ideal) x0 x5 x6) (val_main_v23 (F := Ideal) x0 x1 x2 x3 x5 x6 x7) x8 r j,
    chain_v23 (F := Ideal) x0 x1 x2 x3 x5 x6 x7,
    ref_cat270 (val_main_v13 (F := Ideal) x0 x2 x5 x6) (val_main_v21 (F := Ideal) x1 x3) x7 r j]

set_option maxHeartbeats 400000 in

theorem nas1_eq (S : Stages x0 x1 x2 x3 x4 x5 x6 x7 x8 x9 x10 M0 B M1 M2 P) :
    nasOf (F := Ideal) M1 x2 = val_main_v36 (F := Ideal) x0 x1 x2 x3 x5 x6 x7 x8 := by
  rw [nas_K_R M1 x2, msg1_eq S]
  exact (v36_R x0 x1 x2 x3 x5 x6 x7 x8).symm

set_option maxHeartbeats 400000 in

theorem msg2_eq (S : Stages x0 x1 x2 x3 x4 x5 x6 x7 x8 x9 x10 M0 B M1 M2 P) :
    M2 = val_main_v51 (F := Ideal) x0 x1 x2 x3 x5 x6 x7 x8 := by
  funext i
  obtain ⟨r, j, rfl⟩ : ∃ (r : Fin 65536) (j : Fin 256), i = ix2 r j := ⟨i 0, i 1, eq_ix2 i⟩
  rw [S.m2 r j,
    step_bridge (nasOf (F := Ideal) M1 x2) B (extractStridedSlice S256x256 ![0, 0] x7 slices_S270x256_S256x256_0_0) x7
      (val_main_v21 (F := Ideal) x1 x3) x8 (fun r j => val_main_v3 (F := Ideal) x0 x5 x6 (ix2 r j))
      (sl_wha x7) (base_eq S) r j,
    nas1_eq S,
    chain_v51 (F := Ideal) x0 x1 x2 x3 x5 x6 x7 x8, ref_relu (val_main_v50 (F := Ideal) x0 x1 x2 x3 x5 x6 x7 x8) r j,
    chain_v50 (F := Ideal) x0 x1 x2 x3 x5 x6 x7 x8,
    ref_step (val_main_v3 (F := Ideal) x0 x5 x6) (val_main_v46 (F := Ideal) x0 x1 x2 x3 x5 x6 x7 x8) x8 r j,
    chain_v46 (F := Ideal) x0 x1 x2 x3 x5 x6 x7 x8,
    ref_cat270 (val_main_v36 (F := Ideal) x0 x1 x2 x3 x5 x6 x7 x8) (val_main_v21 (F := Ideal) x1 x3) x7 r j]

set_option maxHeartbeats 400000 in

theorem nas2_eq (S : Stages x0 x1 x2 x3 x4 x5 x6 x7 x8 x9 x10 M0 B M1 M2 P) :
    nasOf (F := Ideal) M2 x2 = val_main_v59 (F := Ideal) x0 x1 x2 x3 x5 x6 x7 x8 := by
  rw [nas_K_R M2 x2, msg2_eq S]
  exact (v59_R x0 x1 x2 x3 x5 x6 x7 x8).symm

set_option maxHeartbeats 400000 in

theorem pool_eq (S : Stages x0 x1 x2 x3 x4 x5 x6 x7 x8 x9 x10 M0 B M1 M2 P) (s : Fin 2048) (j : Fin 256) :
    P (ix3 (0 : Fin 2) s j) + P (ix3 (1 : Fin 2) s j)
      = val_main_v68 (F := Ideal) x0 x1 x2 x3 x4 x5 x6 x7 x8 x9 x10 (ix2 s j) := by
  rw [S.p 0 s j, S.p 1 s j,
    pool_bridge (shapeCast S2x32768x133 x0 shapeCasts_S65536x133_S2x32768x133)
      (shapeCast S2x32768x256 (nasOf (F := Ideal) M2 x2) shapeCasts_S65536x256_S2x32768x256)
      (shapeCast S2x32768x1 x4 shapeCasts_S65536_S2x32768x1)
      (extractStridedSlice S133x256 ![0, 0] x9 slices_S389x256_S133x256_0_0)
      (extractStridedSlice S256x256 ![133, 0] x9 slices_S389x256_S256x256_133_0)
      (shapeCast S1x256 x10 shapeCasts_S256_S1x256)
      x0 (nasOf (F := Ideal) M2 x2) x4 x9 x10
      (rs_af3 x0) (rs_am3 (nasOf (F := Ideal) M2 x2)) (rs_seg3 x4) (sl_woaf x9) (sl_woam x9) (rs_row x10) s j,
    nas2_eq S,
    chain_v68 (F := Ideal) x0 x1 x2 x3 x4 x5 x6 x7 x8 x9 x10,
    ref_scatter (val_main_v65 (F := Ideal) x0 x1 x2 x3 x5 x6 x7 x8 x9 x10) x4 s j]
  refine Finset.sum_congr (Finset.filter_congr fun e _ => Iff.rfl) fun e _ => ?_
  rw [chain_v65 (F := Ideal) x0 x1 x2 x3 x5 x6 x7 x8 x9 x10,
    ref_relu (val_main_v64 (F := Ideal) x0 x1 x2 x3 x5 x6 x7 x8 x9 x10) e j,
    chain_v64 (F := Ideal) x0 x1 x2 x3 x5 x6 x7 x8 x9 x10,
    ref_bias (val_main_v61 (F := Ideal) x0 x1 x2 x3 x5 x6 x7 x8 x9) x10 e j,
    chain_v61 (F := Ideal) x0 x1 x2 x3 x5 x6 x7 x8 x9,
    ref_cat389 x0 (val_main_v59 (F := Ideal) x0 x1 x2 x3 x5 x6 x7 x8) x9 e j]

set_option maxHeartbeats 400000 in

theorem res_core (S : Stages x0 x1 x2 x3 x4 x5 x6 x7 x8 x9 x10 M0 B M1 M2 P) :
    (mulf (F := Ideal) (φ := .f32)
        (addf (F := Ideal) (φ := .f32)
          (shapeCast S2048x256 (extractStridedSlice S1x2048x256 ![0, 0, 0] P slices_S2x2048x256_S1x2048x256_0_0_0) shapeCasts_S1x2048x256_S2048x256)
          (shapeCast S2048x256 (extractStridedSlice S1x2048x256 ![1, 0, 0] P slices_S2x2048x256_S1x2048x256_1_0_0) shapeCasts_S1x2048x256_S2048x256))
        (broadcastInDim S2048x256 ![0, 1] bcast_S2048x1_S2048x256_0_1 (shapeCast S2048x1 (invOf (F := Ideal) x4) shapeCasts_S2048_S2048x1))
      : S2048x256.Idx → EReal)
      = val_main_v81 (F := Ideal) x0 x1 x2 x3 x4 x5 x6 x7 x8 x9 x10 := by
  funext i
  obtain ⟨s, j, rfl⟩ : ∃ (s : Fin 2048) (j : Fin 256), i = ix2 s j := ⟨i 0, i 1, eq_ix2 i⟩
  rw [res_apply P (invOf (F := Ideal) x4) s j, pool_eq S s j, inv_apply x4 s, cnt_K_R x4, final_bridge,
    chain_v81 (F := Ideal) x0 x1 x2 x3 x4 x5 x6 x7 x8 x9 x10,
    ref_final (val_main_v68 (F := Ideal) x0 x1 x2 x3 x4 x5 x6 x7 x8 x9 x10) (val_main_v72 (F := Ideal) x4) s j]

end Core

section Runs

open Cert.KernelIdeal Cert.KernelIdeal.Gen Cert.KernelIdeal.Fr Cert.KernelIdeal.Val

set_option maxHeartbeats 400000 in

theorem result_eq (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (hagree :
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    (W11 m ρ c (Proc.devRef .tc main_v71) : S2048x256.Idx → EReal)
      = (Cert.ReferenceIdeal.ValueP.res_main_v81 m' c : Cert.ReferenceIdeal.S2048x256.Idx → EReal) := by
  obtain ⟨a0, a1, a2, a3, a4, a5, a6, a7, a8, a9, a10⟩ := hagree
  rw [Cert.ReferenceIdeal.ReadP.val_main_v81_eq m' c, a0, a1, a2, a3, a4, a5, a6, a7, a8, a9, a10, k_res m ρ c]
  exact res_core
    (M0 := W2 m ρ c (Proc.devRef .tc main_v13_0)) (B := W2 m ρ c (Proc.devRef .tc main_v13_1))
    (M1 := W4 m ρ c (Proc.devRef .tc main_v24)) (M2 := W6 m ρ c (Proc.devRef .tc main_v35))
    (P := W10 m ρ c (Proc.devRef .tc main_v63))
    ⟨k_msg0 m ρ c, k_base m ρ c, k_msg1 m ρ c, k_msg2 m ρ c, k_part m ρ c⟩

end Runs

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Fr.W11 m ρ c (Proc.devRef .tc Cert.KernelIdeal.main_v71),
    Cert.KernelIdeal.Fr.result (F := Ideal) m ρ, ?_⟩
  refine (θ_run Cert.ReferenceIdeal.defs _ _).mono (fun _ h c => ⟨(h c).1.trans ?_, (h c).2⟩)
    (Cert.ReferenceIdeal.ValueP.run (F := Ideal) m' ρ')
  exact (result_eq m ρ m' c (hagree c)).symm

end Cert.Proof.Bridge

end
-- ==== Proof.lean ====
import proofs.«431103_j25254407701135_3_alg».proof.Defs
import proofs.«431103_j25254407701135_3_alg».proof.Proof.Gen.Kernel
import proofs.«431103_j25254407701135_3_alg».proof.Proof.Gen.KernelIdeal
import proofs.«431103_j25254407701135_3_alg».proof.Proof.Gen.ReferenceIdeal
import proofs.«431103_j25254407701135_3_alg».proof.Proof.Gen.Pre_finite_inputs
import proofs.«431103_j25254407701135_3_alg».proof.Proof.KFrRun
import proofs.«431103_j25254407701135_3_alg».proof.Proof.FrRun
import proofs.«431103_j25254407701135_3_alg».proof.Proof.RefRunP
import proofs.«431103_j25254407701135_3_alg».proof.Proof.Bridge
import Idealize.ShloMosaic.Adequacy
import Idealize.ShloMosaic.Init

noncomputable section

namespace Cert.Proof

open Idealize.ShloMosaic Idealize.SL.Sem

-- Each frame is its program's run with the result dropped.
theorem frame_k : Cert.frame_Kernel (hKernel := Cert.Kernel.Gen.facts) (hPre_finite_inputs := Cert.Pre_finite_inputs.Gen.facts) :=
  fun m ρ _ => (θ_run Cert.Kernel.defs _ _).mono (fun _ h c => (h c).2) (Cert.Kernel.Fr.result m ρ)

theorem frame_ki : Cert.frame_KernelIdeal (hKernelIdeal := Cert.KernelIdeal.Gen.facts) (hPre_finite_inputs := Cert.Pre_finite_inputs.Gen.facts) :=
  fun m ρ _ => (θ_run Cert.KernelIdeal.defs _ _).mono (fun _ h c => (h c).2) (Cert.KernelIdeal.Fr.result m ρ)

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, trivial, Cert.Proof.Bridge.algebraic⟩

end Cert.Proof

end
